-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S2x64x64 : Shape := ⟨3, ![2, 64, 64]⟩
abbrev S192x64 : Shape := ⟨2, ![192, 64]⟩
abbrev S192 : Shape := ⟨1, ![192]⟩
abbrev S32x64 : Shape := ⟨2, ![32, 64]⟩
abbrev S32 : Shape := ⟨1, ![32]⟩
abbrev S6x32 : Shape := ⟨2, ![6, 32]⟩
abbrev S6 : Shape := ⟨1, ![6]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S6 : S_.BroadcastsInDim S6 (![] : Fin 0 → Fin S6.rank)
  reducesTo_S6_S_d0 : S6.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg1
  let main_v56 : IVec S800000 32 := shapeCast S800000 main_v55 shapeCasts_S1x800000_S800000
  let main_c_20 : IVec S_ 32 := constantI S_ 32 50000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg1 : IVec S2x800000 32) (main_arg9 : FVec F S32 .f32) (main_arg10 : FVec F S6x32 .f32) (main_arg11 : FVec F S6 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S6x32 .f32 := Host.absf main_arg10
  let main_cst_14 : FVec F S_ .f32 := constant S_ .f32 0x7F800000#32
  let main_v40 : FVec F S6x32 .f32 := broadcastInDim S6x32 ![] bcast_S_S6x32 main_cst_14
  let main_v41 : IVec S6x32 1 := cmpf .olt main_v39 main_v40
  let main_c_15 : IVec S_ 1 := constantI S_ 1 1#1
  let main_v42 : IVec S_ 1 := (fun x v => Host.reduce IntOp.andi x v reducesTo_S6x32_S_d0_1 h_S_) main_v41 main_c_15
  let main_v43 : IVec S_ 1 := andi main_v38 main_v42
  let main_v44 : FVec F S6 .f32 := Host.absf main_arg11
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg6 : FVec F S192 .f32) (main_arg7 : FVec F S192 .f32) (main_arg8 : FVec F S32x64 .f32) (main_arg9 : FVec F S32 .f32) (main_arg10 : FVec F S6x32 .f32) (main_arg11 : FVec F S6 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg6
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg7
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x64 .f32) (main_arg1 : IVec S2x800000 32) (main_arg2 : IVec S50000 32) (main_arg3 : FVec F S2x64x64 .f32) (main_arg4 : FVec F S192x64 .f32) (main_arg5 : FVec F S192x64 .f32) (main_arg6 : FVec F S192 .f32) (main_arg7 : FVec F S192 .f32) (main_arg8 : FVec F S32x64 .f32) (main_arg9 : FVec F S32 .f32) (main_arg10 : FVec F S6x32 .f32) (main_arg11 : FVec F S6 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg3
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg1 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S2x64x64 : Shape := ⟨3, ![2, 64, 64]⟩
abbrev S192x64 : Shape := ⟨2, ![192, 64]⟩
abbrev S192 : Shape := ⟨1, ![192]⟩
abbrev S32x64 : Shape := ⟨2, ![32, 64]⟩
abbrev S32 : Shape := ⟨1, ![32]⟩
abbrev S6x32 : Shape := ⟨2, ![6, 32]⟩
abbrev S6 : Shape := ⟨1, ![6]⟩
abbrev S_ : Shape := ⟨0, ![]⟩
abbrev S50176x64 : Shape := ⟨2, ![50176, 64]⟩
abbrev S50176 : Shape := ⟨1, ![50176]⟩
abbrev S50176x1 : Shape := ⟨2, ![50176, 1]⟩
abbrev S1x800000 : Shape := ⟨2, ![1, 800000]⟩
abbrev S800000 : Shape := ⟨1, ![800000]⟩
abbrev S800000x1 : Shape := ⟨2, ![800000, 1]⟩
abbrev S64x192 : Shape := ⟨2, ![64, 192]⟩
abbrev S1x192 : Shape := ⟨2, ![1, 192]⟩
abbrev S1x64x64 : Shape := ⟨3, ![1, 64, 64]⟩
abbrev S64x64 : Shape := ⟨2, ![64, 64]⟩
abbrev S6272x64 : Shape := ⟨2, ![6272, 64]⟩
abbrev S640x1 : Shape := ⟨2, ![640, 1]⟩
abbrev S1x640 : Shape := ⟨2, ![1, 640]⟩
abbrev S640x64 : Shape := ⟨2, ![640, 64]⟩
abbrev S3584x64 : Shape := ⟨2, ![3584, 64]⟩
abbrev S1x3584 : Shape := ⟨2, ![1, 3584]⟩
abbrev S640x3584 : Shape := ⟨2, ![640, 3584]⟩
abbrev S3584x1 : Shape := ⟨2, ![3584, 1]⟩
abbrev S3584x640 : Shape := ⟨2, ![3584, 640]⟩
abbrev S6272x192 : Shape := ⟨2, ![6272, 192]⟩
abbrev S128x64 : Shape := ⟨2, ![128, 64]⟩
abbrev S128x1 : Shape := ⟨2, ![128, 1]⟩
abbrev S6272x1 : Shape := ⟨2, ![6272, 1]⟩
abbrev S1x128 : Shape := ⟨2, ![1, 128]⟩
abbrev S6272x128 : Shape := ⟨2, ![6272, 128]⟩
abbrev S64x32 : Shape := ⟨2, ![64, 32]⟩
abbrev S1x32 : Shape := ⟨2, ![1, 32]⟩
abbrev S32x6 : Shape := ⟨2, ![32, 6]⟩
abbrev S1x6 : Shape := ⟨2, ![1, 6]⟩
abbrev S128x6 : Shape := ⟨2, ![128, 6]⟩
abbrev S128x32 : Shape := ⟨2, ![128, 32]⟩
abbrev S128 : Shape := ⟨1, ![128]⟩

abbrev nBuf : Space → Nat
  | .hbm => 46
  | .vmem => 57
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S2x64x64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S32x64, .f32⟩
  | .hbm, ⟨9, _⟩ => ⟨S32, .f32⟩
  | .hbm, ⟨10, _⟩ => ⟨S6x32, .f32⟩
  | .hbm, ⟨11, _⟩ => ⟨S6, .f32⟩
  | .hbm, ⟨12, _⟩ => ⟨S_, .i32⟩
  | .hbm, ⟨13, _⟩ => ⟨S_, .f32⟩
  | .hbm, ⟨14, _⟩ => ⟨S50176x64, .f32⟩
  | .hbm, ⟨15, _⟩ => ⟨S_, .i32⟩
  | .hbm, ⟨16, _⟩ => ⟨S_, .i32⟩
  | .hbm, ⟨17, _⟩ => ⟨S50176, .i32⟩
  | .hbm, ⟨18, _⟩ => ⟨S50176x1, .i32⟩
  | .hbm, ⟨19, _⟩ => ⟨S1x800000, .i32⟩
  | .hbm, ⟨20, _⟩ => ⟨S800000, .i32⟩
  | .hbm, ⟨21, _⟩ => ⟨S800000x1, .i32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S64x192, .f32⟩
  | .hbm, ⟨26, _⟩ => ⟨S64x192, .f32⟩
  | .hbm, ⟨27, _⟩ => ⟨S1x192, .f32⟩
  | .hbm, ⟨28, _⟩ => ⟨S1x192, .f32⟩
  | .hbm, ⟨29, _⟩ => ⟨S1x64x64, .f32⟩
  | .hbm, ⟨30, _⟩ => ⟨S64x64, .f32⟩
  | .hbm, ⟨31, _⟩ => ⟨S50176x64, .bf16⟩
  | .hbm, ⟨32, _⟩ => ⟨S50176x64, .f32⟩
  | .hbm, ⟨33, _⟩ => ⟨S50176x64, .f32⟩
  | .hbm, ⟨34, _⟩ => ⟨S1x64x64, .f32⟩
  | .hbm, ⟨35, _⟩ => ⟨S64x64, .f32⟩
  | .hbm, ⟨36, _⟩ => ⟨S50176x64, .bf16⟩
  | .hbm, ⟨37, _⟩ => ⟨S50176x64, .f32⟩
  | .hbm, ⟨38, _⟩ => ⟨S50176x64, .f32⟩
  | .hbm, ⟨39, _⟩ => ⟨S128x64, .f32⟩
  | .hbm, ⟨40, _⟩ => ⟨S128x1, .f32⟩
  | .hbm, ⟨41, _⟩ => ⟨S64x32, .f32⟩
  | .hbm, ⟨42, _⟩ => ⟨S1x32, .f32⟩
  | .hbm, ⟨43, _⟩ => ⟨S32x6, .f32⟩
  | .hbm, ⟨44, _⟩ => ⟨S1x6, .f32⟩
  | .hbm, ⟨45, _⟩ => ⟨S128x6, .f32⟩
  | .local _ .vmem, ⟨0, _⟩ => ⟨S6272x64, .f32⟩
  | .local _ .vmem, ⟨1, _⟩ => ⟨S6272x64, .f32⟩
  | .local _ .vmem, ⟨2, _⟩ => ⟨S64x64, .f32⟩
  | .local _ .vmem, ⟨3, _⟩ => ⟨S6272x64, .bf16⟩
  | .local _ .vmem, ⟨4, _⟩ => ⟨S6272x64, .bf16⟩
  | .local _ .vmem, ⟨5, _⟩ => ⟨S640x1, .i32⟩
  | .local _ .vmem, ⟨6, _⟩ => ⟨S640x1, .i32⟩
  | .local _ .vmem, ⟨7, _⟩ => ⟨S1x640, .i32⟩
  | .local _ .vmem, ⟨8, _⟩ => ⟨S1x640, .i32⟩
  | .local _ .vmem, ⟨9, _⟩ => ⟨S50176x64, .bf16⟩
  | .local _ .vmem, ⟨10, _⟩ => ⟨S50176x64, .f32⟩
  | .local _ .vmem, ⟨11, _⟩ => ⟨S640x64, .f32⟩
  | .local _ .vmem, ⟨12, _⟩ => ⟨S6272x64, .f32⟩
  | .local _ .vmem, ⟨13, _⟩ => ⟨S6272x64, .f32⟩
  | .local _ .vmem, ⟨14, _⟩ => ⟨S6272x64, .f32⟩
  | .local _ .vmem, ⟨15, _⟩ => ⟨S6272x64, .f32⟩
  | .local _ .vmem, ⟨16, _⟩ => ⟨S64x192, .f32⟩
  | .local _ .vmem, ⟨17, _⟩ => ⟨S64x192, .f32⟩
  | .local _ .vmem, ⟨18, _⟩ => ⟨S1x192, .f32⟩
  | .local _ .vmem, ⟨19, _⟩ => ⟨S1x192, .f32⟩
  | .local _ .vmem, ⟨20, _⟩ => ⟨S6272x64, .f32⟩
  | .local _ .vmem, ⟨21, _⟩ => ⟨S6272x64, .f32⟩
  | .local _ .vmem, ⟨22, _⟩ => ⟨S6272x64, .f32⟩
  | .local _ .vmem, ⟨23, _⟩ => ⟨S6272x64, .f32⟩
  | .local _ .vmem, ⟨24, _⟩ => ⟨S64x64, .f32⟩
  | .local _ .vmem, ⟨25, _⟩ => ⟨S6272x64, .bf16⟩
  | .local _ .vmem, ⟨26, _⟩ => ⟨S6272x64, .bf16⟩
  | .local _ .vmem, ⟨27, _⟩ => ⟨S640x1, .i32⟩
  | .local _ .vmem, ⟨28, _⟩ => ⟨S640x1, .i32⟩
  | .local _ .vmem, ⟨29, _⟩ => ⟨S1x640, .i32⟩
  | .local _ .vmem, ⟨30, _⟩ => ⟨S1x640, .i32⟩
  | .local _ .vmem, ⟨31, _⟩ => ⟨S50176x64, .bf16⟩
  | .local _ .vmem, ⟨32, _⟩ => ⟨S50176x64, .f32⟩
  | .local _ .vmem, ⟨33, _⟩ => ⟨S640x64, .f32⟩
  | .local _ .vmem, ⟨34, _⟩ => ⟨S6272x64, .f32⟩
  | .local _ .vmem, ⟨35, _⟩ => ⟨S6272x64, .f32⟩
  | .local _ .vmem, ⟨36, _⟩ => ⟨S6272x64, .f32⟩
  | .local _ .vmem, ⟨37, _⟩ => ⟨S6272x64, .f32⟩
  | .local _ .vmem, ⟨38, _⟩ => ⟨S64x192, .f32⟩
  | .local _ .vmem, ⟨39, _⟩ => ⟨S64x192, .f32⟩
  | .local _ .vmem, ⟨40, _⟩ => ⟨S1x192, .f32⟩
  | .local _ .vmem, ⟨41, _⟩ => ⟨S1x192, .f32⟩
  | .local _ .vmem, ⟨42, _⟩ => ⟨S6272x64, .f32⟩
  | .local _ .vmem, ⟨43, _⟩ => ⟨S6272x64, .f32⟩
  | .local _ .vmem, ⟨44, _⟩ => ⟨S6272x64, .f32⟩
  | .local _ .vmem, ⟨45, _⟩ => ⟨S6272x64, .f32⟩
  | .local _ .vmem, ⟨46, _⟩ => ⟨S6272x1, .i32⟩
  | .local _ .vmem, ⟨47, _⟩ => ⟨S6272x1, .i32⟩
  | .local _ .vmem, ⟨48, _⟩ => ⟨S128x64, .f32⟩
  | .local _ .vmem, ⟨49, _⟩ => ⟨S128x1, .f32⟩
  | .local _ .vmem, ⟨50, _⟩ => ⟨S128x64, .f32⟩
  | .local _ .vmem, ⟨51, _⟩ => ⟨S128x1, .f32⟩
  | .local _ .vmem, ⟨52, _⟩ => ⟨S64x32, .f32⟩
  | .local _ .vmem, ⟨53, _⟩ => ⟨S1x32, .f32⟩
  | .local _ .vmem, ⟨54, _⟩ => ⟨S32x6, .f32⟩
  | .local _ .vmem, ⟨55, _⟩ => ⟨S1x6, .f32⟩
  | .local _ .vmem, ⟨56, _⟩ => ⟨S128x6, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc7_stg0_0 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc7_stg6_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6272x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1250], ![false]⟩

@[reducible] def k1_t1_loop : Scf.Loop 32 :=
  let c0_i32_2 : BitVec 32 := 0#32
  let c14_i32 : BitVec 32 := 14#32
  let v7 : BitVec 32 := Scalar.addi c0_i32_2 c14_i32
  let c1_i32 : BitVec 32 := 1#32
  ⟨c0_i32_2, v7, c1_i32⟩
def k1_mult1 (k1_t1 : Fin k1_t1_loop.trips) : BitVec 32 :=
  let c0_i32_11 : BitVec 32 := 0#32
  let c0_i32_2 : BitVec 32 := 0#32
  let c1_i32 : BitVec 32 := 1#32
  let arg6 : BitVec 32 := Scf.iv c0_i32_2 c1_i32 k1_t1
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  v13
def k1_off1 (k1_t1 : Fin k1_t1_loop.trips) : Fin 2 → Nat :=
  let c0_i32_11 : BitVec 32 := 0#32
  let c0_i32_2 : BitVec 32 := 0#32
  let c1_i32 : BitVec 32 := 1#32
  let arg6 : BitVec 32 := Scf.iv c0_i32_2 c1_i32 k1_t1
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  let v14 : BitVec 32 := v13
  let v15 : Index := Scalar.indexCast v14
  let c0_12 : Index := 0#32
  ![v15.toNat, 0]
@[reducible] def k1_t2_loop : Scf.Loop 32 :=
  let c0_i32_6 : BitVec 32 := 0#32
  let c14_i32_7 : BitVec 32 := 14#32
  let v10 : BitVec 32 := Scalar.addi c0_i32_6 c14_i32_7
  let c1_i32_8 : BitVec 32 := 1#32
  ⟨c0_i32_6, v10, c1_i32_8⟩
def k1_mult2 (k1_t2 : Fin k1_t2_loop.trips) : BitVec 32 :=
  let c0_i32_11 : BitVec 32 := 0#32
  let c0_i32_6 : BitVec 32 := 0#32
  let c1_i32_8 : BitVec 32 := 1#32
  let arg6 : BitVec 32 := Scf.iv c0_i32_6 c1_i32_8 k1_t2
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  v13
def k1_off2 (k1_t2 : Fin k1_t2_loop.trips) : Fin 2 → Nat :=
  let c0_i32_11 : BitVec 32 := 0#32
  let c0_i32_6 : BitVec 32 := 0#32
  let c1_i32_8 : BitVec 32 := 1#32
  let arg6 : BitVec 32 := Scf.iv c0_i32_6 c1_i32_8 k1_t2
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  let v14 : BitVec 32 := v13
  let v27 : Index := Scalar.indexCast v14
  let c0_15 : Index := 0#32
  ![v27.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S640x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x640 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50176x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50176x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6272x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6272x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6272x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6272x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6272x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1250], ![false]⟩

@[reducible] def k4_t1_loop : Scf.Loop 32 :=
  let c0_i32_2 : BitVec 32 := 0#32
  let c14_i32 : BitVec 32 := 14#32
  let v7 : BitVec 32 := Scalar.addi c0_i32_2 c14_i32
  let c1_i32 : BitVec 32 := 1#32
  ⟨c0_i32_2, v7, c1_i32⟩
def k4_mult1 (k4_t1 : Fin k4_t1_loop.trips) : BitVec 32 :=
  let c0_i32_11 : BitVec 32 := 0#32
  let c0_i32_2 : BitVec 32 := 0#32
  let c1_i32 : BitVec 32 := 1#32
  let arg6 : BitVec 32 := Scf.iv c0_i32_2 c1_i32 k4_t1
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  v13
def k4_off1 (k4_t1 : Fin k4_t1_loop.trips) : Fin 2 → Nat :=
  let c0_i32_11 : BitVec 32 := 0#32
  let c0_i32_2 : BitVec 32 := 0#32
  let c1_i32 : BitVec 32 := 1#32
  let arg6 : BitVec 32 := Scf.iv c0_i32_2 c1_i32 k4_t1
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  let v14 : BitVec 32 := v13
  let v15 : Index := Scalar.indexCast v14
  let c0_12 : Index := 0#32
  ![v15.toNat, 0]
@[reducible] def k4_t2_loop : Scf.Loop 32 :=
  let c0_i32_6 : BitVec 32 := 0#32
  let c14_i32_7 : BitVec 32 := 14#32
  let v10 : BitVec 32 := Scalar.addi c0_i32_6 c14_i32_7
  let c1_i32_8 : BitVec 32 := 1#32
  ⟨c0_i32_6, v10, c1_i32_8⟩
def k4_mult2 (k4_t2 : Fin k4_t2_loop.trips) : BitVec 32 :=
  let c0_i32_11 : BitVec 32 := 0#32
  let c0_i32_6 : BitVec 32 := 0#32
  let c1_i32_8 : BitVec 32 := 1#32
  let arg6 : BitVec 32 := Scf.iv c0_i32_6 c1_i32_8 k4_t2
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  v13
def k4_off2 (k4_t2 : Fin k4_t2_loop.trips) : Fin 2 → Nat :=
  let c0_i32_11 : BitVec 32 := 0#32
  let c0_i32_6 : BitVec 32 := 0#32
  let c1_i32_8 : BitVec 32 := 1#32
  let arg6 : BitVec 32 := Scf.iv c0_i32_6 c1_i32_8 k4_t2
  let c1_i32_10 : BitVec 32 := 1#32
  let v11 : BitVec 32 := Scalar.muli arg6 c1_i32_10
  let v12 : BitVec 32 := Scalar.addi c0_i32_11 v11
  let c3584_i32 : BitVec 32 := 3584#32
  let v13 : BitVec 32 := Scalar.muli v12 c3584_i32
  let v14 : BitVec 32 := v13
  let v27 : Index := Scalar.indexCast v14
  let c0_15 : Index := 0#32
  ![v27.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S640x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x640 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S50176x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S50176x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6272x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6272x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S6272x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S6272x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6272x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S128x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x6 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x6 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x6 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  pads_S50000x64_S50176x64_01760_000 : S50000x64.Pads (![0, 0] : Fin 2 → Nat) ![176, 0] ![0, 0] S50176x64
  h_S_ : 0 < S_.numel
  pads_S50000_S50176_01760 : S50000.Pads (![0] : Fin 1 → Nat) ![176] ![0] S50176
  shapeCasts_S50176_S50176x1 : S50176.ShapeCasts S50176x1
  slices_S2x800000_S1x800000_0_0 : S2x800000.Slices ![0, 0] S1x800000
  shapeCasts_S1x800000_S800000 : S1x800000.ShapeCasts S800000
  shapeCasts_S800000_S800000x1 : S800000.ShapeCasts S800000x1
  slices_S2x800000_S1x800000_1_0 : S2x800000.Slices ![1, 0] S1x800000
  shapeCasts_S800000_S1x800000 : S800000.ShapeCasts S1x800000
  transposes_S192x64_S64x192_1_0 : S192x64.Transposes [1, 0] S64x192
  shapeCasts_S192_S1x192 : S192.ShapeCasts S1x192
  slices_S2x64x64_S1x64x64_0_0_0 : S2x64x64.Slices ![0, 0, 0] S1x64x64
  shapeCasts_S1x64x64_S64x64 : S1x64x64.ShapeCasts S64x64
  inb_S6272x64_S6272x64_0_0 : ∀ a, (![0, 0] : Fin 2 → Nat) a + S6272x64.size a ≤ S6272x64.size a
  h_S6272x64 : 0 < S6272x64.numel
  shapeCasts_S6272x64_S6272x64 : S6272x64.ShapeCasts S6272x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S6272x64_S6272x64_0_0 : (Rect.unit (s := S6272x64) ![0, 0] S6272x64.size inb_S6272x64_S6272x64_0_0).PackedRows (EltTy.packing .bf16)
  inb_S50176x64_S50176x64_0_0 : ∀ a, (![0, 0] : Fin 2 → Nat) a + S50176x64.size a ≤ S50176x64.size a
  h_S50176x64 : 0 < S50176x64.numel
  inb_S640x64_S640x64_0_0 : ∀ a, (![0, 0] : Fin 2 → Nat) a + S640x64.size a ≤ S640x64.size a
  h_S640x64 : 0 < S640x64.numel
  shapeCasts_S640x64_S640x64 : S640x64.ShapeCasts S640x64
  h_S3584x64 : 0 < S3584x64.numel
  shapeCasts_S3584x64_S3584x64 : S3584x64.ShapeCasts S3584x64
  iota_S1x3584_d1_w32 : S1x3584.Iotas .tc 32 [1]
  inb_S640x1_S640x1_0_0 : ∀ a, (![0, 0] : Fin 2 → Nat) a + S640x1.size a ≤ S640x1.size a
  h_S640x1 : 0 < S640x1.numel
  shapeCasts_S640x1_S640x1 : S640x1.ShapeCasts S640x1
  broadcasts_S640x1_S640x3584 : S640x1.Broadcasts S640x3584
  broadcasts_S1x3584_S640x3584 : S1x3584.Broadcasts S640x3584
  natLt_1_32 : 1 < 32
  iota_S3584x1_d0_w32 : S3584x1.Iotas .tc 32 [0]
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S3584x1_S3584x640 : S3584x1.Broadcasts S3584x640
  broadcasts_S1x640_S3584x640 : S1x640.Broadcasts S3584x640
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S6272x192 : S1x192.Broadcasts S6272x192
  slices_S6272x192_o0_0_S6272x64 : S6272x192.Slices ![0, 0] S6272x64
  slices_S6272x192_o0_64_S6272x64 : S6272x192.Slices ![0, 64] S6272x64
  slices_S6272x192_o0_128_S6272x64 : S6272x192.Slices ![0, 128] S6272x64
  slices_S2x64x64_S1x64x64_1_0_0 : S2x64x64.Slices ![1, 0, 0] S1x64x64
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  iota_S1x128_d1_w32 : S1x128.Iotas .tc 32 [1]
  inb_S6272x1_S6272x1_0_0 : ∀ a, (![0, 0] : Fin 2 → Nat) a + S6272x1.size a ≤ S6272x1.size a
  h_S6272x1 : 0 < S6272x1.numel
  shapeCasts_S6272x1_S6272x1 : S6272x1.ShapeCasts S6272x1
  broadcasts_S6272x1_S6272x128 : S6272x1.Broadcasts S6272x128
  broadcasts_S1x128_S6272x128 : S1x128.Broadcasts S6272x128
  shapeCasts_S128x64_S128x64 : S128x64.ShapeCasts S128x64
  shapeCasts_S128x1_S128x1 : S128x1.ShapeCasts S128x1
  transposes_S32x64_S64x32_1_0 : S32x64.Transposes [1, 0] S64x32
  shapeCasts_S32_S1x32 : S32.ShapeCasts S1x32
  transposes_S6x32_S32x6_1_0 : S6x32.Transposes [1, 0] S32x6
  shapeCasts_S6_S1x6 : S6.ShapeCasts S1x6
  broadcasts_S128x1_S128x64 : S128x1.Broadcasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S128x6 : S1x6.Broadcasts S128x6
  reduces_S128x6_S128 : S128x6.Reduces [1] S128
  shapeCasts_S128_S128x1 : S128.ShapeCasts S128x1
  broadcasts_S128x1_S128x6 : S128x1.Broadcasts S128x6
  inb_S128x6_S128x6_0_0 : ∀ a, (![0, 0] : Fin 2 → Nat) a + S128x6.size a ≤ S128x6.size a
  h_S128x6 : 0 < S128x6.numel
  dot_S6272x64_S64x64_S6272x64_1_0_0_1_n_n_wf : DotDims.WF S6272x64 S64x64 S6272x64 [1] [0] [0] [1] [] []
  dot_S640x3584_S3584x64_S640x64_1_0_0_1_n_n_wf : DotDims.WF S640x3584 S3584x64 S640x64 [1] [0] [0] [1] [] []
  dot_S3584x640_S640x64_S3584x64_1_0_0_1_n_n_wf : DotDims.WF S3584x640 S640x64 S3584x64 [1] [0] [0] [1] [] []
  dot_S6272x64_S64x192_S6272x192_1_0_0_1_n_n_wf : DotDims.WF S6272x64 S64x192 S6272x192 [1] [0] [0] [1] [] []
  dot_S6272x128_S6272x64_S128x64_0_0_1_1_n_n_wf : DotDims.WF S6272x128 S6272x64 S128x64 [0] [0] [1] [1] [] []
  dot_S6272x128_S6272x1_S128x1_0_0_1_1_n_n_wf : DotDims.WF S6272x128 S6272x1 S128x1 [0] [0] [1] [1] [] []
  dot_S128x64_S64x32_S128x32_1_0_0_1_n_n_wf : DotDims.WF S128x64 S64x32 S128x32 [1] [0] [0] [1] [] []
  dot_S128x32_S32x6_S128x6_1_0_0_1_n_n_wf : DotDims.WF S128x32 S32x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x64.size a ≤ S50176x64.size a
  hwx0_0 : ∀ i : grid0.Coords, EltTy.bits .f32 = 32 ∨ (Rect.block (s := S50176x64) S6272x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6272x64.size a ≤ S50176x64.size a
  hwx0_2 : ∀ i : grid0.Coords, EltTy.bits .bf16 = 32 ∨ (Rect.block (s := S50176x64) S6272x64.size (cc0_transform_2 i) (hinb0_2 i)).WholeWords (EltTy.packing .bf16)
  hrank1 : 0 < grid1.rank
  k1_t1_ok : k1_t1_loop.OK
  k1_mult1_dvd : ∀ k1_t1 : Fin k1_t1_loop.trips, 3584 ∣ (k1_mult1 k1_t1).toNat
  k1_off1_inb : ∀ k1_t1 : Fin k1_t1_loop.trips, ∀ a, (k1_off1 k1_t1) a + S3584x64.size a ≤ S50176x64.size a
  k1_t2_ok : k1_t2_loop.OK
  k1_mult2_dvd : ∀ k1_t2 : Fin k1_t2_loop.trips, 3584 ∣ (k1_mult2 k1_t2).toNat
  k1_off2_inb : ∀ k1_t2 : Fin k1_t2_loop.trips, ∀ a, (k1_off2 k1_t2) a + S3584x64.size a ≤ S50176x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x1.size a ≤ S800000x1.size a
  hwx1_0 : ∀ i : grid1.Coords, EltTy.bits .i32 = 32 ∨ (Rect.block (s := S800000x1) S640x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x640.size a ≤ S1x800000.size a
  hwx1_1 : ∀ i : grid1.Coords, EltTy.bits .i32 = 32 ∨ (Rect.block (s := S1x800000) S1x640.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50176x64.size a ≤ S50176x64.size a
  hwx1_2 : ∀ i : grid1.Coords, EltTy.bits .bf16 = 32 ∨ (Rect.block (s := S50176x64) S50176x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50176x64.size a ≤ S50176x64.size a
  hwx1_3 : ∀ i : grid1.Coords, EltTy.bits .f32 = 32 ∨ (Rect.block (s := S50176x64) S50176x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6272x64.size a ≤ S50176x64.size a
  hwx2_0 : ∀ i : grid2.Coords, EltTy.bits .f32 = 32 ∨ (Rect.block (s := S50176x64) S6272x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6272x64.size a ≤ S50176x64.size a
  hwx2_1 : ∀ i : grid2.Coords, EltTy.bits .f32 = 32 ∨ (Rect.block (s := S50176x64) S6272x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x192.size a ≤ S64x192.size a
  hwx2_2 : ∀ i : grid2.Coords, EltTy.bits .f32 = 32 ∨ (Rect.block (s := S64x192) S64x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x192.size a ≤ S64x192.size a
  hwx2_3 : ∀ i : grid2.Coords, EltTy.bits .f32 = 32 ∨ (Rect.block (s := S64x192) S64x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6272x64.size a ≤ S50176x64.size a
  hwx2_6 : ∀ i : grid2.Coords, EltTy.bits .f32 = 32 ∨ (Rect.block (s := S50176x64) S6272x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6272x64.size a ≤ S50176x64.size a
  hwx3_0 : ∀ i : grid3.Coords, EltTy.bits .f32 = 32 ∨ (Rect.block (s := S50176x64) S6272x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6272x64.size a ≤ S50176x64.size a
  hwx3_2 : ∀ i : grid3.Coords, EltTy.bits .bf16 = 32 ∨ (Rect.block (s := S50176x64) S6272x64.size (cc3_transform_2 i) (hinb3_2 i)).WholeWords (EltTy.packing .bf16)
  hrank4 : 0 < grid4.rank
  k4_t1_ok : k4_t1_loop.OK
  k4_mult1_dvd : ∀ k4_t1 : Fin k4_t1_loop.trips, 3584 ∣ (k4_mult1 k4_t1).toNat
  k4_off1_inb : ∀ k4_t1 : Fin k4_t1_loop.trips, ∀ a, (k4_off1 k4_t1) a + S3584x64.size a ≤ S50176x64.size a
  k4_t2_ok : k4_t2_loop.OK
  k4_mult2_dvd : ∀ k4_t2 : Fin k4_t2_loop.trips, 3584 ∣ (k4_mult2 k4_t2).toNat
  k4_off2_inb : ∀ k4_t2 : Fin k4_t2_loop.trips, ∀ a, (k4_off2 k4_t2) a + S3584x64.size a ≤ S50176x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S640x1.size a ≤ S800000x1.size a
  hwx4_0 : ∀ i : grid4.Coords, EltTy.bits .i32 = 32 ∨ (Rect.block (s := S800000x1) S640x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x640.size a ≤ S1x800000.size a
  hwx4_1 : ∀ i : grid4.Coords, EltTy.bits .i32 = 32 ∨ (Rect.block (s := S1x800000) S1x640.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S50176x64.size a ≤ S50176x64.size a
  hwx4_2 : ∀ i : grid4.Coords, EltTy.bits .bf16 = 32 ∨ (Rect.block (s := S50176x64) S50176x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S50176x64.size a ≤ S50176x64.size a
  hwx4_3 : ∀ i : grid4.Coords, EltTy.bits .f32 = 32 ∨ (Rect.block (s := S50176x64) S50176x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6272x64.size a ≤ S50176x64.size a
  hwx5_0 : ∀ i : grid5.Coords, EltTy.bits .f32 = 32 ∨ (Rect.block (s := S50176x64) S6272x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6272x64.size a ≤ S50176x64.size a
  hwx5_1 : ∀ i : grid5.Coords, EltTy.bits .f32 = 32 ∨ (Rect.block (s := S50176x64) S6272x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x192.size a ≤ S64x192.size a
  hwx5_3 : ∀ i : grid5.Coords, EltTy.bits .f32 = 32 ∨ (Rect.block (s := S64x192) S64x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S6272x64.size a ≤ S50176x64.size a
  hwx5_6 : ∀ i : grid5.Coords, EltTy.bits .f32 = 32 ∨ (Rect.block (s := S50176x64) S6272x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6272x64.size a ≤ S50176x64.size a
  hwx6_0 : ∀ i : grid6.Coords, EltTy.bits .f32 = 32 ∨ (Rect.block (s := S50176x64) S6272x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6272x1.size a ≤ S50176x1.size a
  hwx6_1 : ∀ i : grid6.Coords, EltTy.bits .i32 = 32 ∨ (Rect.block (s := S50176x1) S6272x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S128x64.size a ≤ S128x64.size a
  hwx7_0 : ∀ i : grid7.Coords, EltTy.bits .f32 = 32 ∨ (Rect.block (s := S128x64) S128x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x1.size a ≤ S128x1.size a
  hwx7_1 : ∀ i : grid7.Coords, EltTy.bits .f32 = 32 ∨ (Rect.block (s := S128x1) S128x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x32.size a ≤ S64x32.size a
  hwx7_2 : ∀ i : grid7.Coords, EltTy.bits .f32 = 32 ∨ (Rect.block (s := S64x32) S64x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x6.size a ≤ S32x6.size a
  hwx7_4 : ∀ i : grid7.Coords, EltTy.bits .f32 = 32 ∨ (Rect.block (s := S32x6) S32x6.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x6.size a ≤ S1x6.size a
  hwx7_5 : ∀ i : grid7.Coords, EltTy.bits .f32 = 32 ∨ (Rect.block (s := S1x6) S1x6.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x6.size a ≤ S128x6.size a
  hwx7_6 : ∀ i : grid7.Coords, EltTy.bits .f32 = 32 ∨ (Rect.block (s := S128x6) S128x6.size (cc7_transform_6 i) (hinb7_6 i)).WholeWords (EltTy.packing .f32)

variable [Facts₀]

def dot_S6272x64_S64x64_S6272x64_1_0_0_1_n_n : DotDims S6272x64 S64x64 S6272x64 where
  lhsContracting := [1]
  rhsContracting := [0]
  lhsNonContracting := [0]
  rhsNonContracting := [1]
  lhsBatch := []
  rhsBatch := []
  wf := dot_S6272x64_S64x64_S6272x64_1_0_0_1_n_n_wf
def dot_S640x3584_S3584x64_S640x64_1_0_0_1_n_n : DotDims S640x3584 S3584x64 S640x64 where
  lhsContracting := [1]
  rhsContracting := [0]
  lhsNonContracting := [0]
  rhsNonContracting := [1]
  lhsBatch := []
  rhsBatch := []
  wf := dot_S640x3584_S3584x64_S640x64_1_0_0_1_n_n_wf
def dot_S3584x640_S640x64_S3584x64_1_0_0_1_n_n : DotDims S3584x640 S640x64 S3584x64 where
  lhsContracting := [1]
  rhsContracting := [0]
  lhsNonContracting := [0]
  rhsNonContracting := [1]
  lhsBatch := []
  rhsBatch := []
  wf := dot_S3584x640_S640x64_S3584x64_1_0_0_1_n_n_wf
def dot_S6272x64_S64x192_S6272x192_1_0_0_1_n_n : DotDims S6272x64 S64x192 S6272x192 where
  lhsContracting := [1]
  rhsContracting := [0]
  lhsNonContracting := [0]
  rhsNonContracting := [1]
  lhsBatch := []
  rhsBatch := []
  wf := dot_S6272x64_S64x192_S6272x192_1_0_0_1_n_n_wf
def dot_S6272x128_S6272x64_S128x64_0_0_1_1_n_n : DotDims S6272x128 S6272x64 S128x64 where
  lhsContracting := [0]
  rhsContracting := [0]
  lhsNonContracting := [1]
  rhsNonContracting := [1]
  lhsBatch := []
  rhsBatch := []
  wf := dot_S6272x128_S6272x64_S128x64_0_0_1_1_n_n_wf
def dot_S6272x128_S6272x1_S128x1_0_0_1_1_n_n : DotDims S6272x128 S6272x1 S128x1 where
  lhsContracting := [0]
  rhsContracting := [0]
  lhsNonContracting := [1]
  rhsNonContracting := [1]
  lhsBatch := []
  rhsBatch := []
  wf := dot_S6272x128_S6272x1_S128x1_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x6_S128x6_1_0_0_1_n_n : DotDims S128x32 S32x6 S128x6 where
  lhsContracting := [1]
  rhsContracting := [0]
  lhsNonContracting := [0]
  rhsNonContracting := [1]
  lhsBatch := []
  rhsBatch := []
  wf := dot_S128x32_S32x6_S128x6_1_0_0_1_n_n_wf

abbrev win0_0 : Pipeline.Window sig grid0 :=
  Pipeline.Window.ofSpec (Memref.whole main_v0) S6272x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S6272x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S640x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S50176x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S50176x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S6272x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S6272x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S64x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S6272x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v17) S6272x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S6272x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v5) S640x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1x640.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S50176x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S50176x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v21) S6272x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S6272x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S64x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v11) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v12) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v22) S6272x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v22) S6272x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S6272x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v23_0) S128x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v23_1) S128x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v23_0) S128x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v23_1) S128x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v24) S64x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v25) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v26) S32x6.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v27) S1x6.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v28) S128x6.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S2x64x64 : Shape := ⟨3, ![2, 64, 64]⟩
abbrev S192x64 : Shape := ⟨2, ![192, 64]⟩
abbrev S192 : Shape := ⟨1, ![192]⟩
abbrev S32x64 : Shape := ⟨2, ![32, 64]⟩
abbrev S32 : Shape := ⟨1, ![32]⟩
abbrev S6x32 : Shape := ⟨2, ![6, 32]⟩
abbrev S6 : Shape := ⟨1, ![6]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x192 : Shape := ⟨2, ![64, 192]⟩
abbrev S50000x192 : Shape := ⟨2, ![50000, 192]⟩
abbrev S1x192 : Shape := ⟨2, ![1, 192]⟩
abbrev S128x64 : Shape := ⟨2, ![128, 64]⟩
abbrev S50000x1 : Shape := ⟨2, ![50000, 1]⟩
abbrev S128 : Shape := ⟨1, ![128]⟩
abbrev S128x1 : Shape := ⟨2, ![128, 1]⟩
abbrev S64x32 : Shape := ⟨2, ![64, 32]⟩
abbrev S128x32 : Shape := ⟨2, ![128, 32]⟩
abbrev S1x32 : Shape := ⟨2, ![1, 32]⟩
abbrev S32x6 : Shape := ⟨2, ![32, 6]⟩
abbrev S128x6 : Shape := ⟨2, ![128, 6]⟩
abbrev S1x6 : Shape := ⟨2, ![1, 6]⟩

abbrev nBuf : Space → Nat
  | .hbm => 181
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S2x64x64, .f32⟩
  | 4 => ⟨S192x64, .f32⟩
  | 5 => ⟨S192x64, .f32⟩
  | 6 => ⟨S192, .f32⟩
  | 7 => ⟨S192, .f32⟩
  | 8 => ⟨S32x64, .f32⟩
  | 9 => ⟨S32, .f32⟩
  | 10 => ⟨S6x32, .f32⟩
  | 11 => ⟨S6, .f32⟩
  | 12 => ⟨S1x800000, .i32⟩
  | 13 => ⟨S800000, .i32⟩
  | 14 => ⟨S1x800000, .i32⟩
  | 15 => ⟨S800000, .i32⟩
  | 16 => ⟨S1x64x64, .f32⟩
  | 17 => ⟨S64x64, .f32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S64x192, .f32⟩
  | 33 => ⟨S50000x192, .f32⟩
  | 34 => ⟨S1x192, .f32⟩
  | 35 => ⟨S50000x192, .f32⟩
  | 36 => ⟨S50000x192, .f32⟩
  | 37 => ⟨S64x192, .f32⟩
  | 38 => ⟨S50000x192, .f32⟩
  | 39 => ⟨S1x192, .f32⟩
  | 40 => ⟨S50000x192, .f32⟩
  | 41 => ⟨S50000x192, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S1x64x64, .f32⟩
  | 76 => ⟨S64x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S64x192, .f32⟩
  | 92 => ⟨S50000x192, .f32⟩
  | 93 => ⟨S1x192, .f32⟩
  | 94 => ⟨S50000x192, .f32⟩
  | 95 => ⟨S50000x192, .f32⟩
  | 96 => ⟨S64x192, .f32⟩
  | 97 => ⟨S50000x192, .f32⟩
  | 98 => ⟨S1x192, .f32⟩
  | 99 => ⟨S50000x192, .f32⟩
  | 100 => ⟨S50000x192, .f32⟩
  | 101 => ⟨S50000x64, .f32⟩
  | 102 => ⟨S50000x64, .f32⟩
  | 103 => ⟨S50000x64, .f32⟩
  | 104 => ⟨S50000x64, .f32⟩
  | 105 => ⟨S50000x64, .f32⟩
  | 106 => ⟨S50000x64, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .f32⟩
  | 3 => ⟨S50000x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S128x64, .f32⟩
  | 11 => ⟨S50000x1, .i32⟩
  | 12 => ⟨S128x64, .f32⟩
  | 13 => ⟨S_, .f32⟩
  | 14 => ⟨S50000, .f32⟩
  | 15 => ⟨S_, .f32⟩
  | 16 => ⟨S128, .f32⟩
  | 17 => ⟨S50000x1, .i32⟩
  | 18 => ⟨S128, .f32⟩
  | 19 => ⟨S_, .f32⟩
  | 20 => ⟨S128, .f32⟩
  | 21 => ⟨S128, .f32⟩
  | 22 => ⟨S128x1, .f32⟩
  | 23 => ⟨S128x64, .f32⟩
  | 24 => ⟨S128x64, .f32⟩
  | 25 => ⟨S64x32, .f32⟩
  | 26 => ⟨S128x32, .f32⟩
  | 27 => ⟨S1x32, .f32⟩
  | 28 => ⟨S128x32, .f32⟩
  | 29 => ⟨S128x32, .f32⟩
  | 30 => ⟨S_, .f32⟩
  | 31 => ⟨S128x32, .f32⟩
  | 32 => ⟨S128x32, .f32⟩
  | 33 => ⟨S32x6, .f32⟩
  | 34 => ⟨S128x6, .f32⟩
  | 35 => ⟨S1x6, .f32⟩
  | 36 => ⟨S128x6, .f32⟩
  | 37 => ⟨S128x6, .f32⟩
  | 38 => ⟨S_, .f32⟩
  | 39 => ⟨S128, .f32⟩
  | 40 => ⟨S_, .f32⟩
  | 41 => ⟨S128, .f32⟩
  | 42 => ⟨S128, .f32⟩
  | 43 => ⟨S128x1, .f32⟩
  | 44 => ⟨S128x6, .f32⟩
  | 45 => ⟨S128x6, .f32⟩
  | 46 => ⟨S128x6, .f32⟩
  | 47 => ⟨S_, .f32⟩
  | 48 => ⟨S128, .f32⟩
  | 49 => ⟨S128x1, .f32⟩
  | 50 => ⟨S128x1, .f32⟩
  | 51 => ⟨S128x6, .f32⟩
  | 52 => ⟨S128x6, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_6 : Ref sig .tc := ⟨.hbm, 78, rfl⟩
abbrev main_v58 : Ref sig .tc := ⟨.hbm, 79, rfl⟩
abbrev main_v59 : Ref sig .tc := ⟨.hbm, 80, rfl⟩
abbrev main_c_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_11 : Ref sig .tc := ⟨.hbm, 119, rfl⟩
abbrev main_v94 : Ref sig .tc := ⟨.hbm, 120, rfl⟩
abbrev main_v95 : Ref sig .tc := ⟨.hbm, 121, rfl⟩
abbrev main_cst_12 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_13 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_call0_cst : Ref sig .tc := ⟨.hbm, 134, rfl⟩
abbrev main_call0_v0 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_15 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_17 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_call1_cst : Ref sig .tc := ⟨.hbm, 158, rfl⟩
abbrev main_call1_v0 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_call2_cst : Ref sig .tc := ⟨.hbm, 166, rfl⟩
abbrev main_call2_v0 : Ref sig .tc := ⟨.hbm, 167, rfl⟩
abbrev main_call2_cst_0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_cst_1 : Ref sig .tc := ⟨.hbm, 175, rfl⟩
abbrev main_call2_v7 : Ref sig .tc := ⟨.hbm, 176, rfl⟩
abbrev main_call2_v8 : Ref sig .tc := ⟨.hbm, 177, rfl⟩
abbrev main_call2_v9 : Ref sig .tc := ⟨.hbm, 178, rfl⟩
abbrev main_call2_v10 : Ref sig .tc := ⟨.hbm, 179, rfl⟩
abbrev main_v130 : Ref sig .tc := ⟨.hbm, 180, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x64x64_S1x64x64_0_0_0 : S2x64x64.Slices ![0, 0, 0] S1x64x64
  shapeCasts_S1x64x64_S64x64 : S1x64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  slices_S2x64x64_S1x64x64_1_0_0 : S2x64x64.Slices ![1, 0, 0] S1x64x64
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  transposes_S32x64_S64x32_1_0 : S32x64.Transposes [1, 0] S64x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S6x32_S32x6_1_0 : S6x32.Transposes [1, 0] S32x6
  bcast_S6_S1x6_1 : S6.BroadcastsInDim S1x6 (![1] : Fin 1 → Fin S1x6.rank)
  bcast_S1x6_S128x6_0_1 : S1x6.BroadcastsInDim S128x6 (![0, 1] : Fin 2 → Fin S128x6.rank)
  reducesTo_S128x6_S128_d1 : S128x6.ReducesTo [1] S128
  h_S_ : 0 < S_.numel
  bcast_S128x1_S128x6_0_1 : S128x1.BroadcastsInDim S128x6 (![0, 1] : Fin 2 → Fin S128x6.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x32_S128x32_1_0_0_1_n_n_wf : DotDims.WF S128x64 S64x32 S128x32 [1] [0] [0] [1] [] []
  dot_S128x32_S32x6_S128x6_1_0_0_1_n_n_wf : DotDims.WF S128x32 S32x6 S128x6 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x6_S128x6_1_0_0_1_n_n : DotDims S128x32 S32x6 S128x6 where
  lhsContracting := [1]
  rhsContracting := [0]
  lhsNonContracting := [0]
  rhsNonContracting := [1]
  lhsBatch := []
  rhsBatch := []
  wf := dot_S128x32_S32x6_S128x6_1_0_0_1_n_n_wf

class Facts : Prop extends Facts₀ where

variable [Facts]
-- ==== Proof.K.Reg0.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S6272x64 := Rect.unit (s := S6272x64) ![0, 0] S6272x64.size inb_S6272x64_S6272x64_0_0
abbrev r0_1 : Rect S64x64 := Rect.unit (s := S64x64) ![0, 0] S64x64.size inb_S64x64_S64x64_0_0

def out0_2 (x0 : Vec F S6272x64 .f32) (x1 : Vec F S64x64 .f32) : Vec F S6272x64 .bf16 :=
  View.canon [⟨r0_0, k0_pay1 (View.ld x0 r0_0) (View.ld x1 r0_1)⟩]

theorem cover0_2 (p0 : Vec F S6272x64 .bf16) (y : S6272x64.Idx) :
    ∃ pc ∈ ([⟨r0_0, p0⟩] : List (View.Piece (Elt F) S6272x64 .bf16)), y ∈ pc.1.set :=
  View.cover_of_tiled [⟨r0_0, p0⟩] S6272x64.size (by rfl) y

set_option maxHeartbeats 1000000 in
theorem sound_kernel0 (c : Dev nD) (E : Set ℕ) (i : grid0.Coords) (arg1 : Memref sig .tc .vmem S6272x64 .f32) (harg1 : arg1.IsWhole)
    (arg2 : Memref sig .tc .vmem S64x64 .f32) (harg2 : arg2.IsWhole) (arg3 : Memref sig .tc .vmem S6272x64 .bf16) (harg3 : arg3.IsWhole)
    (x0 : Vec F S6272x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 1250 = 0 :=
  (by decide +kernel : ∀ t : Fin grid1.N, cond1_0 (grid1.coords t) ↔ t.val % 1250 = 0)

abbrev VO1_3 : View sig .tc .vmem S50176x64 .f32 := (Memref.whole cc1_stg3_0 : Memref sig .tc .vmem S50176x64 .f32).view
abbrev ms1_0 (t : Fin cfg1.N) : Memref sig .tc .vmem S640x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x640 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S50176x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S50176x64 .f32 := win1_3.stage (cfg1.slots t 3)
abbrev hs1_3 (t : Fin cfg1.N) : (ms1_3 t).IsWhole := hstage1_3 ((cfg1.slots t 3).cast nbuf1_3)
abbrev msS1 : Memref sig .tc .vmem S640x64 .f32 := Memref.whole cc1_scratch0
abbrev hsS1 : (msS1).IsWhole := Memref.isWhole_whole _

section
variable (c : Dev nD) (i : grid1.Coords)
    (arg1 : Memref sig .tc .vmem S640x1 .i32) (harg1 : arg1.IsWhole) (arg2 : Memref sig .tc .vmem S1x640 .i32) (harg2 : arg2.IsWhole)
    (arg3 : Memref sig .tc .vmem S50176x64 .bf16) (harg3 : arg3.IsWhole) (arg4 : Memref sig .tc .vmem S50176x64 .f32) (harg4 : arg4.IsWhole)
    (arg5 : Memref sig .tc .vmem S640x64 .f32) (harg5 : arg5.IsWhole)

set_option maxHeartbeats 4000000 in
noncomputable def kernelRun1_A (hc0 : cond1_0 i)
    (x0 : Vec F S640x1 .i32) (x1 : Vec F S1x640 .i32) (x2 : Vec F S50176x64 .bf16) :
    { L3 : List (View.Piece (Elt F) S50176x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (∃ f5, arg5.view.loc (c : Thread nD τ) ↦[arg5.view.set]{fullShare} f5)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f5, arg5.view.loc (c : Thread nD τ) ↦[arg5.view.set]{fullShare} f5)) -∗ K ⟨⟩))
          ⊢ wp frame (wpE (defs₀ (F := F)) Variants.none c none) E (cc1__msgpass_kernel i arg1 harg1 arg2 harg2 arg3 harg3 arg4 harg4 arg5 harg5) K } := by
  refine ⟨?_, fun E K => ?run⟩
  case run =>
    simp only [cc1__msgpass_kernel_eq_skeleton]; unfold cc1__msgpass_kernel_skel
    unfold owns
    iintro ⟨⟨%f1, %hf1, H1⟩, ⟨%f2, %hf2, H2⟩, ⟨%f3, %hf3, H3⟩, ⟨%d4, %f4, -, H4⟩, ⟨%f5, H5⟩, Hk⟩
    obtain rfl := harg1.eq_unread hf1; obtain rfl := harg2.eq_unread hf2; obtain rfl := harg3.eq_unread hf3
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 4000000 in
noncomputable def kernelRun1_B (hc0 : ¬cond1_0 i)
    (x0 : Vec F S640x1 .i32) (x1 : Vec F S1x640 .i32) (x2 : Vec F S50176x64 .bf16) (xo3 : Vec F S50176x64 .f32) :
    { L3 : List (View.Piece (Elt F) S50176x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (∃ f5, arg5.view.loc (c : Thread nD τ) ↦[arg5.view.set]{fullShare} f5)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f5, arg5.view.loc (c : Thread nD τ) ↦[arg5.view.set]{fullShare} f5)) -∗ K ⟨⟩))
          ⊢ wp frame (wpE (defs₀ (F := F)) Variants.none c none) E (cc1__msgpass_kernel i arg1 harg1 arg2 harg2 arg3 harg3 arg4 harg4 arg5 harg5) K } := by
  refine ⟨?_, fun E K => ?run⟩
  case run =>
    simp only [cc1__msgpass_kernel_eq_skeleton]; unfold cc1__msgpass_kernel_skel
    unfold owns
    iintro ⟨⟨%f1, %hf1, H1⟩, ⟨%f2, %hf2, H2⟩, ⟨%f3, %hf3, H3⟩, ⟨%f4, %hf4, H4⟩, ⟨%f5, H5⟩, Hk⟩
    obtain rfl := harg1.eq_unread hf1; obtain rfl := harg2.eq_unread hf2; obtain rfl := harg3.eq_unread hf3; obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem cover1_A_3 (hc0 : cond1_0 i)
    (x0 : Vec F S640x1 .i32) (x1 : Vec F S1x640 .i32) (x2 : Vec F S50176x64 .bf16) (y : S50176x64.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S3584x64.size (by sl_kernel_rfl) y

def out1_A_3 (hc0 : cond1_0 i)
    (x0 : Vec F S640x1 .i32) (x1 : Vec F S1x640 .i32) (x2 : Vec F S50176x64 .bf16) : Vec F S50176x64 .f32 :=
  VO1_3.read (Elt F) (VO1_3.writes (Elt F) VO1_3.junk (kernelRun1_A c i arg1 harg1 arg2 harg2 arg3 harg3 arg4 harg4 arg5 harg5 hc0 x0 x1 x2).1)

theorem cover1_B_3 (hc0 : ¬cond1_0 i)
    (x0 : Vec F S640x1 .i32) (x1 : Vec F S1x640 .i32) (x2 : Vec F S50176x64 .bf16) (xo3 : Vec F S50176x64 .f32) (y : S50176x64.Idx) :
    ∃ pc ∈ (kernelRun1_B c i arg1 harg1 arg2 harg2 arg3 harg3 arg4 harg4 arg5 harg5 hc0 x0 x1 x2 xo3).1, y ∈ pc.1.set :=
  View.cover_of_tiledL (kernelRun1_B c i arg1 harg1 arg2 harg2 arg3 harg3 arg4 harg4 arg5 harg5 hc0 x0 x1 x2 xo3).1 S3584x64.size (by sl_kernel_rfl) y

def out1_B_3 (hc0 : ¬cond1_0 i)
    (x0 : Vec F S640x1 .i32) (x1 : Vec F S1x640 .i32) (x2 : Vec F S50176x64 .bf16) (xo3 : Vec F S50176x64 .f32) : Vec F S50176x64 .f32 :=
  VO1_3.read (Elt F) (VO1_3.writes (Elt F) VO1_3.junk (kernelRun1_B c i arg1 harg1 arg2 harg2 arg3 harg3 arg4 harg4 arg5 harg5 hc0 x0 x1 x2 xo3).1)

end

def outsAt1 (c : Dev nD) : (n : ℕ) → n < cfg1.N → Vec F S50176x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) msS1 hsS1 ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 1250 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) msS1 hsS1 ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) msS1 hsS1 (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 1250 = 0) :
    outsAt1 V c t.val t.isLt = out1_A_3 c (grid1.coords t) (ms1_0 t) (hs1_0 t) (ms1_1 t) (hs1_1 t) (ms1_2 t) (hs1_2 t) (ms1_3 t) (hs1_3 t) msS1 hsS1 ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 1250 = 0) :
    outsAt1 V c t.val t.isLt = out1_B_3 c (grid1.coords t) (ms1_0 t) (hs1_0 t) (ms1_1 t) (hs1_1 t) (ms1_2 t) (hs1_2 t) (ms1_3 t) (hs1_3 t) msS1 hsS1 (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3_B (c : Dev nD) (t : Fin cfg1.N) (h0 : ¬t.val % 1250 = 0) (d) :
    (dat1 V c).before 3 t d = (outsAt1 V c (t.val - 1) (Nat.lt_of_le_of_lt (Nat.sub_le _ _) t.isLt)) := by
  have hN : t.val < 1250 := lt_of_lt_of_eq t.isLt (show cfg1.N = 1250 from N_1)
  rw [Dat.before_out_kept _ 3 rfl t (by omega) (Bool.eq_false_iff.mpr fun h => by have := (flush1_3 _).mp h; dsimp only at this; omega)
    (fun _ => rfl) (fun _ _ => rfl)]
  dsimp only [dat1]

theorem scratch1_eq (c : Dev nD) :
    (iprop(∃ f : Buf (Elt F) ((c : Thread nD τ).loc cc1_scratch0), ((c : Thread nD τ).loc cc1_scratch0) ↦{fullShare} f) : sProp 𝕄)
      = iprop(∃ f5, (msS1).view.loc (c : Thread nD τ) ↦[(msS1).view.set]{fullShare} f5) := by
  rw [hsS1.set_eq_univ]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl]
  unfold Pipeline.ΦA
  rw [scopedRest1_split, scratch1_eq]
  have hN : t.val < 1250 := lt_of_lt_of_eq t.isLt (show cfg1.N = 1250 from N_1)
  by_cases h0 : t.val % 1250 = 0
  · rw [outsAt1_A V c t h0]
    unfold out1_A_3
    iintro ⟨⟨⟨HS, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · rw [outsAt1_B V c t h0]
    simp only [before1_3_B V c t h0]
    unfold out1_B_3
    iintro ⟨⟨⟨HS, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRow2 : Rect S6272x64 := Rect.unit (s := S6272x64) ![0, 0] S6272x64.size inb_S6272x64_S6272x64_0_0
abbrev rMat2 : Rect S64x192 := Rect.unit (s := S64x192) ![0, 0] S64x192.size inb_S64x192_S64x192_0_0
abbrev rBias2 : Rect S1x192 := Rect.unit (s := S1x192) ![0, 0] S1x192.size inb_S1x192_S1x192_0_0

def out2_6 (a h : Vec F S6272x64 .f32) (wi wh : Vec F S64x192 .f32) (bi bh : Vec F S1x192 .f32) : Vec F S6272x64 .f32 :=
  View.canon [⟨rRow2, k2_pay1 (View.ld a rRow2) (View.ld h rRow2) (View.ld wi rMat2) (View.ld wh rMat2) (View.ld bi rBias2) (View.ld bh rBias2) (View.ld h rRow2)⟩]

theorem cover2_6 (p0 : Vec F S6272x64 .f32) (y : S6272x64.Idx) :
    ∃ pc ∈ ([⟨rRow2, p0⟩] : List (View.Piece (Elt F) S6272x64 .f32)), y ∈ pc.1.set :=
  View.cover_of_tiled [⟨rRow2, p0⟩] S6272x64.size (by rfl) y

set_option maxHeartbeats 4000000 in
theorem sound_kernel2 (c : Dev nD) (E : Set ℕ) (i : grid2.Coords) (arg1 : Memref sig .tc .vmem S6272x64 .f32) (harg1 : arg1.IsWhole) (arg2 : Memref sig .tc .vmem S6272x64 .f32) (harg2 : arg2.IsWhole) (arg3 : Memref sig .tc .vmem S64x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S6272x64 .f32) (harg7 : arg7.IsWhole)
    (a h : Vec F S6272x64 .f32) (wi wh : Vec F S64x192 .f32) (bi bh : Vec F S1x192 .f32) (K : PUnit → sProp 𝕄) :
    iprop(owns (c : Thread nD τ) arg1 fullShare a ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d)
        ∗ (iprop(owns (c : Thread nD τ) arg1 fullShare a ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out2_6 a h wi wh bi bh)) -∗ K ⟨⟩))
      ⊢ wp frame (wpE (defs₀ (F := F)) Variants.none c none) E (cc2__gru_kernel i arg1 harg1 arg2 harg2 arg3 harg3 arg4 harg4 arg5 harg5 arg6 harg6 arg7 harg7) K := by
  simp only [cc2__gru_kernel_eq_skeleton]; unfold cc2__gru_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import proofs.«413690_j74569222193909_1_alg».proof.Proof.K.Reg0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out0_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [show @cc3__linear_kernel F _ _ = @cc0__linear_kernel F _ _ from rfl]
  iapply (sound_kernel0 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import proofs.«413690_j74569222193909_1_alg».proof.Proof.K.Reg1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev msS4 : Memref sig .tc .vmem S640x64 .f32 := Memref.whole cc4_scratch0
abbrev hsS4 : (msS4).IsWhole := Memref.isWhole_whole _

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev outA4 (c : Dev nD) (t : Fin cfg4.N) (h0 : t.val % 1250 = 0) : Vec F S50176x64 .f32 :=
  out1_A_3 c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ hsS4 ((hcond1_0 t).mpr h0) (iblk4 V c 0 t) (iblk4 V c 1 t) (iblk4 V c 2 t)

abbrev outB4 (c : Dev nD) (t : Fin cfg4.N) (h0 : ¬t.val % 1250 = 0) (prev : Vec F S50176x64 .f32) : Vec F S50176x64 .f32 :=
  out1_B_3 c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ hsS4 (fun h => h0 ((hcond1_0 t).mp h)) (iblk4 V c 0 t) (iblk4 V c 1 t) (iblk4 V c 2 t) prev

def outsAt4 (c : Dev nD) : (n : ℕ) → n < cfg4.N → Vec F S50176x64 .f32
  | 0, hn => outA4 V c ⟨0, hn⟩ (Nat.zero_mod _)
  | n + 1, hn =>
    if h0 : (n + 1) % 1250 = 0 then outA4 V c ⟨n + 1, hn⟩ h0
    else outB4 V c ⟨n + 1, hn⟩ h0 (outsAt4 c n (Nat.lt_of_succ_lt hn))

theorem outsAt4_A (c : Dev nD) (t : Fin cfg4.N) (h0 : t.val % 1250 = 0) : outsAt4 V c t.val t.isLt = outA4 V c t h0 := by
  obtain ⟨n, hn⟩ := t
  cases n with
  | zero => exact rfl
  | succ n => exact (dif_pos h0).trans rfl

theorem outsAt4_B (c : Dev nD) (t : Fin cfg4.N) (h0 : ¬t.val % 1250 = 0) :
    outsAt4 V c t.val t.isLt = outB4 V c t h0 (outsAt4 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t.val t.isLt
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t.val t.isLt := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3_B (c : Dev nD) (t : Fin cfg4.N) (h0 : ¬t.val % 1250 = 0) (d) :
    (dat4 V c).before 3 t d = (outsAt4 V c (t.val - 1) (Nat.lt_of_le_of_lt (Nat.sub_le _ _) t.isLt)) := by
  have hN : t.val < 1250 := lt_of_lt_of_eq t.isLt (show cfg4.N = 1250 from N_4)
  rw [Dat.before_out_kept _ 3 rfl t (by omega) (Bool.eq_false_iff.mpr fun h => by have := (flush4_3 _).mp h; dsimp only at this; omega)
    (fun _ => rfl) (fun _ _ => rfl)]
  dsimp only [dat4]

theorem scratch4_eq (c : Dev nD) :
    (iprop(∃ f : Buf (Elt F) ((c : Thread nD τ).loc cc4_scratch0), ((c : Thread nD τ).loc cc4_scratch0) ↦{fullShare} f) : sProp 𝕄)
      = iprop(∃ f5, (msS4).view.loc (c : Thread nD τ) ↦[(msS4).view.set]{fullShare} f5) := by
  rw [hsS4.set_eq_univ]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3,
    show (dat4 V c).Φ t.castSucc = Pipeline.ΦA spec4 c from rfl,
    show @cc4__msgpass_kernel F _ _ = @cc1__msgpass_kernel F _ _ from rfl]
  unfold Pipeline.ΦA
  rw [scopedRest4_split, scratch4_eq]
  by_cases h0 : t.val % 1250 = 0
  · rw [outsAt4_A V c t h0]
    unfold outA4 out1_A_3
    iintro ⟨⟨⟨HS, HR⟩, Hg⟩, Ho, ⟨%d0, H0⟩, ⟨%d1, H1⟩, ⟨%d2, H2⟩, ⟨%d3, H3⟩⟩
    iapply ((kernelRun1_A c (grid4.coords t) _ _ _ _ _ _ _ _ _ _ ((hcond1_0 t).mpr h0) (iblk4 V c 0 t) (iblk4 V c 1 t) (iblk4 V c 2 t)).2 Set.univ _)
    iframe H0 H1 H2 HS
    isplitl [H3]; · iexists _; iexact H3
    iintro ⟨H0, H1, H2, ⟨%e3, H3⟩, HS⟩
    iframe HS HR Hg Ho H0 H1 H2
    unfold owns; iexists _; isplitr
    swap; · iexact H3
    ipureintro; exact View.read_writes_of_cover _ _ _ _ _ (cover1_A_3 c _ _ _ _ _ _ _ _ _ _ _ _ _ _ _)
  · rw [outsAt4_B V c t h0]
    simp only [before4_3_B V c t h0]
    unfold outB4 out1_B_3
    iintro ⟨⟨⟨HS, HR⟩, Hg⟩, Ho, ⟨%d0, H0⟩, ⟨%d1, H1⟩, ⟨%d2, H2⟩, ⟨%d3, H3⟩⟩
    iapply ((kernelRun1_B c (grid4.coords t) _ _ _ _ _ _ _ _ _ _ (fun h => h0 ((hcond1_0 t).mp h)) (iblk4 V c 0 t) (iblk4 V c 1 t) (iblk4 V c 2 t) _).2 Set.univ _)
    iframe H0 H1 H2 H3 HS
    iintro ⟨H0, H1, H2, ⟨%e3, H3⟩, HS⟩
    iframe HS HR Hg Ho H0 H1 H2
    unfold owns; iexists _; isplitr
    swap; · iexact H3
    ipureintro; exact View.read_writes_of_cover _ _ _ _ _ (cover1_B_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rRow5 : Rect S6272x64 := Rect.unit (s := S6272x64) ![0, 0] S6272x64.size inb_S6272x64_S6272x64_0_0
abbrev rMat5 : Rect S64x192 := Rect.unit (s := S64x192) ![0, 0] S64x192.size inb_S64x192_S64x192_0_0
abbrev rBias5 : Rect S1x192 := Rect.unit (s := S1x192) ![0, 0] S1x192.size inb_S1x192_S1x192_0_0

def out5_6 (a h : Vec F S6272x64 .f32) (wi wh : Vec F S64x192 .f32) (bi bh : Vec F S1x192 .f32) : Vec F S6272x64 .f32 :=
  View.canon [⟨rRow5, k5_pay1 (k5_pay2 (View.ld a rRow5) (View.ld h rRow5) (View.ld wi rMat5) (View.ld wh rMat5) (View.ld bi rBias5) (View.ld bh rBias5) (View.ld h rRow5))⟩]

theorem cover5_6 (p0 : Vec F S6272x64 .f32) (y : S6272x64.Idx) :
    ∃ pc ∈ ([⟨rRow5, p0⟩] : List (View.Piece (Elt F) S6272x64 .f32)), y ∈ pc.1.set :=
  View.cover_of_tiled [⟨rRow5, p0⟩] S6272x64.size (by rfl) y

set_option maxHeartbeats 4000000 in
theorem sound_kernel5 (c : Dev nD) (E : Set ℕ) (i : grid5.Coords) (arg1 : Memref sig .tc .vmem S6272x64 .f32) (harg1 : arg1.IsWhole) (arg2 : Memref sig .tc .vmem S6272x64 .f32) (harg2 : arg2.IsWhole) (arg3 : Memref sig .tc .vmem S64x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S6272x64 .f32) (harg7 : arg7.IsWhole)
    (a h : Vec F S6272x64 .f32) (wi wh : Vec F S64x192 .f32) (bi bh : Vec F S1x192 .f32) (K : PUnit → sProp 𝕄) :
    iprop(owns (c : Thread nD τ) arg1 fullShare a ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d)
        ∗ (iprop(owns (c : Thread nD τ) arg1 fullShare a ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out5_6 a h wi wh bi bh)) -∗ K ⟨⟩))
      ⊢ wp frame (wpE (defs₀ (F := F)) Variants.none c none) E (cc5__gru_kernel i arg1 harg1 arg2 harg2 arg3 harg3 arg4 harg4 arg5 harg5 arg6 harg6 arg7 harg7) K := by
  simp only [cc5__gru_kernel_eq_skeleton]; unfold cc5__gru_kernel_skel
  simp only [k5_part1_eq_skeleton]; unfold k5_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 8 = 0 :=
  (by decide +kernel : ∀ t : Fin grid6.N, cond6_0 (grid6.coords t) ↔ t.val % 8 = 0)

abbrev VO6_2 : View sig .tc .vmem S128x64 .f32 := (Memref.whole cc6_stg2_0 : Memref sig .tc .vmem S128x64 .f32).view
abbrev VO6_3 : View sig .tc .vmem S128x1 .f32 := (Memref.whole cc6_stg3_0 : Memref sig .tc .vmem S128x1 .f32).view

abbrev ms6_0 (t : Fin cfg6.N) : Memref sig .tc .vmem S6272x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S6272x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x1 .f32 := win6_3.stage (cfg6.slots t 3)
abbrev hs6_3 (t : Fin cfg6.N) : (ms6_3 t).IsWhole := hstage6_3 ((cfg6.slots t 3).cast nbuf6_3)

section
variable (c : Dev nD) (i : grid6.Coords) (arg1 : Memref sig .tc .vmem S6272x64 .f32) (harg1 : arg1.IsWhole) (arg2 : Memref sig .tc .vmem S6272x1 .i32) (harg2 : arg2.IsWhole) (arg3 : Memref sig .tc .vmem S128x64 .f32) (harg3 : arg3.IsWhole) (arg4 : Memref sig .tc .vmem S128x1 .f32) (harg4 : arg4.IsWhole)

set_option maxHeartbeats 4000000 in
noncomputable def kernelRun6_A (hc0 : cond6_0 i)
    (x0 : Vec F S6272x64 .f32) (x1 : Vec F S6272x1 .i32) :
    Σ' (L2 : List (View.Piece (Elt F) S128x64 .f32)), { L3 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc6__pool_kernel i arg1 harg1 arg2 harg2 arg3 harg3 arg4 harg4) K } := by
  refine ⟨?_, ?_, fun E K => ?run⟩
  case run =>
    simp only [cc6__pool_kernel_eq_skeleton]; unfold cc6__pool_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

set_option maxHeartbeats 4000000 in
noncomputable def kernelRun6_B (hc0 : ¬cond6_0 i)
    (x0 : Vec F S6272x64 .f32) (x1 : Vec F S6272x1 .i32) (xo2 : Vec F S128x64 .f32) (xo3 : Vec F S128x1 .f32) :
    Σ' (L2 : List (View.Piece (Elt F) S128x64 .f32)), { L3 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc6__pool_kernel i arg1 harg1 arg2 harg2 arg3 harg3 arg4 harg4) K } := by
  refine ⟨?_, ?_, fun E K => ?run⟩
  case run =>
    simp only [cc6__pool_kernel_eq_skeleton]; unfold cc6__pool_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover6_A_2 (hc0 : cond6_0 i) (x0 : Vec F S6272x64 .f32) (x1 : Vec F S6272x1 .i32) (y : S128x64.Idx) :
    ∃ pc ∈ (kernelRun6_A c i arg1 harg1 arg2 harg2 arg3 harg3 arg4 harg4 hc0 x0 x1).1, y ∈ pc.1.set :=
  View.cover_of_tiledL (kernelRun6_A c i arg1 harg1 arg2 harg2 arg3 harg3 arg4 harg4 hc0 x0 x1).1 S128x64.size (by sl_kernel_rfl) y

def out6_A_2 (hc0 : cond6_0 i) (x0 : Vec F S6272x64 .f32) (x1 : Vec F S6272x1 .i32) : Vec F S128x64 .f32 :=
  VO6_2.read (Elt F) (VO6_2.writes (Elt F) VO6_2.junk (kernelRun6_A c i arg1 harg1 arg2 harg2 arg3 harg3 arg4 harg4 hc0 x0 x1).1)

theorem cover6_A_3 (hc0 : cond6_0 i) (x0 : Vec F S6272x64 .f32) (x1 : Vec F S6272x1 .i32) (y : S128x1.Idx) :
    ∃ pc ∈ (kernelRun6_A c i arg1 harg1 arg2 harg2 arg3 harg3 arg4 harg4 hc0 x0 x1).2.1, y ∈ pc.1.set :=
  View.cover_of_tiledL (kernelRun6_A c i arg1 harg1 arg2 harg2 arg3 harg3 arg4 harg4 hc0 x0 x1).2.1 S128x1.size (by sl_kernel_rfl) y

def out6_A_3 (hc0 : cond6_0 i) (x0 : Vec F S6272x64 .f32) (x1 : Vec F S6272x1 .i32) : Vec F S128x1 .f32 :=
  VO6_3.read (Elt F) (VO6_3.writes (Elt F) VO6_3.junk (kernelRun6_A c i arg1 harg1 arg2 harg2 arg3 harg3 arg4 harg4 hc0 x0 x1).2.1)

theorem cover6_B_2 (hc0 : ¬cond6_0 i) (x0 : Vec F S6272x64 .f32) (x1 : Vec F S6272x1 .i32) (xo2 : Vec F S128x64 .f32) (xo3 : Vec F S128x1 .f32) (y : S128x64.Idx) :
    ∃ pc ∈ (kernelRun6_B c i arg1 harg1 arg2 harg2 arg3 harg3 arg4 harg4 hc0 x0 x1 xo2 xo3).1, y ∈ pc.1.set :=
  View.cover_of_tiledL (kernelRun6_B c i arg1 harg1 arg2 harg2 arg3 harg3 arg4 harg4 hc0 x0 x1 xo2 xo3).1 S128x64.size (by sl_kernel_rfl) y

def out6_B_2 (hc0 : ¬cond6_0 i) (x0 : Vec F S6272x64 .f32) (x1 : Vec F S6272x1 .i32) (xo2 : Vec F S128x64 .f32) (xo3 : Vec F S128x1 .f32) : Vec F S128x64 .f32 :=
  VO6_2.read (Elt F) (VO6_2.writes (Elt F) VO6_2.junk (kernelRun6_B c i arg1 harg1 arg2 harg2 arg3 harg3 arg4 harg4 hc0 x0 x1 xo2 xo3).1)

theorem cover6_B_3 (hc0 : ¬cond6_0 i) (x0 : Vec F S6272x64 .f32) (x1 : Vec F S6272x1 .i32) (xo2 : Vec F S128x64 .f32) (xo3 : Vec F S128x1 .f32) (y : S128x1.Idx) :
    ∃ pc ∈ (kernelRun6_B c i arg1 harg1 arg2 harg2 arg3 harg3 arg4 harg4 hc0 x0 x1 xo2 xo3).2.1, y ∈ pc.1.set :=
  View.cover_of_tiledL (kernelRun6_B c i arg1 harg1 arg2 harg2 arg3 harg3 arg4 harg4 hc0 x0 x1 xo2 xo3).2.1 S128x1.size (by sl_kernel_rfl) y

def out6_B_3 (hc0 : ¬cond6_0 i) (x0 : Vec F S6272x64 .f32) (x1 : Vec F S6272x1 .i32) (xo2 : Vec F S128x64 .f32) (xo3 : Vec F S128x1 .f32) : Vec F S128x1 .f32 :=
  VO6_3.read (Elt F) (VO6_3.writes (Elt F) VO6_3.junk (kernelRun6_B c i arg1 harg1 arg2 harg2 arg3 harg3 arg4 harg4 hc0 x0 x1 xo2 xo3).2.1)

end

def outs6_A (c : Dev nD) (t : Fin cfg6.N) (h0 : t.val % 8 = 0) : Vec F S128x64 .f32 × Vec F S128x1 .f32 :=
  (out6_A_2 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t),
   out6_A_3 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t))

def outs6_B (c : Dev nD) (t : Fin cfg6.N) (h0 : ¬t.val % 8 = 0) (p : Vec F S128x64 .f32 × Vec F S128x1 .f32) :
    Vec F S128x64 .f32 × Vec F S128x1 .f32 :=
  (out6_B_2 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) p.1 p.2,
   out6_B_3 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) p.1 p.2)

def outsAt6 (c : Dev nD) : (n : ℕ) → n < cfg6.N → Vec F S128x64 .f32 × Vec F S128x1 .f32
  | 0, hn => outs6_A V c ⟨0, hn⟩ (Nat.zero_mod _)
  | n + 1, hn =>
    if h0 : (n + 1) % 8 = 0 then outs6_A V c ⟨n + 1, hn⟩ h0
    else outs6_B V c ⟨n + 1, hn⟩ h0 (outsAt6 c n (Nat.lt_of_succ_lt hn))

theorem outsAt6_A (c : Dev nD) (t : Fin cfg6.N) (h0 : t.val % 8 = 0) :
    outsAt6 V c t.val t.isLt = outs6_A V c t h0 := by
  obtain ⟨n, hn⟩ := t
  cases n with
  | zero => exact rfl
  | succ n => exact (dif_pos h0).trans rfl

theorem outsAt6_B (c : Dev nD) (t : Fin cfg6.N) (h0 : ¬t.val % 8 = 0) :
    outsAt6 V c t.val t.isLt = outs6_B V c t h0 (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2 := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem before6_2_B (c : Dev nD) (t : Fin cfg6.N) (h0 : ¬t.val % 8 = 0) (d) :
    (dat6 V c).before 2 t d = (outsAt6 V c (t.val - 1) (Nat.lt_of_le_of_lt (Nat.sub_le _ _) t.isLt)).1 := by
  have hN : t.val < 8 := lt_of_lt_of_eq t.isLt (show cfg6.N = 8 from N_6)
  rw [Dat.before_out_kept _ 2 rfl t (by omega) (Bool.eq_false_iff.mpr fun h => by have := (flush6_2 _).mp h; dsimp only at this; omega)
    (fun _ => rfl) (fun _ _ => rfl)]
  dsimp only [dat6]

theorem before6_3_B (c : Dev nD) (t : Fin cfg6.N) (h0 : ¬t.val % 8 = 0) (d) :
    (dat6 V c).before 3 t d = (outsAt6 V c (t.val - 1) (Nat.lt_of_le_of_lt (Nat.sub_le _ _) t.isLt)).2 := by
  have hN : t.val < 8 := lt_of_lt_of_eq t.isLt (show cfg6.N = 8 from N_6)
  rw [Dat.before_out_kept _ 3 rfl t (by omega) (Bool.eq_false_iff.mpr fun h => by have := (flush6_3 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2, after6_3]
  by_cases h0 : t.val % 8 = 0
  · rw [outsAt6_A V c t h0]
    unfold outs6_A out6_A_2 out6_A_3
    dsimp only
    iintro ⟨HΦ, Ho, ⟨%d0, H0⟩, ⟨%d1, H1⟩, ⟨%d2, H2⟩, ⟨%d3, H3⟩⟩
    iapply ((kernelRun6_A c (grid6.coords t) _ _ _ _ _ _ _ _ ((hcond6_0 t).mpr h0) (iblk6 V c 0 t) (iblk6 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _)
    unfold owns; iexists _; isplitr
    swap; · iexact H3
    ipureintro; exact View.read_writes_of_cover _ _ _ _ _ (cover6_A_3 c _ _ _ _ _ _ _ _ _ _ _ _)
  · rw [outsAt6_B V c t h0]
    simp only [before6_2_B V c t h0, before6_3_B V c t h0]
    unfold outs6_B out6_B_2 out6_B_3
    dsimp only
    iintro ⟨HΦ, Ho, ⟨%d0, H0⟩, ⟨%d1, H1⟩, ⟨%d2, H2⟩, ⟨%d3, H3⟩⟩
    iapply ((kernelRun6_B c (grid6.coords t) _ _ _ _ _ _ _ _ (fun h => h0 ((hcond6_0 t).mp h)) (iblk6 V c 0 t) (iblk6 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _)
    unfold owns; iexists _; isplitr
    swap; · iexact H3
    ipureintro; exact View.read_writes_of_cover _ _ _ _ _ (cover6_B_3 c _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«413690_j74569222193909_1_alg».proof.Proof.Gen.Kernel.Launch
import proofs.«413690_j74569222193909_1_alg».proof.Proof.Gen.Kernel.Skeleton
import proofs.«413690_j74569222193909_1_alg».proof.Proof.Gen.Kernel.Points
import proofs.«413690_j74569222193909_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S128x64 := Rect.unit (s := S128x64) ![0, 0] S128x64.size inb_S128x64_S128x64_0_0
abbrev r7_1 : Rect S128x1 := Rect.unit (s := S128x1) ![0, 0] S128x1.size inb_S128x1_S128x1_0_0
abbrev r7_2 : Rect S64x32 := Rect.unit (s := S64x32) ![0, 0] S64x32.size inb_S64x32_S64x32_0_0
abbrev r7_3 : Rect S1x32 := Rect.unit (s := S1x32) ![0, 0] S1x32.size inb_S1x32_S1x32_0_0
abbrev r7_4 : Rect S32x6 := Rect.unit (s := S32x6) ![0, 0] S32x6.size inb_S32x6_S32x6_0_0
abbrev r7_5 : Rect S1x6 := Rect.unit (s := S1x6) ![0, 0] S1x6.size inb_S1x6_S1x6_0_0
abbrev r7_6 : Rect S128x6 := Rect.unit (s := S128x6) ![0, 0] S128x6.size inb_S128x6_S128x6_0_0

def out7_6 (x0 : Vec F S128x64 .f32) (x1 : Vec F S128x1 .f32) (x2 : Vec F S64x32 .f32) (x3 : Vec F S1x32 .f32)
    (x4 : Vec F S32x6 .f32) (x5 : Vec F S1x6 .f32) : Vec F S128x6 .f32 :=
  View.canon [⟨r7_6, k7_pay1 (View.ld x1 r7_1) (View.ld x0 r7_0) (View.ld x2 r7_2) (View.ld x3 r7_3) (View.ld x4 r7_4) (View.ld x5 r7_5)⟩]

theorem cover7_6 (p0 : Vec F S128x6 .f32) (y : S128x6.Idx) :
    ∃ pc ∈ ([⟨r7_6, p0⟩] : List (View.Piece (Elt F) S128x6 .f32)), y ∈ pc.1.set :=
  View.cover_of_tiled [⟨r7_6, p0⟩] S128x6.size (by rfl) y

set_option maxHeartbeats 1000000 in
theorem sound_kernel7 (c : Dev nD) (E : Set ℕ) (i : grid7.Coords)
    (arg1 : Memref sig .tc .vmem S128x64 .f32) (harg1 : arg1.IsWhole) (arg2 : Memref sig .tc .vmem S128x1 .f32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x6 .f32) (harg5 : arg5.IsWhole) (arg6 : Memref sig .tc .vmem S1x6 .f32) (harg6 : arg6.IsWhole)
    (arg7 : Memref sig .tc .vmem S128x6 .f32) (harg7 : arg7.IsWhole)
    (x0 : Vec F S128x64 .f32) (x1 : Vec F S128x1 .f32) (x2 : Vec F S64x32 .f32) (x3 : Vec F S1x32 .f32)
    (x4 : Vec F S32x6 .f32) (x5 : Vec F S1x6 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E
          (cc7__fc_kernel i arg1 harg1 arg2 harg2 arg3 harg3 arg4 harg4 arg5 harg5 arg6 harg6 arg7 harg7) K := by
  simp only [cc7__fc_kernel_eq_skeleton]; unfold cc7__fc_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d
theorem before7_5 (c : Dev nD) (t : Fin cfg7.N) (d) : (dat7 V c).before 5 t d = iblk7 V c 5 t :=
  (dat7 V c).before_in_eq_fetched 5 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _
    (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.LibRegion.lean ====
import Idealize.ShloMosaic.Lib.Pipeline.FrameBody
import Idealize.ShloMosaic.Lib.Pipeline.FrameSuffix
import Idealize.ShloMosaic.Lib.Pipeline.RegionsLoop
import Idealize.ShloMosaic.Lib.Pipeline.Kit

set_option maxRecDepth 16384

noncomputable section

namespace Cert.LibRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Λ₀ : Idealize.SL.Sem.Labels} {F : FTy → Type} [FloatOps F] {P : Type} [Fintype P]

local notation "𝕄" => MT nD τ sig Unit (Elt F) ℕ (UR sig nD τ) ℕ

abbrev rest (c : Dev nD) : sProp 𝕄 := iprop((∃ r, prngReg c r) ∗ ∃ W, owes (c : Thread nD τ) (0 : CellTallies nD τ sig Unit) W)

variable (cfgs : P → Cfg sig Λ₀) (pdats : (p : P) → (c : Dev nD) → Dat τ (Elt F) Unit ℕ (UR sig nD τ) ℕ (cfgs p) c)
  (defs₀ : Defs nD τ sig (Elt F) Λ₀)

set_option backward.isDefEq.respectTransparency.types false in
/-- The regions of a program differ only in their data: one construction of the segment serves them all. -/
def plain (p : P) (lf : Pipeline.LaunchFacts (nD := nD) (τ := τ) cfgs p) (Vi Vo : (c : Dev nD) → Valuation τ sig (Elt F))
    (hbody : ∀ c, BodyObligation (pdats p c) defs₀ Variants.none () Set.univ)
    (hq : ∀ c w, (pdats p c).q w = fullShare)
    (hA : ∀ c w, (pdats p c).A w = Vi c (Pipeline.arrRef (cfgs p).spec w))
    (howed : ∀ c t, (pdats p c).owed t = 0)
    (hrec : ∀ c x, x ∈ (pdats p c).recorded 0)
    (hΦ : ∀ c t, (pdats p c).Φ t = Pipeline.ΦA (cfgs p).spec c)
    (O : List (Ref sig .tc)) (hoff : ∀ c b, b ∉ O → Vo c b = Vi c b)
    (hin : ∀ w, ((cfgs p).win w).isOut = false → Pipeline.arrRef (cfgs p).spec w ∉ O)
    (hO : ∀ b ∈ O, ∃ w, Pipeline.arrRef (cfgs p).spec w = b)
    (hFo : ∀ c w, ((cfgs p).win w).isOut = true → (pdats p c).arrAt w (cfgs p).N = Vo c (Pipeline.arrRef (cfgs p).spec w)) :
    Pipeline.RegionSeg (fun p => (cfgs p).toPCfg (Val := Elt F)) (fun p => (cfgs p).toPCfg_adm) pdats () defs₀ Variants.none
      (fun _ : GSem nD τ sig => (∅ : Finset Unit)) (fun _ _ => (0 : ℕ)) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (Vi c) ∗ rest c)
  post c := iprop(StableHlo.held (c : Thread nD τ) (Pipeline.ucRefs τ sig) (Vo c) ∗ rest c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (fun p => (cfgs p).toPCfg (Val := Elt F)) (fun p => (cfgs p).toPCfg_adm) pdats
      lf.win lf.arr_whole c ((pdats p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun x _ => Or.inl (hrec c x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (fun p => (cfgs p).toPCfg (Val := Elt F)) (fun p => (cfgs p).toPCfg_adm)
      (Ix := Unit) (Name := ℕ) (U := UR sig nD τ) (Lvl := ℕ)
      lf.win lf.arr_whole c pdats ((pdats p c).share_full (hq c))
      (fun b => Vi c b) (fun b => Vo c b) ((pdats p c).arrAt · (cfgs p).N)
      (fun w => by
        cases h : ((cfgs p).win w).isOut
        · exact ((pdats p c).arrAt_in w h _).trans ((hA c w).trans (hoff c _ (hin w h)).symm)
        · exact hFo c w h)
      (fun b hb => hoff c b fun hbO => hb (by
        obtain ⟨w, rfl⟩ := hO b hbO
        exact Finset.mem_image_of_mem _ (Finset.mem_univ w)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end Cert.LibRegion

end
-- ==== Proof.K.Run.lean ====
import proofs.«413690_j74569222193909_1_alg».proof.Proof.Gen.Kernel.Regions
import proofs.«413690_j74569222193909_1_alg».proof.Proof.K.Reg0
import proofs.«413690_j74569222193909_1_alg».proof.Proof.K.Reg1
import proofs.«413690_j74569222193909_1_alg».proof.Proof.K.Reg2
import proofs.«413690_j74569222193909_1_alg».proof.Proof.K.Reg3
import proofs.«413690_j74569222193909_1_alg».proof.Proof.K.Reg4
import proofs.«413690_j74569222193909_1_alg».proof.Proof.K.Reg5
import proofs.«413690_j74569222193909_1_alg».proof.Proof.K.Reg6
import proofs.«413690_j74569222193909_1_alg».proof.Proof.K.Reg7
import proofs.«413690_j74569222193909_1_alg».proof.Proof.LibRegion
import Idealize.ShloMosaic.Lib.Pipeline.FrameBody
import Idealize.ShloMosaic.Lib.Pipeline.FrameSuffix
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def o6 (r : Ref sig .tc) (c : Dev nD) : Buf (Elt F) ((c : Thread nD τ).loc r) :=
  Pipeline.withArrays spec0 c (V5 m c) (fun w => (dat0 (fun c b => V5 m c b) c).arrAt w cfg0.N) (Proc.devRef .tc r)
def outs0 : Gen.Outs (F := F) := fun _ => o6 m

abbrev E1 (c : Dev nD) : Valuation τ sig (Elt F) := V6 m (outs0 m) c
def o7 (r : Ref sig .tc) (c : Dev nD) : Buf (Elt F) ((c : Thread nD τ).loc r) :=
  Pipeline.withArrays spec1 c (E1 m c) (fun w => (dat1 (fun c b => E1 m c b) c).arrAt w cfg1.N) (Proc.devRef .tc r)
def outs1 : Gen.Outs (F := F)
  | 6 => o6 m
  | _ => o7 m

abbrev E2 (c : Dev nD) : Valuation τ sig (Elt F) := V7 m (outs1 m) c
def o8 (r : Ref sig .tc) (c : Dev nD) : Buf (Elt F) ((c : Thread nD τ).loc r) :=
  Pipeline.withArrays spec2 c (E2 m c) (fun w => (dat2 (fun c b => E2 m c b) c).arrAt w cfg2.N) (Proc.devRef .tc r)
def outs2 : Gen.Outs (F := F)
  | 6 => o6 m
  | 7 => o7 m
  | _ => o8 m

abbrev E3 (c : Dev nD) : Valuation τ sig (Elt F) := V9 m (outs2 m) c
def o10 (r : Ref sig .tc) (c : Dev nD) : Buf (Elt F) ((c : Thread nD τ).loc r) :=
  Pipeline.withArrays spec3 c (E3 m c) (fun w => (dat3 (fun c b => E3 m c b) c).arrAt w cfg3.N) (Proc.devRef .tc r)
def outs3 : Gen.Outs (F := F)
  | 6 => o6 m
  | 7 => o7 m
  | 8 => o8 m
  | _ => o10 m

abbrev E4 (c : Dev nD) : Valuation τ sig (Elt F) := V10 m (outs3 m) c
def o11 (r : Ref sig .tc) (c : Dev nD) : Buf (Elt F) ((c : Thread nD τ).loc r) :=
  Pipeline.withArrays spec4 c (E4 m c) (fun w => (dat4 (fun c b => E4 m c b) c).arrAt w cfg4.N) (Proc.devRef .tc r)
def outs4 : Gen.Outs (F := F)
  | 6 => o6 m
  | 7 => o7 m
  | 8 => o8 m
  | 10 => o10 m
  | _ => o11 m

abbrev E5 (c : Dev nD) : Valuation τ sig (Elt F) := V11 m (outs4 m) c
def o12 (r : Ref sig .tc) (c : Dev nD) : Buf (Elt F) ((c : Thread nD τ).loc r) :=
  Pipeline.withArrays spec5 c (E5 m c) (fun w => (dat5 (fun c b => E5 m c b) c).arrAt w cfg5.N) (Proc.devRef .tc r)
def outs5 : Gen.Outs (F := F)
  | 6 => o6 m
  | 7 => o7 m
  | 8 => o8 m
  | 10 => o10 m
  | 11 => o11 m
  | _ => o12 m

abbrev E6 (c : Dev nD) : Valuation τ sig (Elt F) := V12 m (outs5 m) c
def o13 (r : Ref sig .tc) (c : Dev nD) : Buf (Elt F) ((c : Thread nD τ).loc r) :=
  Pipeline.withArrays spec6 c (E6 m c) (fun w => (dat6 (fun c b => E6 m c b) c).arrAt w cfg6.N) (Proc.devRef .tc r)
def outs6 : Gen.Outs (F := F)
  | 6 => o6 m
  | 7 => o7 m
  | 8 => o8 m
  | 10 => o10 m
  | 11 => o11 m
  | 12 => o12 m
  | _ => o13 m

abbrev E7 (c : Dev nD) : Valuation τ sig (Elt F) := V14 m (outs6 m) c
def o15 (r : Ref sig .tc) (c : Dev nD) : Buf (Elt F) ((c : Thread nD τ).loc r) :=
  Pipeline.withArrays spec7 c (E7 m c) (fun w => (dat7 (fun c b => E7 m c b) c).arrAt w cfg7.N) (Proc.devRef .tc r)
def outs : Gen.Outs (F := F)
  | 6 => o6 m
  | 7 => o7 m
  | 8 => o8 m
  | 10 => o10 m
  | 11 => o11 m
  | 12 => o12 m
  | 13 => o13 m
  | _ => o15 m

theorem outs_6 (c : Dev nD) : outs m 6 main_v15 c = (dat0 (fun c b => V5 m c b) c).arrAt 2 cfg0.N :=
  Pipeline.withArrays_arr spec0 launch0.win.arr_inj c (V5 m c) (fun w => (dat0 (fun c b => V5 m c b) c).arrAt w cfg0.N) 2
theorem outs_7 (c : Dev nD) : outs m 7 main_v16 c = (dat1 (fun c b => V6 m (outs m) c b) c).arrAt 3 cfg1.N :=
  Pipeline.withArrays_arr spec1 launch1.win.arr_inj c (E1 m c) (fun w => (dat1 (fun c b => E1 m c b) c).arrAt w cfg1.N) 3
theorem outs_8 (c : Dev nD) : outs m 8 main_v17 c = (dat2 (fun c b => V7 m (outs m) c b) c).arrAt 6 cfg2.N :=
  Pipeline.withArrays_arr spec2 launch2.win.arr_inj c (E2 m c) (fun w => (dat2 (fun c b => E2 m c b) c).arrAt w cfg2.N) 6
theorem outs_10 (c : Dev nD) : outs m 10 main_v20 c = (dat3 (fun c b => V9 m (outs m) c b) c).arrAt 2 cfg3.N :=
  Pipeline.withArrays_arr spec3 launch3.win.arr_inj c (E3 m c) (fun w => (dat3 (fun c b => E3 m c b) c).arrAt w cfg3.N) 2
theorem outs_11 (c : Dev nD) : outs m 11 main_v21 c = (dat4 (fun c b => V10 m (outs m) c b) c).arrAt 3 cfg4.N :=
  Pipeline.withArrays_arr spec4 launch4.win.arr_inj c (E4 m c) (fun w => (dat4 (fun c b => E4 m c b) c).arrAt w cfg4.N) 3
theorem outs_12 (c : Dev nD) : outs m 12 main_v22 c = (dat5 (fun c b => V11 m (outs m) c b) c).arrAt 6 cfg5.N :=
  Pipeline.withArrays_arr spec5 launch5.win.arr_inj c (E5 m c) (fun w => (dat5 (fun c b => E5 m c b) c).arrAt w cfg5.N) 6
theorem outs_13_0 (c : Dev nD) : outs m 13 main_v23_0 c = (dat6 (fun c b => V12 m (outs m) c b) c).arrAt 2 cfg6.N :=
  Pipeline.withArrays_arr spec6 launch6.win.arr_inj c (E6 m c) (fun w => (dat6 (fun c b => E6 m c b) c).arrAt w cfg6.N) 2
theorem outs_13_1 (c : Dev nD) : outs m 13 main_v23_1 c = (dat6 (fun c b => V12 m (outs m) c b) c).arrAt 3 cfg6.N :=
  Pipeline.withArrays_arr spec6 launch6.win.arr_inj c (E6 m c) (fun w => (dat6 (fun c b => E6 m c b) c).arrAt w cfg6.N) 3
theorem outs_15 (c : Dev nD) : outs m 15 main_v28 c = (dat7 (fun c b => V14 m (outs m) c b) c).arrAt 6 cfg7.N :=
  Pipeline.withArrays_arr spec7 launch7.win.arr_inj c (E7 m c) (fun w => (dat7 (fun c b => E7 m c b) c).arrAt w cfg7.N) 6

theorem V6_at_main_v15 (c : Dev nD) : V6 m (outs m) c main_v15 = outs m 6 main_v15 c := by
  simp only [V6, Function.update_self]

theorem V7_at_main_v16 (c : Dev nD) : V7 m (outs m) c main_v16 = outs m 7 main_v16 c := by
  simp only [V7, Function.update_self]

theorem V8_at_main_v17 (c : Dev nD) : V8 m (outs m) c main_v17 = outs m 8 main_v17 c := by
  simp only [V8, Function.update_self]

theorem V10_at_main_v20 (c : Dev nD) : V10 m (outs m) c main_v20 = outs m 10 main_v20 c := by
  simp only [V10, Function.update_self]

theorem V11_at_main_v21 (c : Dev nD) : V11 m (outs m) c main_v21 = outs m 11 main_v21 c := by
  simp only [V11, Function.update_self]

theorem V12_at_main_v22 (c : Dev nD) : V12 m (outs m) c main_v22 = outs m 12 main_v22 c := by
  simp only [V12, Function.update_self]

theorem V13_at_main_v23_0 (c : Dev nD) : V13 m (outs m) c main_v23_0 = outs m 13 main_v23_0 c := by
  simp only [V13, Function.update_of_ne (StableHlo.devRef_ne_of_ne (by decide) : (Proc.devRef .tc main_v23_0 : DevRef τ sig) ≠ Proc.devRef .tc main_v23_1), Function.update_self]
theorem V13_at_main_v23_1 (c : Dev nD) : V13 m (outs m) c main_v23_1 = outs m 13 main_v23_1 c := by
  simp only [V13, Function.update_self]

theorem V15_at_main_v28 (c : Dev nD) : V15 m (outs m) c main_v28 = outs m 15 main_v28 c := by
  simp only [V15, Function.update_self]

def pdats : (p : Fin 8) → (c : Dev nD) → Dat τ (Elt F) Unit ℕ (UR sig nD τ) ℕ (cfgs p) c
  | ⟨0, _⟩ => fun c => dat0 (fun c b => V5 m c b) c
  | ⟨1, _⟩ => fun c => dat1 (fun c b => V6 m (outs m) c b) c
  | ⟨2, _⟩ => fun c => dat2 (fun c b => V7 m (outs m) c b) c
  | ⟨3, _⟩ => fun c => dat3 (fun c b => V9 m (outs m) c b) c
  | ⟨4, _⟩ => fun c => dat4 (fun c b => V10 m (outs m) c b) c
  | ⟨5, _⟩ => fun c => dat5 (fun c b => V11 m (outs m) c b) c
  | ⟨6, _⟩ => fun c => dat6 (fun c b => V12 m (outs m) c b) c
  | ⟨7, _⟩ => fun c => dat7 (fun c b => V14 m (outs m) c b) c
abbrev run𝒱 : Variants := Variants.none
abbrev runL : GSem nD τ sig → Finset Unit := fun _ => ∅
abbrev runLv : GSem nD τ sig → Unit → ℕ := fun _ _ => 0
theorem run_hL : ∀ g : GSem nD τ sig, g.1.2 ≠ .tc → runL g = ∅ := fun _ _ => rfl
abbrev runR (c : Dev nD) : sProp 𝕄 := iprop((∃ r, prngReg c r) ∗ ∃ W, owes (c : Thread nD τ) (0 : CellTallies nD τ sig Unit) W)
abbrev runE : Fin 9 → Dev nD → sProp 𝕄 := fun _ c => runR c
abbrev runO : Dev nD → CellTallies nD τ sig Unit := 0
abbrev runG : Dev nD → sProp 𝕄 := fun _ => iprop(emp)
abbrev runU : UR sig nD τ := initOf (Pipeline.cells cfgs cellOf_inj) (Pipeline.launchToks cfgs cellOf_inj)

theorem run_hu : (ownU runU : sProp 𝕄)
    ⊢ |={Set.univ}=> iprop(BI.own (emb₁ (initOf (Pipeline.cells cfgs cellOf_inj) (Pipeline.launchToks cfgs cellOf_inj))) ∗ bigSep Finset.univ (runG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem run_hE0 (ρ : Dev nD → PrngReg) :
    iprop((bigSep Finset.univ fun c : Dev nD => iprop(unscopedSems0 c ∗ owes (c : Thread nD τ) (runO c) ∅ ∗ Pipeline.launchCred runO c ∗ prngReg c (ρ c) ∗ runG (F := F) c)) ∗ levAts runL runLv)
      ⊢ (|={Set.univ}=> bigSep Finset.univ (runE (F := F) 0) : sProp 𝕄) := by
  refine Pipeline.initEach runL runLv fun c => ?_
  iintro ⟨⟨-, HO, -, Hp, -⟩, -⟩
  imodintro
  isplitl [Hp]; · iexists _; iexact Hp
  iexists ∅; iexact HO

theorem run_hE8 (c : Dev nD) : runE (F := F) 8 c ⊢ (iprop(∃ W, owes (c : Thread nD τ) (0 : CellTallies nD τ sig Unit) W) : sProp 𝕄) := by
  iintro ⟨-, HO⟩; iexact HO

def reg0 : Pipeline.RegionSeg (pcfgs (F := F)) adm (pdats m) () defs₀ run𝒱 runL runLv 0 :=
  LibRegion.plain cfgs (pdats m) defs₀ 0 launch0 (V5 m) (V6 m (outs m)) (fun c => body_obligation0 (fun c b => V5 m c b) c)
    (fun _ _ => rfl) (fun _ _ => rfl) (fun _ _ => rfl) (fun _ _ => trivial) (fun _ _ => rfl) [main_v15] (V6_of m (outs m)) (by decide) (by decide)
    (fun c w h => by
      obtain rfl : w = 2 := by revert w; decide
      exact (outs_6 m c).symm.trans (V6_at_main_v15 m c).symm)

def reg1 : Pipeline.RegionSeg (pcfgs (F := F)) adm (pdats m) () defs₀ run𝒱 runL runLv 1 :=
  LibRegion.plain cfgs (pdats m) defs₀ 1 launch1 (V6 m (outs m)) (V7 m (outs m)) (fun c => body_obligation1 (fun c b => V6 m (outs m) c b) c)
    (fun _ _ => rfl) (fun _ _ => rfl) (fun _ _ => rfl) (fun _ _ => trivial) (fun _ _ => rfl) [main_v16] (V7_of m (outs m)) (by decide) (by decide)
    (fun c w h => by
      obtain rfl : w = 3 := by revert w; decide
      exact (outs_7 m c).symm.trans (V7_at_main_v16 m c).symm)

def reg2 : Pipeline.RegionSeg (pcfgs (F := F)) adm (pdats m) () defs₀ run𝒱 runL runLv 2 :=
  LibRegion.plain cfgs (pdats m) defs₀ 2 launch2 (V7 m (outs m)) (V8 m (outs m)) (fun c => body_obligation2 (fun c b => V7 m (outs m) c b) c)
    (fun _ _ => rfl) (fun _ _ => rfl) (fun _ _ => rfl) (fun _ _ => trivial) (fun _ _ => rfl) [main_v17] (V8_of m (outs m)) (by decide) (by decide)
    (fun c w h => by
      obtain rfl : w = 6 := by revert w; decide
      exact (outs_8 m c).symm.trans (V8_at_main_v17 m c).symm)

def reg3 : Pipeline.RegionSeg (pcfgs (F := F)) adm (pdats m) () defs₀ run𝒱 runL runLv 3 :=
  LibRegion.plain cfgs (pdats m) defs₀ 3 launch3 (V9 m (outs m)) (V10 m (outs m)) (fun c => body_obligation3 (fun c b => V9 m (outs m) c b) c)
    (fun _ _ => rfl) (fun _ _ => rfl) (fun _ _ => rfl) (fun _ _ => trivial) (fun _ _ => rfl) [main_v20] (V10_of m (outs m)) (by decide) (by decide)
    (fun c w h => by
      obtain rfl : w = 2 := by revert w; decide
      exact (outs_10 m c).symm.trans (V10_at_main_v20 m c).symm)

def reg4 : Pipeline.RegionSeg (pcfgs (F := F)) adm (pdats m) () defs₀ run𝒱 runL runLv 4 :=
  LibRegion.plain cfgs (pdats m) defs₀ 4 launch4 (V10 m (outs m)) (V11 m (outs m)) (fun c => body_obligation4 (fun c b => V10 m (outs m) c b) c)
    (fun _ _ => rfl) (fun _ _ => rfl) (fun _ _ => rfl) (fun _ _ => trivial) (fun _ _ => rfl) [main_v21] (V11_of m (outs m)) (by decide) (by decide)
    (fun c w h => by
      obtain rfl : w = 3 := by revert w; decide
      exact (outs_11 m c).symm.trans (V11_at_main_v21 m c).symm)

def reg5 : Pipeline.RegionSeg (pcfgs (F := F)) adm (pdats m) () defs₀ run𝒱 runL runLv 5 :=
  LibRegion.plain cfgs (pdats m) defs₀ 5 launch5 (V11 m (outs m)) (V12 m (outs m)) (fun c => body_obligation5 (fun c b => V11 m (outs m) c b) c)
    (fun _ _ => rfl) (fun _ _ => rfl) (fun _ _ => rfl) (fun _ _ => trivial) (fun _ _ => rfl) [main_v22] (V12_of m (outs m)) (by decide) (by decide)
    (fun c w h => by
      obtain rfl : w = 6 := by revert w; decide
      exact (outs_12 m c).symm.trans (V12_at_main_v22 m c).symm)

def reg6 : Pipeline.RegionSeg (pcfgs (F := F)) adm (pdats m) () defs₀ run𝒱 runL runLv 6 :=
  LibRegion.plain cfgs (pdats m) defs₀ 6 launch6 (V12 m (outs m)) (V13 m (outs m)) (fun c => body_obligation6 (fun c b => V12 m (outs m) c b) c)
    (fun _ _ => rfl) (fun _ _ => rfl) (fun _ _ => rfl) (fun _ _ => trivial) (fun _ _ => rfl) [main_v23_0, main_v23_1] (V13_of m (outs m)) (by decide) (by decide)
    (fun c w h => by
      have hw : w = 2 ∨ w = 3 := by revert w; decide
      rcases hw with rfl | rfl
      exacts [(outs_13_0 m c).symm.trans (V13_at_main_v23_0 m c).symm, (outs_13_1 m c).symm.trans (V13_at_main_v23_1 m c).symm])

def reg7 : Pipeline.RegionSeg (pcfgs (F := F)) adm (pdats m) () defs₀ run𝒱 runL runLv 7 :=
  LibRegion.plain cfgs (pdats m) defs₀ 7 launch7 (V14 m (outs m)) (V15 m (outs m)) (fun c => body_obligation7 (fun c b => V14 m (outs m) c b) c)
    (fun _ _ => rfl) (fun _ _ => rfl) (fun _ _ => rfl) (fun _ _ => trivial) (fun _ _ => rfl) [main_v28] (V15_of m (outs m)) (by decide) (by decide)
    (fun c w h => by
      obtain rfl : w = 6 := by revert w; decide
      exact (outs_15 m c).symm.trans (V15_at_main_v28 m c).symm)

theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (EP := emb₁) (ι := ()) (𝒱₀ := run𝒱) (L := runL) (lv := runLv) (hL := run_hL) (ρ := ρ) (outs := outs m)
    (pdats := pdats m) (O₀ := runO) (G := runG) (u₀ := runU) (hu₀ := run_hu) (E := runE) (hE0 := run_hE0 ρ) (hE8 := run_hE8)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)

end Cert.Kernel.Hand

end
-- ==== Proof.KI.Reg0.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S6272x64 := Rect.unit (s := S6272x64) ![0, 0] S6272x64.size inb_S6272x64_S6272x64_0_0
abbrev r0_1 : Rect S64x64 := Rect.unit (s := S64x64) ![0, 0] S64x64.size inb_S64x64_S64x64_0_0

def out0_2 (x0 : Vec F S6272x64 .f32) (x1 : Vec F S64x64 .f32) : Vec F S6272x64 .bf16 :=
  View.canon [⟨r0_0, k0_pay1 (View.ld x0 r0_0) (View.ld x1 r0_1)⟩]

theorem cover0_2 (p0 : Vec F S6272x64 .bf16) (y : S6272x64.Idx) :
    ∃ pc ∈ ([⟨r0_0, p0⟩] : List (View.Piece (Elt F) S6272x64 .bf16)), y ∈ pc.1.set :=
  View.cover_of_tiled [⟨r0_0, p0⟩] S6272x64.size (by rfl) y

set_option maxHeartbeats 1000000 in
theorem sound_kernel0 (c : Dev nD) (E : Set ℕ) (i : grid0.Coords) (arg1 : Memref sig .tc .vmem S6272x64 .f32) (harg1 : arg1.IsWhole)
    (arg2 : Memref sig .tc .vmem S64x64 .f32) (harg2 : arg2.IsWhole) (arg3 : Memref sig .tc .vmem S6272x64 .bf16) (harg3 : arg3.IsWhole)
    (x0 : Vec F S6272x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 1250 = 0 :=
  (by decide +kernel : ∀ t : Fin grid1.N, cond1_0 (grid1.coords t) ↔ t.val % 1250 = 0)

abbrev VO1_3 : View sig .tc .vmem S50176x64 .f32 := (Memref.whole cc1_stg3_0 : Memref sig .tc .vmem S50176x64 .f32).view
abbrev ms1_0 (t : Fin cfg1.N) : Memref sig .tc .vmem S640x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x640 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S50176x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S50176x64 .f32 := win1_3.stage (cfg1.slots t 3)
abbrev hs1_3 (t : Fin cfg1.N) : (ms1_3 t).IsWhole := hstage1_3 ((cfg1.slots t 3).cast nbuf1_3)
abbrev msS1 : Memref sig .tc .vmem S640x64 .f32 := Memref.whole cc1_scratch0
abbrev hsS1 : (msS1).IsWhole := Memref.isWhole_whole _

section
variable (c : Dev nD) (i : grid1.Coords)
    (arg1 : Memref sig .tc .vmem S640x1 .i32) (harg1 : arg1.IsWhole) (arg2 : Memref sig .tc .vmem S1x640 .i32) (harg2 : arg2.IsWhole)
    (arg3 : Memref sig .tc .vmem S50176x64 .bf16) (harg3 : arg3.IsWhole) (arg4 : Memref sig .tc .vmem S50176x64 .f32) (harg4 : arg4.IsWhole)
    (arg5 : Memref sig .tc .vmem S640x64 .f32) (harg5 : arg5.IsWhole)

set_option maxHeartbeats 4000000 in
noncomputable def kernelRun1_A (hc0 : cond1_0 i)
    (x0 : Vec F S640x1 .i32) (x1 : Vec F S1x640 .i32) (x2 : Vec F S50176x64 .bf16) :
    { L3 : List (View.Piece (Elt F) S50176x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (∃ f5, arg5.view.loc (c : Thread nD τ) ↦[arg5.view.set]{fullShare} f5)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f5, arg5.view.loc (c : Thread nD τ) ↦[arg5.view.set]{fullShare} f5)) -∗ K ⟨⟩))
          ⊢ wp frame (wpE (defs₀ (F := F)) Variants.none c none) E (cc1__msgpass_kernel i arg1 harg1 arg2 harg2 arg3 harg3 arg4 harg4 arg5 harg5) K } := by
  refine ⟨?_, fun E K => ?run⟩
  case run =>
    simp only [cc1__msgpass_kernel_eq_skeleton]; unfold cc1__msgpass_kernel_skel
    unfold owns
    iintro ⟨⟨%f1, %hf1, H1⟩, ⟨%f2, %hf2, H2⟩, ⟨%f3, %hf3, H3⟩, ⟨%d4, %f4, -, H4⟩, ⟨%f5, H5⟩, Hk⟩
    obtain rfl := harg1.eq_unread hf1; obtain rfl := harg2.eq_unread hf2; obtain rfl := harg3.eq_unread hf3
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 4000000 in
noncomputable def kernelRun1_B (hc0 : ¬cond1_0 i)
    (x0 : Vec F S640x1 .i32) (x1 : Vec F S1x640 .i32) (x2 : Vec F S50176x64 .bf16) (xo3 : Vec F S50176x64 .f32) :
    { L3 : List (View.Piece (Elt F) S50176x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (∃ f5, arg5.view.loc (c : Thread nD τ) ↦[arg5.view.set]{fullShare} f5)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f5, arg5.view.loc (c : Thread nD τ) ↦[arg5.view.set]{fullShare} f5)) -∗ K ⟨⟩))
          ⊢ wp frame (wpE (defs₀ (F := F)) Variants.none c none) E (cc1__msgpass_kernel i arg1 harg1 arg2 harg2 arg3 harg3 arg4 harg4 arg5 harg5) K } := by
  refine ⟨?_, fun E K => ?run⟩
  case run =>
    simp only [cc1__msgpass_kernel_eq_skeleton]; unfold cc1__msgpass_kernel_skel
    unfold owns
    iintro ⟨⟨%f1, %hf1, H1⟩, ⟨%f2, %hf2, H2⟩, ⟨%f3, %hf3, H3⟩, ⟨%f4, %hf4, H4⟩, ⟨%f5, H5⟩, Hk⟩
    obtain rfl := harg1.eq_unread hf1; obtain rfl := harg2.eq_unread hf2; obtain rfl := harg3.eq_unread hf3; obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem cover1_A_3 (hc0 : cond1_0 i)
    (x0 : Vec F S640x1 .i32) (x1 : Vec F S1x640 .i32) (x2 : Vec F S50176x64 .bf16) (y : S50176x64.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S3584x64.size (by sl_kernel_rfl) y

def out1_A_3 (hc0 : cond1_0 i)
    (x0 : Vec F S640x1 .i32) (x1 : Vec F S1x640 .i32) (x2 : Vec F S50176x64 .bf16) : Vec F S50176x64 .f32 :=
  VO1_3.read (Elt F) (VO1_3.writes (Elt F) VO1_3.junk (kernelRun1_A c i arg1 harg1 arg2 harg2 arg3 harg3 arg4 harg4 arg5 harg5 hc0 x0 x1 x2).1)

theorem cover1_B_3 (hc0 : ¬cond1_0 i)
    (x0 : Vec F S640x1 .i32) (x1 : Vec F S1x640 .i32) (x2 : Vec F S50176x64 .bf16) (xo3 : Vec F S50176x64 .f32) (y : S50176x64.Idx) :
    ∃ pc ∈ (kernelRun1_B c i arg1 harg1 arg2 harg2 arg3 harg3 arg4 harg4 arg5 harg5 hc0 x0 x1 x2 xo3).1, y ∈ pc.1.set :=
  View.cover_of_tiledL (kernelRun1_B c i arg1 harg1 arg2 harg2 arg3 harg3 arg4 harg4 arg5 harg5 hc0 x0 x1 x2 xo3).1 S3584x64.size (by sl_kernel_rfl) y

def out1_B_3 (hc0 : ¬cond1_0 i)
    (x0 : Vec F S640x1 .i32) (x1 : Vec F S1x640 .i32) (x2 : Vec F S50176x64 .bf16) (xo3 : Vec F S50176x64 .f32) : Vec F S50176x64 .f32 :=
  VO1_3.read (Elt F) (VO1_3.writes (Elt F) VO1_3.junk (kernelRun1_B c i arg1 harg1 arg2 harg2 arg3 harg3 arg4 harg4 arg5 harg5 hc0 x0 x1 x2 xo3).1)

end

def outsAt1 (c : Dev nD) : (n : ℕ) → n < cfg1.N → Vec F S50176x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) msS1 hsS1 ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 1250 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) msS1 hsS1 ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) msS1 hsS1 (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 1250 = 0) :
    outsAt1 V c t.val t.isLt = out1_A_3 c (grid1.coords t) (ms1_0 t) (hs1_0 t) (ms1_1 t) (hs1_1 t) (ms1_2 t) (hs1_2 t) (ms1_3 t) (hs1_3 t) msS1 hsS1 ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 1250 = 0) :
    outsAt1 V c t.val t.isLt = out1_B_3 c (grid1.coords t) (ms1_0 t) (hs1_0 t) (ms1_1 t) (hs1_1 t) (ms1_2 t) (hs1_2 t) (ms1_3 t) (hs1_3 t) msS1 hsS1 (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3_B (c : Dev nD) (t : Fin cfg1.N) (h0 : ¬t.val % 1250 = 0) (d) :
    (dat1 V c).before 3 t d = (outsAt1 V c (t.val - 1) (Nat.lt_of_le_of_lt (Nat.sub_le _ _) t.isLt)) := by
  have hN : t.val < 1250 := lt_of_lt_of_eq t.isLt (show cfg1.N = 1250 from N_1)
  rw [Dat.before_out_kept _ 3 rfl t (by omega) (Bool.eq_false_iff.mpr fun h => by have := (flush1_3 _).mp h; dsimp only at this; omega)
    (fun _ => rfl) (fun _ _ => rfl)]
  dsimp only [dat1]

theorem scratch1_eq (c : Dev nD) :
    (iprop(∃ f : Buf (Elt F) ((c : Thread nD τ).loc cc1_scratch0), ((c : Thread nD τ).loc cc1_scratch0) ↦{fullShare} f) : sProp 𝕄)
      = iprop(∃ f5, (msS1).view.loc (c : Thread nD τ) ↦[(msS1).view.set]{fullShare} f5) := by
  rw [hsS1.set_eq_univ]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl]
  unfold Pipeline.ΦA
  rw [scopedRest1_split, scratch1_eq]
  have hN : t.val < 1250 := lt_of_lt_of_eq t.isLt (show cfg1.N = 1250 from N_1)
  by_cases h0 : t.val % 1250 = 0
  · rw [outsAt1_A V c t h0]
    unfold out1_A_3
    iintro ⟨⟨⟨HS, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · rw [outsAt1_B V c t h0]
    simp only [before1_3_B V c t h0]
    unfold out1_B_3
    iintro ⟨⟨⟨HS, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRow2 : Rect S6272x64 := Rect.unit (s := S6272x64) ![0, 0] S6272x64.size inb_S6272x64_S6272x64_0_0
abbrev rMat2 : Rect S64x192 := Rect.unit (s := S64x192) ![0, 0] S64x192.size inb_S64x192_S64x192_0_0
abbrev rBias2 : Rect S1x192 := Rect.unit (s := S1x192) ![0, 0] S1x192.size inb_S1x192_S1x192_0_0

def out2_6 (a h : Vec F S6272x64 .f32) (wi wh : Vec F S64x192 .f32) (bi bh : Vec F S1x192 .f32) : Vec F S6272x64 .f32 :=
  View.canon [⟨rRow2, k2_pay1 (View.ld a rRow2) (View.ld h rRow2) (View.ld wi rMat2) (View.ld wh rMat2) (View.ld bi rBias2) (View.ld bh rBias2) (View.ld h rRow2)⟩]

theorem cover2_6 (p0 : Vec F S6272x64 .f32) (y : S6272x64.Idx) :
    ∃ pc ∈ ([⟨rRow2, p0⟩] : List (View.Piece (Elt F) S6272x64 .f32)), y ∈ pc.1.set :=
  View.cover_of_tiled [⟨rRow2, p0⟩] S6272x64.size (by rfl) y

set_option maxHeartbeats 4000000 in
theorem sound_kernel2 (c : Dev nD) (E : Set ℕ) (i : grid2.Coords) (arg1 : Memref sig .tc .vmem S6272x64 .f32) (harg1 : arg1.IsWhole) (arg2 : Memref sig .tc .vmem S6272x64 .f32) (harg2 : arg2.IsWhole) (arg3 : Memref sig .tc .vmem S64x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S6272x64 .f32) (harg7 : arg7.IsWhole)
    (a h : Vec F S6272x64 .f32) (wi wh : Vec F S64x192 .f32) (bi bh : Vec F S1x192 .f32) (K : PUnit → sProp 𝕄) :
    iprop(owns (c : Thread nD τ) arg1 fullShare a ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d)
        ∗ (iprop(owns (c : Thread nD τ) arg1 fullShare a ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out2_6 a h wi wh bi bh)) -∗ K ⟨⟩))
      ⊢ wp frame (wpE (defs₀ (F := F)) Variants.none c none) E (cc2__gru_kernel i arg1 harg1 arg2 harg2 arg3 harg3 arg4 harg4 arg5 harg5 arg6 harg6 arg7 harg7) K := by
  simp only [cc2__gru_kernel_eq_skeleton]; unfold cc2__gru_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import proofs.«413690_j74569222193909_1_alg».proof.Proof.KI.Reg0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out0_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [show @cc3__linear_kernel F _ _ = @cc0__linear_kernel F _ _ from rfl]
  iapply (sound_kernel0 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import proofs.«413690_j74569222193909_1_alg».proof.Proof.KI.Reg1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev msS4 : Memref sig .tc .vmem S640x64 .f32 := Memref.whole cc4_scratch0
abbrev hsS4 : (msS4).IsWhole := Memref.isWhole_whole _

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev outA4 (c : Dev nD) (t : Fin cfg4.N) (h0 : t.val % 1250 = 0) : Vec F S50176x64 .f32 :=
  out1_A_3 c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ hsS4 ((hcond1_0 t).mpr h0) (iblk4 V c 0 t) (iblk4 V c 1 t) (iblk4 V c 2 t)

abbrev outB4 (c : Dev nD) (t : Fin cfg4.N) (h0 : ¬t.val % 1250 = 0) (prev : Vec F S50176x64 .f32) : Vec F S50176x64 .f32 :=
  out1_B_3 c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ hsS4 (fun h => h0 ((hcond1_0 t).mp h)) (iblk4 V c 0 t) (iblk4 V c 1 t) (iblk4 V c 2 t) prev

def outsAt4 (c : Dev nD) : (n : ℕ) → n < cfg4.N → Vec F S50176x64 .f32
  | 0, hn => outA4 V c ⟨0, hn⟩ (Nat.zero_mod _)
  | n + 1, hn =>
    if h0 : (n + 1) % 1250 = 0 then outA4 V c ⟨n + 1, hn⟩ h0
    else outB4 V c ⟨n + 1, hn⟩ h0 (outsAt4 c n (Nat.lt_of_succ_lt hn))

theorem outsAt4_A (c : Dev nD) (t : Fin cfg4.N) (h0 : t.val % 1250 = 0) : outsAt4 V c t.val t.isLt = outA4 V c t h0 := by
  obtain ⟨n, hn⟩ := t
  cases n with
  | zero => exact rfl
  | succ n => exact (dif_pos h0).trans rfl

theorem outsAt4_B (c : Dev nD) (t : Fin cfg4.N) (h0 : ¬t.val % 1250 = 0) :
    outsAt4 V c t.val t.isLt = outB4 V c t h0 (outsAt4 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t.val t.isLt
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t.val t.isLt := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3_B (c : Dev nD) (t : Fin cfg4.N) (h0 : ¬t.val % 1250 = 0) (d) :
    (dat4 V c).before 3 t d = (outsAt4 V c (t.val - 1) (Nat.lt_of_le_of_lt (Nat.sub_le _ _) t.isLt)) := by
  have hN : t.val < 1250 := lt_of_lt_of_eq t.isLt (show cfg4.N = 1250 from N_4)
  rw [Dat.before_out_kept _ 3 rfl t (by omega) (Bool.eq_false_iff.mpr fun h => by have := (flush4_3 _).mp h; dsimp only at this; omega)
    (fun _ => rfl) (fun _ _ => rfl)]
  dsimp only [dat4]

theorem scratch4_eq (c : Dev nD) :
    (iprop(∃ f : Buf (Elt F) ((c : Thread nD τ).loc cc4_scratch0), ((c : Thread nD τ).loc cc4_scratch0) ↦{fullShare} f) : sProp 𝕄)
      = iprop(∃ f5, (msS4).view.loc (c : Thread nD τ) ↦[(msS4).view.set]{fullShare} f5) := by
  rw [hsS4.set_eq_univ]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3,
    show (dat4 V c).Φ t.castSucc = Pipeline.ΦA spec4 c from rfl,
    show @cc4__msgpass_kernel F _ _ = @cc1__msgpass_kernel F _ _ from rfl]
  unfold Pipeline.ΦA
  rw [scopedRest4_split, scratch4_eq]
  by_cases h0 : t.val % 1250 = 0
  · rw [outsAt4_A V c t h0]
    unfold outA4 out1_A_3
    iintro ⟨⟨⟨HS, HR⟩, Hg⟩, Ho, ⟨%d0, H0⟩, ⟨%d1, H1⟩, ⟨%d2, H2⟩, ⟨%d3, H3⟩⟩
    iapply ((kernelRun1_A c (grid4.coords t) _ _ _ _ _ _ _ _ _ _ ((hcond1_0 t).mpr h0) (iblk4 V c 0 t) (iblk4 V c 1 t) (iblk4 V c 2 t)).2 Set.univ _)
    iframe H0 H1 H2 HS
    isplitl [H3]; · iexists _; iexact H3
    iintro ⟨H0, H1, H2, ⟨%e3, H3⟩, HS⟩
    iframe HS HR Hg Ho H0 H1 H2
    unfold owns; iexists _; isplitr
    swap; · iexact H3
    ipureintro; exact View.read_writes_of_cover _ _ _ _ _ (cover1_A_3 c _ _ _ _ _ _ _ _ _ _ _ _ _ _ _)
  · rw [outsAt4_B V c t h0]
    simp only [before4_3_B V c t h0]
    unfold outB4 out1_B_3
    iintro ⟨⟨⟨HS, HR⟩, Hg⟩, Ho, ⟨%d0, H0⟩, ⟨%d1, H1⟩, ⟨%d2, H2⟩, ⟨%d3, H3⟩⟩
    iapply ((kernelRun1_B c (grid4.coords t) _ _ _ _ _ _ _ _ _ _ (fun h => h0 ((hcond1_0 t).mp h)) (iblk4 V c 0 t) (iblk4 V c 1 t) (iblk4 V c 2 t) _).2 Set.univ _)
    iframe H0 H1 H2 H3 HS
    iintro ⟨H0, H1, H2, ⟨%e3, H3⟩, HS⟩
    iframe HS HR Hg Ho H0 H1 H2
    unfold owns; iexists _; isplitr
    swap; · iexact H3
    ipureintro; exact View.read_writes_of_cover _ _ _ _ _ (cover1_B_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rRow5 : Rect S6272x64 := Rect.unit (s := S6272x64) ![0, 0] S6272x64.size inb_S6272x64_S6272x64_0_0
abbrev rMat5 : Rect S64x192 := Rect.unit (s := S64x192) ![0, 0] S64x192.size inb_S64x192_S64x192_0_0
abbrev rBias5 : Rect S1x192 := Rect.unit (s := S1x192) ![0, 0] S1x192.size inb_S1x192_S1x192_0_0

def out5_6 (a h : Vec F S6272x64 .f32) (wi wh : Vec F S64x192 .f32) (bi bh : Vec F S1x192 .f32) : Vec F S6272x64 .f32 :=
  View.canon [⟨rRow5, k5_pay1 (k5_pay2 (View.ld a rRow5) (View.ld h rRow5) (View.ld wi rMat5) (View.ld wh rMat5) (View.ld bi rBias5) (View.ld bh rBias5) (View.ld h rRow5))⟩]

theorem cover5_6 (p0 : Vec F S6272x64 .f32) (y : S6272x64.Idx) :
    ∃ pc ∈ ([⟨rRow5, p0⟩] : List (View.Piece (Elt F) S6272x64 .f32)), y ∈ pc.1.set :=
  View.cover_of_tiled [⟨rRow5, p0⟩] S6272x64.size (by rfl) y

set_option maxHeartbeats 4000000 in
theorem sound_kernel5 (c : Dev nD) (E : Set ℕ) (i : grid5.Coords) (arg1 : Memref sig .tc .vmem S6272x64 .f32) (harg1 : arg1.IsWhole) (arg2 : Memref sig .tc .vmem S6272x64 .f32) (harg2 : arg2.IsWhole) (arg3 : Memref sig .tc .vmem S64x192 .f32) (harg3 : arg3.IsWhole) (arg4 : Memref sig .tc .vmem S64x192 .f32) (harg4 : arg4.IsWhole) (arg5 : Memref sig .tc .vmem S1x192 .f32) (harg5 : arg5.IsWhole) (arg6 : Memref sig .tc .vmem S1x192 .f32) (harg6 : arg6.IsWhole) (arg7 : Memref sig .tc .vmem S6272x64 .f32) (harg7 : arg7.IsWhole)
    (a h : Vec F S6272x64 .f32) (wi wh : Vec F S64x192 .f32) (bi bh : Vec F S1x192 .f32) (K : PUnit → sProp 𝕄) :
    iprop(owns (c : Thread nD τ) arg1 fullShare a ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d)
        ∗ (iprop(owns (c : Thread nD τ) arg1 fullShare a ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out5_6 a h wi wh bi bh)) -∗ K ⟨⟩))
      ⊢ wp frame (wpE (defs₀ (F := F)) Variants.none c none) E (cc5__gru_kernel i arg1 harg1 arg2 harg2 arg3 harg3 arg4 harg4 arg5 harg5 arg6 harg6 arg7 harg7) K := by
  simp only [cc5__gru_kernel_eq_skeleton]; unfold cc5__gru_kernel_skel
  simp only [k5_part1_eq_skeleton]; unfold k5_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 8 = 0 :=
  (by decide +kernel : ∀ t : Fin grid6.N, cond6_0 (grid6.coords t) ↔ t.val % 8 = 0)

abbrev VO6_2 : View sig .tc .vmem S128x64 .f32 := (Memref.whole cc6_stg2_0 : Memref sig .tc .vmem S128x64 .f32).view
abbrev VO6_3 : View sig .tc .vmem S128x1 .f32 := (Memref.whole cc6_stg3_0 : Memref sig .tc .vmem S128x1 .f32).view

abbrev ms6_0 (t : Fin cfg6.N) : Memref sig .tc .vmem S6272x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S6272x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x1 .f32 := win6_3.stage (cfg6.slots t 3)
abbrev hs6_3 (t : Fin cfg6.N) : (ms6_3 t).IsWhole := hstage6_3 ((cfg6.slots t 3).cast nbuf6_3)

section
variable (c : Dev nD) (i : grid6.Coords) (arg1 : Memref sig .tc .vmem S6272x64 .f32) (harg1 : arg1.IsWhole) (arg2 : Memref sig .tc .vmem S6272x1 .i32) (harg2 : arg2.IsWhole) (arg3 : Memref sig .tc .vmem S128x64 .f32) (harg3 : arg3.IsWhole) (arg4 : Memref sig .tc .vmem S128x1 .f32) (harg4 : arg4.IsWhole)

set_option maxHeartbeats 4000000 in
noncomputable def kernelRun6_A (hc0 : cond6_0 i)
    (x0 : Vec F S6272x64 .f32) (x1 : Vec F S6272x1 .i32) :
    Σ' (L2 : List (View.Piece (Elt F) S128x64 .f32)), { L3 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc6__pool_kernel i arg1 harg1 arg2 harg2 arg3 harg3 arg4 harg4) K } := by
  refine ⟨?_, ?_, fun E K => ?run⟩
  case run =>
    simp only [cc6__pool_kernel_eq_skeleton]; unfold cc6__pool_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

set_option maxHeartbeats 4000000 in
noncomputable def kernelRun6_B (hc0 : ¬cond6_0 i)
    (x0 : Vec F S6272x64 .f32) (x1 : Vec F S6272x1 .i32) (xo2 : Vec F S128x64 .f32) (xo3 : Vec F S128x1 .f32) :
    Σ' (L2 : List (View.Piece (Elt F) S128x64 .f32)), { L3 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc6__pool_kernel i arg1 harg1 arg2 harg2 arg3 harg3 arg4 harg4) K } := by
  refine ⟨?_, ?_, fun E K => ?run⟩
  case run =>
    simp only [cc6__pool_kernel_eq_skeleton]; unfold cc6__pool_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover6_A_2 (hc0 : cond6_0 i) (x0 : Vec F S6272x64 .f32) (x1 : Vec F S6272x1 .i32) (y : S128x64.Idx) :
    ∃ pc ∈ (kernelRun6_A c i arg1 harg1 arg2 harg2 arg3 harg3 arg4 harg4 hc0 x0 x1).1, y ∈ pc.1.set :=
  View.cover_of_tiledL (kernelRun6_A c i arg1 harg1 arg2 harg2 arg3 harg3 arg4 harg4 hc0 x0 x1).1 S128x64.size (by sl_kernel_rfl) y

def out6_A_2 (hc0 : cond6_0 i) (x0 : Vec F S6272x64 .f32) (x1 : Vec F S6272x1 .i32) : Vec F S128x64 .f32 :=
  VO6_2.read (Elt F) (VO6_2.writes (Elt F) VO6_2.junk (kernelRun6_A c i arg1 harg1 arg2 harg2 arg3 harg3 arg4 harg4 hc0 x0 x1).1)

theorem cover6_A_3 (hc0 : cond6_0 i) (x0 : Vec F S6272x64 .f32) (x1 : Vec F S6272x1 .i32) (y : S128x1.Idx) :
    ∃ pc ∈ (kernelRun6_A c i arg1 harg1 arg2 harg2 arg3 harg3 arg4 harg4 hc0 x0 x1).2.1, y ∈ pc.1.set :=
  View.cover_of_tiledL (kernelRun6_A c i arg1 harg1 arg2 harg2 arg3 harg3 arg4 harg4 hc0 x0 x1).2.1 S128x1.size (by sl_kernel_rfl) y

def out6_A_3 (hc0 : cond6_0 i) (x0 : Vec F S6272x64 .f32) (x1 : Vec F S6272x1 .i32) : Vec F S128x1 .f32 :=
  VO6_3.read (Elt F) (VO6_3.writes (Elt F) VO6_3.junk (kernelRun6_A c i arg1 harg1 arg2 harg2 arg3 harg3 arg4 harg4 hc0 x0 x1).2.1)

theorem cover6_B_2 (hc0 : ¬cond6_0 i) (x0 : Vec F S6272x64 .f32) (x1 : Vec F S6272x1 .i32) (xo2 : Vec F S128x64 .f32) (xo3 : Vec F S128x1 .f32) (y : S128x64.Idx) :
    ∃ pc ∈ (kernelRun6_B c i arg1 harg1 arg2 harg2 arg3 harg3 arg4 harg4 hc0 x0 x1 xo2 xo3).1, y ∈ pc.1.set :=
  View.cover_of_tiledL (kernelRun6_B c i arg1 harg1 arg2 harg2 arg3 harg3 arg4 harg4 hc0 x0 x1 xo2 xo3).1 S128x64.size (by sl_kernel_rfl) y

def out6_B_2 (hc0 : ¬cond6_0 i) (x0 : Vec F S6272x64 .f32) (x1 : Vec F S6272x1 .i32) (xo2 : Vec F S128x64 .f32) (xo3 : Vec F S128x1 .f32) : Vec F S128x64 .f32 :=
  VO6_2.read (Elt F) (VO6_2.writes (Elt F) VO6_2.junk (kernelRun6_B c i arg1 harg1 arg2 harg2 arg3 harg3 arg4 harg4 hc0 x0 x1 xo2 xo3).1)

theorem cover6_B_3 (hc0 : ¬cond6_0 i) (x0 : Vec F S6272x64 .f32) (x1 : Vec F S6272x1 .i32) (xo2 : Vec F S128x64 .f32) (xo3 : Vec F S128x1 .f32) (y : S128x1.Idx) :
    ∃ pc ∈ (kernelRun6_B c i arg1 harg1 arg2 harg2 arg3 harg3 arg4 harg4 hc0 x0 x1 xo2 xo3).2.1, y ∈ pc.1.set :=
  View.cover_of_tiledL (kernelRun6_B c i arg1 harg1 arg2 harg2 arg3 harg3 arg4 harg4 hc0 x0 x1 xo2 xo3).2.1 S128x1.size (by sl_kernel_rfl) y

def out6_B_3 (hc0 : ¬cond6_0 i) (x0 : Vec F S6272x64 .f32) (x1 : Vec F S6272x1 .i32) (xo2 : Vec F S128x64 .f32) (xo3 : Vec F S128x1 .f32) : Vec F S128x1 .f32 :=
  VO6_3.read (Elt F) (VO6_3.writes (Elt F) VO6_3.junk (kernelRun6_B c i arg1 harg1 arg2 harg2 arg3 harg3 arg4 harg4 hc0 x0 x1 xo2 xo3).2.1)

end

def outs6_A (c : Dev nD) (t : Fin cfg6.N) (h0 : t.val % 8 = 0) : Vec F S128x64 .f32 × Vec F S128x1 .f32 :=
  (out6_A_2 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t),
   out6_A_3 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t))

def outs6_B (c : Dev nD) (t : Fin cfg6.N) (h0 : ¬t.val % 8 = 0) (p : Vec F S128x64 .f32 × Vec F S128x1 .f32) :
    Vec F S128x64 .f32 × Vec F S128x1 .f32 :=
  (out6_B_2 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) p.1 p.2,
   out6_B_3 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) p.1 p.2)

def outsAt6 (c : Dev nD) : (n : ℕ) → n < cfg6.N → Vec F S128x64 .f32 × Vec F S128x1 .f32
  | 0, hn => outs6_A V c ⟨0, hn⟩ (Nat.zero_mod _)
  | n + 1, hn =>
    if h0 : (n + 1) % 8 = 0 then outs6_A V c ⟨n + 1, hn⟩ h0
    else outs6_B V c ⟨n + 1, hn⟩ h0 (outsAt6 c n (Nat.lt_of_succ_lt hn))

theorem outsAt6_A (c : Dev nD) (t : Fin cfg6.N) (h0 : t.val % 8 = 0) :
    outsAt6 V c t.val t.isLt = outs6_A V c t h0 := by
  obtain ⟨n, hn⟩ := t
  cases n with
  | zero => exact rfl
  | succ n => exact (dif_pos h0).trans rfl

theorem outsAt6_B (c : Dev nD) (t : Fin cfg6.N) (h0 : ¬t.val % 8 = 0) :
    outsAt6 V c t.val t.isLt = outs6_B V c t h0 (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2 := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem before6_2_B (c : Dev nD) (t : Fin cfg6.N) (h0 : ¬t.val % 8 = 0) (d) :
    (dat6 V c).before 2 t d = (outsAt6 V c (t.val - 1) (Nat.lt_of_le_of_lt (Nat.sub_le _ _) t.isLt)).1 := by
  have hN : t.val < 8 := lt_of_lt_of_eq t.isLt (show cfg6.N = 8 from N_6)
  rw [Dat.before_out_kept _ 2 rfl t (by omega) (Bool.eq_false_iff.mpr fun h => by have := (flush6_2 _).mp h; dsimp only at this; omega)
    (fun _ => rfl) (fun _ _ => rfl)]
  dsimp only [dat6]

theorem before6_3_B (c : Dev nD) (t : Fin cfg6.N) (h0 : ¬t.val % 8 = 0) (d) :
    (dat6 V c).before 3 t d = (outsAt6 V c (t.val - 1) (Nat.lt_of_le_of_lt (Nat.sub_le _ _) t.isLt)).2 := by
  have hN : t.val < 8 := lt_of_lt_of_eq t.isLt (show cfg6.N = 8 from N_6)
  rw [Dat.before_out_kept _ 3 rfl t (by omega) (Bool.eq_false_iff.mpr fun h => by have := (flush6_3 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2, after6_3]
  by_cases h0 : t.val % 8 = 0
  · rw [outsAt6_A V c t h0]
    unfold outs6_A out6_A_2 out6_A_3
    dsimp only
    iintro ⟨HΦ, Ho, ⟨%d0, H0⟩, ⟨%d1, H1⟩, ⟨%d2, H2⟩, ⟨%d3, H3⟩⟩
    iapply ((kernelRun6_A c (grid6.coords t) _ _ _ _ _ _ _ _ ((hcond6_0 t).mpr h0) (iblk6 V c 0 t) (iblk6 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_A_2 c _ _ _ _ _ _ _ _ _ _ _ _)
    unfold owns; iexists _; isplitr
    swap; · iexact H3
    ipureintro; exact View.read_writes_of_cover _ _ _ _ _ (cover6_A_3 c _ _ _ _ _ _ _ _ _ _ _ _)
  · rw [outsAt6_B V c t h0]
    simp only [before6_2_B V c t h0, before6_3_B V c t h0]
    unfold outs6_B out6_B_2 out6_B_3
    dsimp only
    iintro ⟨HΦ, Ho, ⟨%d0, H0⟩, ⟨%d1, H1⟩, ⟨%d2, H2⟩, ⟨%d3, H3⟩⟩
    iapply ((kernelRun6_B c (grid6.coords t) _ _ _ _ _ _ _ _ (fun h => h0 ((hcond6_0 t).mp h)) (iblk6 V c 0 t) (iblk6 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover6_B_2 c _ _ _ _ _ _ _ _ _ _ _ _ _ _)
    unfold owns; iexists _; isplitr
    swap; · iexact H3
    ipureintro; exact View.read_writes_of_cover _ _ _ _ _ (cover6_B_3 c _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«413690_j74569222193909_1_alg».proof.Proof.Gen.KernelIdeal.Launch
import proofs.«413690_j74569222193909_1_alg».proof.Proof.Gen.KernelIdeal.Skeleton
import proofs.«413690_j74569222193909_1_alg».proof.Proof.Gen.KernelIdeal.Points
import proofs.«413690_j74569222193909_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S128x64 := Rect.unit (s := S128x64) ![0, 0] S128x64.size inb_S128x64_S128x64_0_0
abbrev r7_1 : Rect S128x1 := Rect.unit (s := S128x1) ![0, 0] S128x1.size inb_S128x1_S128x1_0_0
abbrev r7_2 : Rect S64x32 := Rect.unit (s := S64x32) ![0, 0] S64x32.size inb_S64x32_S64x32_0_0
abbrev r7_3 : Rect S1x32 := Rect.unit (s := S1x32) ![0, 0] S1x32.size inb_S1x32_S1x32_0_0
abbrev r7_4 : Rect S32x6 := Rect.unit (s := S32x6) ![0, 0] S32x6.size inb_S32x6_S32x6_0_0
abbrev r7_5 : Rect S1x6 := Rect.unit (s := S1x6) ![0, 0] S1x6.size inb_S1x6_S1x6_0_0
abbrev r7_6 : Rect S128x6 := Rect.unit (s := S128x6) ![0, 0] S128x6.size inb_S128x6_S128x6_0_0

def out7_6 (x0 : Vec F S128x64 .f32) (x1 : Vec F S128x1 .f32) (x2 : Vec F S64x32 .f32) (x3 : Vec F S1x32 .f32)
    (x4 : Vec F S32x6 .f32) (x5 : Vec F S1x6 .f32) : Vec F S128x6 .f32 :=
  View.canon [⟨r7_6, k7_pay1 (View.ld x1 r7_1) (View.ld x0 r7_0) (View.ld x2 r7_2) (View.ld x3 r7_3) (View.ld x4 r7_4) (View.ld x5 r7_5)⟩]

theorem cover7_6 (p0 : Vec F S128x6 .f32) (y : S128x6.Idx) :
    ∃ pc ∈ ([⟨r7_6, p0⟩] : List (View.Piece (Elt F) S128x6 .f32)), y ∈ pc.1.set :=
  View.cover_of_tiled [⟨r7_6, p0⟩] S128x6.size (by rfl) y

set_option maxHeartbeats 1000000 in
theorem sound_kernel7 (c : Dev nD) (E : Set ℕ) (i : grid7.Coords)
    (arg1 : Memref sig .tc .vmem S128x64 .f32) (harg1 : arg1.IsWhole) (arg2 : Memref sig .tc .vmem S128x1 .f32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x6 .f32) (harg5 : arg5.IsWhole) (arg6 : Memref sig .tc .vmem S1x6 .f32) (harg6 : arg6.IsWhole)
    (arg7 : Memref sig .tc .vmem S128x6 .f32) (harg7 : arg7.IsWhole)
    (x0 : Vec F S128x64 .f32) (x1 : Vec F S128x1 .f32) (x2 : Vec F S64x32 .f32) (x3 : Vec F S1x32 .f32)
    (x4 : Vec F S32x6 .f32) (x5 : Vec F S1x6 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E
          (cc7__fc_kernel i arg1 harg1 arg2 harg2 arg3 harg3 arg4 harg4 arg5 harg5 arg6 harg6 arg7 harg7) K := by
  simp only [cc7__fc_kernel_eq_skeleton]; unfold cc7__fc_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d
theorem before7_5 (c : Dev nD) (t : Fin cfg7.N) (d) : (dat7 V c).before 5 t d = iblk7 V c 5 t :=
  (dat7 V c).before_in_eq_fetched 5 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _
    (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Run.lean ====
import proofs.«413690_j74569222193909_1_alg».proof.Proof.Gen.KernelIdeal.Regions
import proofs.«413690_j74569222193909_1_alg».proof.Proof.KI.Reg0
import proofs.«413690_j74569222193909_1_alg».proof.Proof.KI.Reg1
import proofs.«413690_j74569222193909_1_alg».proof.Proof.KI.Reg2
import proofs.«413690_j74569222193909_1_alg».proof.Proof.KI.Reg3
import proofs.«413690_j74569222193909_1_alg».proof.Proof.KI.Reg4
import proofs.«413690_j74569222193909_1_alg».proof.Proof.KI.Reg5
import proofs.«413690_j74569222193909_1_alg».proof.Proof.KI.Reg6
import proofs.«413690_j74569222193909_1_alg».proof.Proof.KI.Reg7
import proofs.«413690_j74569222193909_1_alg».proof.Proof.LibRegion
import Idealize.ShloMosaic.Lib.Pipeline.FrameBody
import Idealize.ShloMosaic.Lib.Pipeline.FrameSuffix
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def o6 (r : Ref sig .tc) (c : Dev nD) : Buf (Elt F) ((c : Thread nD τ).loc r) :=
  Pipeline.withArrays spec0 c (V5 m c) (fun w => (dat0 (fun c b => V5 m c b) c).arrAt w cfg0.N) (Proc.devRef .tc r)
def outs0 : Gen.Outs (F := F) := fun _ => o6 m

abbrev E1 (c : Dev nD) : Valuation τ sig (Elt F) := V6 m (outs0 m) c
def o7 (r : Ref sig .tc) (c : Dev nD) : Buf (Elt F) ((c : Thread nD τ).loc r) :=
  Pipeline.withArrays spec1 c (E1 m c) (fun w => (dat1 (fun c b => E1 m c b) c).arrAt w cfg1.N) (Proc.devRef .tc r)
def outs1 : Gen.Outs (F := F)
  | 6 => o6 m
  | _ => o7 m

abbrev E2 (c : Dev nD) : Valuation τ sig (Elt F) := V7 m (outs1 m) c
def o8 (r : Ref sig .tc) (c : Dev nD) : Buf (Elt F) ((c : Thread nD τ).loc r) :=
  Pipeline.withArrays spec2 c (E2 m c) (fun w => (dat2 (fun c b => E2 m c b) c).arrAt w cfg2.N) (Proc.devRef .tc r)
def outs2 : Gen.Outs (F := F)
  | 6 => o6 m
  | 7 => o7 m
  | _ => o8 m

abbrev E3 (c : Dev nD) : Valuation τ sig (Elt F) := V9 m (outs2 m) c
def o10 (r : Ref sig .tc) (c : Dev nD) : Buf (Elt F) ((c : Thread nD τ).loc r) :=
  Pipeline.withArrays spec3 c (E3 m c) (fun w => (dat3 (fun c b => E3 m c b) c).arrAt w cfg3.N) (Proc.devRef .tc r)
def outs3 : Gen.Outs (F := F)
  | 6 => o6 m
  | 7 => o7 m
  | 8 => o8 m
  | _ => o10 m

abbrev E4 (c : Dev nD) : Valuation τ sig (Elt F) := V10 m (outs3 m) c
def o11 (r : Ref sig .tc) (c : Dev nD) : Buf (Elt F) ((c : Thread nD τ).loc r) :=
  Pipeline.withArrays spec4 c (E4 m c) (fun w => (dat4 (fun c b => E4 m c b) c).arrAt w cfg4.N) (Proc.devRef .tc r)
def outs4 : Gen.Outs (F := F)
  | 6 => o6 m
  | 7 => o7 m
  | 8 => o8 m
  | 10 => o10 m
  | _ => o11 m

abbrev E5 (c : Dev nD) : Valuation τ sig (Elt F) := V11 m (outs4 m) c
def o12 (r : Ref sig .tc) (c : Dev nD) : Buf (Elt F) ((c : Thread nD τ).loc r) :=
  Pipeline.withArrays spec5 c (E5 m c) (fun w => (dat5 (fun c b => E5 m c b) c).arrAt w cfg5.N) (Proc.devRef .tc r)
def outs5 : Gen.Outs (F := F)
  | 6 => o6 m
  | 7 => o7 m
  | 8 => o8 m
  | 10 => o10 m
  | 11 => o11 m
  | _ => o12 m

abbrev E6 (c : Dev nD) : Valuation τ sig (Elt F) := V12 m (outs5 m) c
def o13 (r : Ref sig .tc) (c : Dev nD) : Buf (Elt F) ((c : Thread nD τ).loc r) :=
  Pipeline.withArrays spec6 c (E6 m c) (fun w => (dat6 (fun c b => E6 m c b) c).arrAt w cfg6.N) (Proc.devRef .tc r)
def outs6 : Gen.Outs (F := F)
  | 6 => o6 m
  | 7 => o7 m
  | 8 => o8 m
  | 10 => o10 m
  | 11 => o11 m
  | 12 => o12 m
  | _ => o13 m

abbrev E7 (c : Dev nD) : Valuation τ sig (Elt F) := V14 m (outs6 m) c
def o15 (r : Ref sig .tc) (c : Dev nD) : Buf (Elt F) ((c : Thread nD τ).loc r) :=
  Pipeline.withArrays spec7 c (E7 m c) (fun w => (dat7 (fun c b => E7 m c b) c).arrAt w cfg7.N) (Proc.devRef .tc r)
def outs : Gen.Outs (F := F)
  | 6 => o6 m
  | 7 => o7 m
  | 8 => o8 m
  | 10 => o10 m
  | 11 => o11 m
  | 12 => o12 m
  | 13 => o13 m
  | _ => o15 m

theorem outs_6 (c : Dev nD) : outs m 6 main_v15 c = (dat0 (fun c b => V5 m c b) c).arrAt 2 cfg0.N :=
  Pipeline.withArrays_arr spec0 launch0.win.arr_inj c (V5 m c) (fun w => (dat0 (fun c b => V5 m c b) c).arrAt w cfg0.N) 2
theorem outs_7 (c : Dev nD) : outs m 7 main_v16 c = (dat1 (fun c b => V6 m (outs m) c b) c).arrAt 3 cfg1.N :=
  Pipeline.withArrays_arr spec1 launch1.win.arr_inj c (E1 m c) (fun w => (dat1 (fun c b => E1 m c b) c).arrAt w cfg1.N) 3
theorem outs_8 (c : Dev nD) : outs m 8 main_v17 c = (dat2 (fun c b => V7 m (outs m) c b) c).arrAt 6 cfg2.N :=
  Pipeline.withArrays_arr spec2 launch2.win.arr_inj c (E2 m c) (fun w => (dat2 (fun c b => E2 m c b) c).arrAt w cfg2.N) 6
theorem outs_10 (c : Dev nD) : outs m 10 main_v20 c = (dat3 (fun c b => V9 m (outs m) c b) c).arrAt 2 cfg3.N :=
  Pipeline.withArrays_arr spec3 launch3.win.arr_inj c (E3 m c) (fun w => (dat3 (fun c b => E3 m c b) c).arrAt w cfg3.N) 2
theorem outs_11 (c : Dev nD) : outs m 11 main_v21 c = (dat4 (fun c b => V10 m (outs m) c b) c).arrAt 3 cfg4.N :=
  Pipeline.withArrays_arr spec4 launch4.win.arr_inj c (E4 m c) (fun w => (dat4 (fun c b => E4 m c b) c).arrAt w cfg4.N) 3
theorem outs_12 (c : Dev nD) : outs m 12 main_v22 c = (dat5 (fun c b => V11 m (outs m) c b) c).arrAt 6 cfg5.N :=
  Pipeline.withArrays_arr spec5 launch5.win.arr_inj c (E5 m c) (fun w => (dat5 (fun c b => E5 m c b) c).arrAt w cfg5.N) 6
theorem outs_13_0 (c : Dev nD) : outs m 13 main_v23_0 c = (dat6 (fun c b => V12 m (outs m) c b) c).arrAt 2 cfg6.N :=
  Pipeline.withArrays_arr spec6 launch6.win.arr_inj c (E6 m c) (fun w => (dat6 (fun c b => E6 m c b) c).arrAt w cfg6.N) 2
theorem outs_13_1 (c : Dev nD) : outs m 13 main_v23_1 c = (dat6 (fun c b => V12 m (outs m) c b) c).arrAt 3 cfg6.N :=
  Pipeline.withArrays_arr spec6 launch6.win.arr_inj c (E6 m c) (fun w => (dat6 (fun c b => E6 m c b) c).arrAt w cfg6.N) 3
theorem outs_15 (c : Dev nD) : outs m 15 main_v28 c = (dat7 (fun c b => V14 m (outs m) c b) c).arrAt 6 cfg7.N :=
  Pipeline.withArrays_arr spec7 launch7.win.arr_inj c (E7 m c) (fun w => (dat7 (fun c b => E7 m c b) c).arrAt w cfg7.N) 6

theorem V6_at_main_v15 (c : Dev nD) : V6 m (outs m) c main_v15 = outs m 6 main_v15 c := by
  simp only [V6, Function.update_self]

theorem V7_at_main_v16 (c : Dev nD) : V7 m (outs m) c main_v16 = outs m 7 main_v16 c := by
  simp only [V7, Function.update_self]

theorem V8_at_main_v17 (c : Dev nD) : V8 m (outs m) c main_v17 = outs m 8 main_v17 c := by
  simp only [V8, Function.update_self]

theorem V10_at_main_v20 (c : Dev nD) : V10 m (outs m) c main_v20 = outs m 10 main_v20 c := by
  simp only [V10, Function.update_self]

theorem V11_at_main_v21 (c : Dev nD) : V11 m (outs m) c main_v21 = outs m 11 main_v21 c := by
  simp only [V11, Function.update_self]

theorem V12_at_main_v22 (c : Dev nD) : V12 m (outs m) c main_v22 = outs m 12 main_v22 c := by
  simp only [V12, Function.update_self]

theorem V13_at_main_v23_0 (c : Dev nD) : V13 m (outs m) c main_v23_0 = outs m 13 main_v23_0 c := by
  simp only [V13, Function.update_of_ne (StableHlo.devRef_ne_of_ne (by decide) : (Proc.devRef .tc main_v23_0 : DevRef τ sig) ≠ Proc.devRef .tc main_v23_1), Function.update_self]
theorem V13_at_main_v23_1 (c : Dev nD) : V13 m (outs m) c main_v23_1 = outs m 13 main_v23_1 c := by
  simp only [V13, Function.update_self]

theorem V15_at_main_v28 (c : Dev nD) : V15 m (outs m) c main_v28 = outs m 15 main_v28 c := by
  simp only [V15, Function.update_self]

def pdats : (p : Fin 8) → (c : Dev nD) → Dat τ (Elt F) Unit ℕ (UR sig nD τ) ℕ (cfgs p) c
  | ⟨0, _⟩ => fun c => dat0 (fun c b => V5 m c b) c
  | ⟨1, _⟩ => fun c => dat1 (fun c b => V6 m (outs m) c b) c
  | ⟨2, _⟩ => fun c => dat2 (fun c b => V7 m (outs m) c b) c
  | ⟨3, _⟩ => fun c => dat3 (fun c b => V9 m (outs m) c b) c
  | ⟨4, _⟩ => fun c => dat4 (fun c b => V10 m (outs m) c b) c
  | ⟨5, _⟩ => fun c => dat5 (fun c b => V11 m (outs m) c b) c
  | ⟨6, _⟩ => fun c => dat6 (fun c b => V12 m (outs m) c b) c
  | ⟨7, _⟩ => fun c => dat7 (fun c b => V14 m (outs m) c b) c
abbrev run𝒱 : Variants := Variants.none
abbrev runL : GSem nD τ sig → Finset Unit := fun _ => ∅
abbrev runLv : GSem nD τ sig → Unit → ℕ := fun _ _ => 0
theorem run_hL : ∀ g : GSem nD τ sig, g.1.2 ≠ .tc → runL g = ∅ := fun _ _ => rfl
abbrev runR (c : Dev nD) : sProp 𝕄 := iprop((∃ r, prngReg c r) ∗ ∃ W, owes (c : Thread nD τ) (0 : CellTallies nD τ sig Unit) W)
abbrev runE : Fin 9 → Dev nD → sProp 𝕄 := fun _ c => runR c
abbrev runO : Dev nD → CellTallies nD τ sig Unit := 0
abbrev runG : Dev nD → sProp 𝕄 := fun _ => iprop(emp)
abbrev runU : UR sig nD τ := initOf (Pipeline.cells cfgs cellOf_inj) (Pipeline.launchToks cfgs cellOf_inj)

theorem run_hu : (ownU runU : sProp 𝕄)
    ⊢ |={Set.univ}=> iprop(BI.own (emb₁ (initOf (Pipeline.cells cfgs cellOf_inj) (Pipeline.launchToks cfgs cellOf_inj))) ∗ bigSep Finset.univ (runG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem run_hE0 (ρ : Dev nD → PrngReg) :
    iprop((bigSep Finset.univ fun c : Dev nD => iprop(unscopedSems0 c ∗ owes (c : Thread nD τ) (runO c) ∅ ∗ Pipeline.launchCred runO c ∗ prngReg c (ρ c) ∗ runG (F := F) c)) ∗ levAts runL runLv)
      ⊢ (|={Set.univ}=> bigSep Finset.univ (runE (F := F) 0) : sProp 𝕄) := by
  refine Pipeline.initEach runL runLv fun c => ?_
  iintro ⟨⟨-, HO, -, Hp, -⟩, -⟩
  imodintro
  isplitl [Hp]; · iexists _; iexact Hp
  iexists ∅; iexact HO

theorem run_hE8 (c : Dev nD) : runE (F := F) 8 c ⊢ (iprop(∃ W, owes (c : Thread nD τ) (0 : CellTallies nD τ sig Unit) W) : sProp 𝕄) := by
  iintro ⟨-, HO⟩; iexact HO

def reg0 : Pipeline.RegionSeg (pcfgs (F := F)) adm (pdats m) () defs₀ run𝒱 runL runLv 0 :=
  LibRegion.plain cfgs (pdats m) defs₀ 0 launch0 (V5 m) (V6 m (outs m)) (fun c => body_obligation0 (fun c b => V5 m c b) c)
    (fun _ _ => rfl) (fun _ _ => rfl) (fun _ _ => rfl) (fun _ _ => trivial) (fun _ _ => rfl) [main_v15] (V6_of m (outs m)) (by decide) (by decide)
    (fun c w h => by
      obtain rfl : w = 2 := by revert w; decide
      exact (outs_6 m c).symm.trans (V6_at_main_v15 m c).symm)

def reg1 : Pipeline.RegionSeg (pcfgs (F := F)) adm (pdats m) () defs₀ run𝒱 runL runLv 1 :=
  LibRegion.plain cfgs (pdats m) defs₀ 1 launch1 (V6 m (outs m)) (V7 m (outs m)) (fun c => body_obligation1 (fun c b => V6 m (outs m) c b) c)
    (fun _ _ => rfl) (fun _ _ => rfl) (fun _ _ => rfl) (fun _ _ => trivial) (fun _ _ => rfl) [main_v16] (V7_of m (outs m)) (by decide) (by decide)
    (fun c w h => by
      obtain rfl : w = 3 := by revert w; decide
      exact (outs_7 m c).symm.trans (V7_at_main_v16 m c).symm)

def reg2 : Pipeline.RegionSeg (pcfgs (F := F)) adm (pdats m) () defs₀ run𝒱 runL runLv 2 :=
  LibRegion.plain cfgs (pdats m) defs₀ 2 launch2 (V7 m (outs m)) (V8 m (outs m)) (fun c => body_obligation2 (fun c b => V7 m (outs m) c b) c)
    (fun _ _ => rfl) (fun _ _ => rfl) (fun _ _ => rfl) (fun _ _ => trivial) (fun _ _ => rfl) [main_v17] (V8_of m (outs m)) (by decide) (by decide)
    (fun c w h => by
      obtain rfl : w = 6 := by revert w; decide
      exact (outs_8 m c).symm.trans (V8_at_main_v17 m c).symm)

def reg3 : Pipeline.RegionSeg (pcfgs (F := F)) adm (pdats m) () defs₀ run𝒱 runL runLv 3 :=
  LibRegion.plain cfgs (pdats m) defs₀ 3 launch3 (V9 m (outs m)) (V10 m (outs m)) (fun c => body_obligation3 (fun c b => V9 m (outs m) c b) c)
    (fun _ _ => rfl) (fun _ _ => rfl) (fun _ _ => rfl) (fun _ _ => trivial) (fun _ _ => rfl) [main_v20] (V10_of m (outs m)) (by decide) (by decide)
    (fun c w h => by
      obtain rfl : w = 2 := by revert w; decide
      exact (outs_10 m c).symm.trans (V10_at_main_v20 m c).symm)

def reg4 : Pipeline.RegionSeg (pcfgs (F := F)) adm (pdats m) () defs₀ run𝒱 runL runLv 4 :=
  LibRegion.plain cfgs (pdats m) defs₀ 4 launch4 (V10 m (outs m)) (V11 m (outs m)) (fun c => body_obligation4 (fun c b => V10 m (outs m) c b) c)
    (fun _ _ => rfl) (fun _ _ => rfl) (fun _ _ => rfl) (fun _ _ => trivial) (fun _ _ => rfl) [main_v21] (V11_of m (outs m)) (by decide) (by decide)
    (fun c w h => by
      obtain rfl : w = 3 := by revert w; decide
      exact (outs_11 m c).symm.trans (V11_at_main_v21 m c).symm)

def reg5 : Pipeline.RegionSeg (pcfgs (F := F)) adm (pdats m) () defs₀ run𝒱 runL runLv 5 :=
  LibRegion.plain cfgs (pdats m) defs₀ 5 launch5 (V11 m (outs m)) (V12 m (outs m)) (fun c => body_obligation5 (fun c b => V11 m (outs m) c b) c)
    (fun _ _ => rfl) (fun _ _ => rfl) (fun _ _ => rfl) (fun _ _ => trivial) (fun _ _ => rfl) [main_v22] (V12_of m (outs m)) (by decide) (by decide)
    (fun c w h => by
      obtain rfl : w = 6 := by revert w; decide
      exact (outs_12 m c).symm.trans (V12_at_main_v22 m c).symm)

def reg6 : Pipeline.RegionSeg (pcfgs (F := F)) adm (pdats m) () defs₀ run𝒱 runL runLv 6 :=
  LibRegion.plain cfgs (pdats m) defs₀ 6 launch6 (V12 m (outs m)) (V13 m (outs m)) (fun c => body_obligation6 (fun c b => V12 m (outs m) c b) c)
    (fun _ _ => rfl) (fun _ _ => rfl) (fun _ _ => rfl) (fun _ _ => trivial) (fun _ _ => rfl) [main_v23_0, main_v23_1] (V13_of m (outs m)) (by decide) (by decide)
    (fun c w h => by
      have hw : w = 2 ∨ w = 3 := by revert w; decide
      rcases hw with rfl | rfl
      exacts [(outs_13_0 m c).symm.trans (V13_at_main_v23_0 m c).symm, (outs_13_1 m c).symm.trans (V13_at_main_v23_1 m c).symm])

def reg7 : Pipeline.RegionSeg (pcfgs (F := F)) adm (pdats m) () defs₀ run𝒱 runL runLv 7 :=
  LibRegion.plain cfgs (pdats m) defs₀ 7 launch7 (V14 m (outs m)) (V15 m (outs m)) (fun c => body_obligation7 (fun c b => V14 m (outs m) c b) c)
    (fun _ _ => rfl) (fun _ _ => rfl) (fun _ _ => rfl) (fun _ _ => trivial) (fun _ _ => rfl) [main_v28] (V15_of m (outs m)) (by decide) (by decide)
    (fun c w h => by
      obtain rfl : w = 6 := by revert w; decide
      exact (outs_15 m c).symm.trans (V15_at_main_v28 m c).symm)

theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (EP := emb₁) (ι := ()) (𝒱₀ := run𝒱) (L := runL) (lv := runLv) (hL := run_hL) (ρ := ρ) (outs := outs m)
    (pdats := pdats m) (O₀ := runO) (G := runG) (u₀ := runU) (hu₀ := run_hu) (E := runE) (hE0 := run_hE0 ρ) (hE8 := run_hE8)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)

end Cert.KernelIdeal.Hand

end
-- ==== Proof.KI.RunVal.lean ====
import proofs.«413690_j74569222193909_1_alg».proof.Proof.KI.Run
import proofs.«413690_j74569222193909_1_alg».proof.Proof.KI.RunV

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem value_run (ρ : Dev nD → PrngReg) :
    θ_run defs (onTc (τ := τ) (main (F := F))) ⟨m, fun _ => 0, ρ⟩ (fun r => ∀ c : Dev nD,
      r.2.mem ((c.tc : Thread nD τ).loc main_v28) = (dat7 (fun c b => V14 m (outs m) c b) c).arrAt 6 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs (onTc (τ := τ) (main (F := F))) ⟨m, fun _ => 0, ρ⟩).mono ?_
    (Gen.run_cond m (EP := emb₁) (ι := ()) (𝒱₀ := run𝒱) (L := runL) (lv := runLv) (hL := run_hL) (ρ := ρ) (outs := outs m)
      (pdats := pdats m) (O₀ := runO) (G := runG) (u₀ := runU) (hu₀ := run_hu) (E := runE) (hE0 := run_hE0 ρ) (hE8 := run_hE8)
      (R0 := reg0 m) (hpre0 := fun _ => .rfl) (hpost0 := fun _ => .rfl)
      (R1 := reg1 m) (hpre1 := fun _ => .rfl) (hpost1 := fun _ => .rfl)
      (R2 := reg2 m) (hpre2 := fun _ => .rfl) (hpost2 := fun _ => .rfl)
      (R3 := reg3 m) (hpre3 := fun _ => .rfl) (hpost3 := fun _ => .rfl)
      (R4 := reg4 m) (hpre4 := fun _ => .rfl) (hpost4 := fun _ => .rfl)
      (R5 := reg5 m) (hpre5 := fun _ => .rfl) (hpost5 := fun _ => .rfl)
      (R6 := reg6 m) (hpre6 := fun _ => .rfl) (hpost6 := fun _ => .rfl)
      (R7 := reg7 m) (hpre7 := fun _ => .rfl) (hpost7 := fun _ => .rfl))
  intro r h c
  exact ⟨(h c).1.trans ((V15_at_main_v28 m c).trans (outs_15 m c)), (h c).2⟩

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : ℕ) := Fin a → Fin b → EReal

def mat {a b : ℕ} {α : Type} (f : (⟨2, ![a, b]⟩ : Shape).Idx → α) : Fin a → Fin b → α := fun p q => f (ix2 p q)
def col0 {a : ℕ} {α : Type} (f : (⟨2, ![a, 1]⟩ : Shape).Idx → α) : Fin a → α := fun p => f (ix2 p 0)
def row0 {b : ℕ} {α : Type} (f : (⟨2, ![1, b]⟩ : Shape).Idx → α) : Fin b → α := fun q => f (ix2 0 q)

def hot (a b : BitVec 32) : EReal := if a = b then 1 else 0

def one : EReal := Ideal.ofBits .f32 0x3F800000#32
def zero : EReal := Ideal.ofBits .f32 0x00000000#32
def ninf : EReal := Ideal.ofBits .f32 0xFF800000#32
def oneN : EReal := Ideal.ofBits .bf16 0x3F80#16

def mm {n k p : ℕ} (a : Mat n k) (b : Mat k p) : Mat n p := fun i j => ∑ l : Fin k, a i l * b l j

def gath {E N D : ℕ} (src : Fin E → BitVec 32) (m : Mat N D) : Mat E D :=
  fun e q => ∑ n : Fin N, hot (src e) (BitVec.ofNat 32 n.val) * m n q

def scat {E N D : ℕ} (dst : Fin E → BitVec 32) (msg : Mat E D) : Mat N D :=
  fun n q => ∑ e : Fin E, hot (BitVec.ofNat 32 n.val) (dst e) * msg e q

def msgp {E N D : ℕ} (src dst : Fin E → BitVec 32) (m : Mat N D) : Mat N D := scat dst (gath src m)

def gate {n : ℕ} (a : Mat n 64) (w : Mat 64 192) (b : Fin 192 → EReal) : Mat n 192 := fun i j => mm a w i j + b j

def third (o : ℕ) (ho : o + 64 ≤ 192) (q : Fin 64) : Fin 192 := ⟨o + q.val, by omega⟩

def gruCell (gi gh : Fin 192 → EReal) (hq : EReal) (q : Fin 64) : EReal :=
  let r := Ideal.logistic (gi (third 0 (by omega) q) + gh (third 0 (by omega) q))
  let z := Ideal.logistic (gi (third 64 (by omega) q) + gh (third 64 (by omega) q))
  let nn := Ideal.tanh (gi (third 128 (by omega) q) + r * gh (third 128 (by omega) q))
  (one - z) * nn + z * hq

def gru {n : ℕ} (agg h : Mat n 64) (wih whh : Mat 64 192) (bih bhh : Fin 192 → EReal) : Mat n 64 :=
  fun i q => gruCell (gate agg wih bih i) (gate h whh bhh i) (h i q) q

def gruRelu {n : ℕ} (agg h : Mat n 64) (wih whh : Mat 64 192) (bih bhh : Fin 192 → EReal) : Mat n 64 :=
  fun i q => max (gru agg h wih whh bih bhh i q) zero

def poolSum {N : ℕ} (batch : Fin N → BitVec 32) (h : Mat N 64) : Mat 128 64 :=
  fun g q => ∑ i : Fin N, hot (batch i) (BitVec.ofNat 32 g.val) * h i q

def poolCnt {N : ℕ} (batch : Fin N → BitVec 32) : Fin 128 → EReal :=
  fun g => ∑ i : Fin N, hot (batch i) (BitVec.ofNat 32 g.val) * oneN

def rowMax (v : Fin 6 → EReal) : EReal := Finset.univ.sup v

def head (sums : Mat 128 64) (cnt : Fin 128 → EReal) (w1 : Mat 64 32) (b1 : Fin 32 → EReal) (w2 : Mat 32 6) (b2 : Fin 6 → EReal) :
    Mat 128 6 :=
  let pooled : Mat 128 64 := fun g q => Ideal.div (sums g q) (max (cnt g) one)
  let h1 : Mat 128 32 := fun g j => max (mm pooled w1 g j + b1 j) zero
  let lg : Mat 128 6 := fun g j => mm h1 w2 g j + b2 j
  let sh : Mat 128 6 := fun g j => lg g j - rowMax (lg g)
  fun g j => sh g j - Ideal.log (∑ l : Fin 6, Ideal.exp (sh g l))

def net {N E : ℕ} (h0 : Mat N 64) (src dst : Fin E → BitVec 32) (batch : Fin N → BitVec 32) (W0 W1 : Mat 64 64)
    (wih whh : Mat 64 192) (bih bhh : Fin 192 → EReal) (w1 : Mat 64 32) (b1 : Fin 32 → EReal) (w2 : Mat 32 6) (b2 : Fin 6 → EReal) :
    Mat 128 6 :=
  let h1 : Mat N 64 := gru (msgp src dst (mm h0 W0)) h0 wih whh bih bhh
  let h2 : Mat N 64 := gruRelu (msgp src dst (mm h1 W1)) h1 wih whh bih bhh
  head (poolSum batch h2) (poolCnt batch) w1 b1 w2 b2

end Cert.Spec

end
-- ==== Proof.KI.Val0.lean ====
import proofs.«413690_j74569222193909_1_alg».proof.Proof.KI.Reg0
import proofs.«413690_j74569222193909_1_alg».proof.Proof.Spec
import Idealize.ShloMosaic.Lib.StackMember

noncomputable section

namespace Cert.KernelIdeal.Hand

open Cert.KernelIdeal Cert.KernelIdeal.Gen Idealize.ShloMosaic Idealize.ShloMosaic.TcCoe Idealize.ShloMosaic.ValueIdx
open scoped BigOperators

theorem pay_apply0 (x0 : Vec Ideal S6272x64 .f32) (x1 : Vec Ideal S64x64 .f32) (p : Fin 6272) (q : Fin 64) :
    k0_pay1 (F := Ideal) x0 x1 (ix2 p q) = ∑ k : Fin 64, x0 (ix2 p k) * x1 (ix2 k q) := by
  unfold k0_pay1
  simp only [shapeCast_self]
  exact (congrFun (matmul_zero_eq_dotGeneral _ _ _ _) _).trans (StackMember.dotGeneral_plain_apply none _ _ p q)

theorem off_zero0 : (![0, 0] : Fin 2 → ℕ) = fun _ => 0 := funext fun a => by fin_cases a <;> rfl

def mmArr0 (a : S50176x64.Idx → EReal) (w : S64x64.Idx → EReal) : S50176x64.Idx → EReal :=
  fun i => ∑ k : Fin 64, a (ix2 (i 0) k) * w (ix2 k (i 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_2_eq (a : S50176x64.Idx → EReal) (w : S64x64.Idx → EReal) (t : Fin cfg0.N) :
    (cfg0.win 2).cut (grid0.coords t) (out0_2 (F := Ideal) (((cfg0.win 0).blk t).view.read (Elt Ideal) a) (((cfg0.win 1).blk t).view.read (Elt Ideal) w))
      = ((cfg0.win 2).blk t).view.read (Elt Ideal) (mmArr0 a w) := by
  unfold out0_2
  rw [View.canon_unit_zero off_zero0]
  simp only [View.ld_unit_zero (S := S6272x64) off_zero0, View.ld_unit_zero (S := S64x64) off_zero0]
  obtain ⟨e00, e01, e10, e11, e20, e21⟩ := idx_facts0 t
  funext j
  obtain ⟨p, q, rfl⟩ : ∃ (p : Fin 6272) (q : Fin 64), j = ix2 p q := ⟨j 0, j 1, eq_ix2 j⟩
  show k0_pay1 (F := Ideal) (((cfg0.win 0).blk t).view.read (Elt Ideal) a) (((cfg0.win 1).blk t).view.read (Elt Ideal) w) (ix2 p q) = mmArr0 a w (((cfg0.win 2).blk t).view.emb (ix2 p q))
  rw [pay_apply0]
  refine Finset.sum_congr rfl fun k _ => ?_
  have h0 : ((cfg0.win 0).blk t).view.emb (ix2 p k) = ix2 ((((cfg0.win 2).blk t).view.emb (ix2 p q)) 0) k :=
    Shape.idx_ext₂ (show win0_0.index t (0 : Fin 2) * 6272 + 1 * p.val = win0_2.index t (0 : Fin 2) * 6272 + 1 * p.val by omega)
      (show win0_0.index t (1 : Fin 2) * 64 + 1 * k.val = k.val by omega)
  have h1 : ((cfg0.win 1).blk t).view.emb (ix2 k q) = ix2 k ((((cfg0.win 2).blk t).view.emb (ix2 p q)) 1) :=
    Shape.idx_ext₂ (show win0_1.index t (0 : Fin 2) * 64 + 1 * k.val = k.val by omega)
      (show win0_1.index t (1 : Fin 2) * 64 + 1 * q.val = win0_2.index t (1 : Fin 2) * 64 + 1 * q.val by omega)
  exact congrArg₂ (fun i0 i1 => a i0 * w i1) h0 h1

theorem cover_arr0_2 (i : S50176x64.Idx) : ∃ t : Fin cfg0.N, (cfg0.win 2).flush t = true ∧ i ∈ ((cfg0.win 2).blk t).view.set := by
  have hi : (i 0).val < 50176 := (i 0).isLt
  have hN : cfg0.N = 8 := N_0
  obtain ⟨t, ht⟩ : ∃ t : Fin cfg0.N, t.val = (i 0).val / 6272 := ⟨⟨(i 0).val / 6272, by rw [hN]; omega⟩, rfl⟩
  obtain ⟨-, -, -, -, e20, e21⟩ := idx_facts0 t
  have h : ((cfg0.win 2).blk t).view.emb (ix2 ⟨(i 0).val % 6272, Nat.mod_lt _ (by decide)⟩ (i 1)) = i :=
    Shape.idx_ext₂ (show win0_2.index t (0 : Fin 2) * 6272 + 1 * ((i 0).val % 6272) = (i 0).val by omega)
      (show win0_2.index t (1 : Fin 2) * 64 + 1 * (i 1).val = (i 1).val by omega)
  exact ⟨t, flush0_2 t, h ▸ View.emb_mem_set _ _⟩

variable (V : (c : Dev nD) → (b : Ref sig .tc) → Buf (Elt Ideal) ((c : Thread nD τ).loc b))

theorem final0_2 (c : Dev nD) : (dat0 V c).arrAt 2 cfg0.N = mmArr0 (V c main_v0) (V c main_v14) :=
  (dat0 V c).arrAt_eq_of_cover 2 _ (fun t _ => by
    show (cfg0.win 2).cut (grid0.coords t) ((dat0 V c).after 2 t) = _
    rw [after0_2]
    exact flushed0_2_eq (V c main_v0) (V c main_v14) t) cover_arr0_2

theorem val0 (c : Dev nD) :
    Cert.Spec.mat ((dat0 V c).arrAt 2 cfg0.N) = Cert.Spec.mm (Cert.Spec.mat (V c main_v0)) (Cert.Spec.mat (V c main_v14)) :=
  congrArg Cert.Spec.mat (final0_2 V c)

end Cert.KernelIdeal.Hand

end
-- ==== Proof.KI.Val1Pay.lean ====
import proofs.«413690_j74569222193909_1_alg».proof.Proof.Gen.KernelIdeal.Skeleton
import proofs.«413690_j74569222193909_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

theorem hot_cmp1 (a b : BitVec 32) :
    FloatOps.sitofp (F := Ideal) .f32 ((IntOp.cmpi .eq a b).setWidth 32) = Cert.Spec.hot a b := by
  unfold Cert.Spec.hot
  have e1 : ((1#32 : BitVec 32).toInt : ℝ) = 1 := by norm_num [show (1#32 : BitVec 32).toInt = 1 from by decide]
  have e0 : ((0#32 : BitVec 32).toInt : ℝ) = 0 := by norm_num [show (0#32 : BitVec 32).toInt = 0 from by decide]
  by_cases h : a = b
  · subst h
    rw [if_pos rfl, show (IntOp.cmpi .eq a a).setWidth 32 = 1#32 from by simp [IntOp.cmpi]]
    show (((1#32 : BitVec 32).toInt : ℝ) : EReal) = 1
    rw [e1]; rfl
  · rw [if_neg h, show (IntOp.cmpi .eq a b).setWidth 32 = 0#32 from by simp [IntOp.cmpi, (beq_eq_false_iff_ne.mpr h : (a == b) = false)]]
    show (((0#32 : BitVec 32).toInt : ℝ) : EReal) = 0
    rw [e0]; rfl

theorem node_word1_t1 : ∀ k : Fin k1_t1_loop.trips,
    Scalar.muli (Scalar.addi 0#32 (Scalar.muli (Scf.iv 0#32 1#32 k) 1#32)) 3584#32 = BitVec.ofNat 32 (3584 * k.val) := by
  decide +kernel
theorem node_word1_t2 : ∀ k : Fin k1_t2_loop.trips,
    Scalar.muli (Scalar.addi 0#32 (Scalar.muli (Scf.iv 0#32 1#32 k) 1#32)) 3584#32 = BitVec.ofNat 32 (3584 * k.val) := by
  decide +kernel

theorem lhs1a_0 (j : S640x64.Idx) (k : dot_S640x3584_S3584x64_S640x64_1_0_0_1_n_n.contr.Idx) : (dot_S640x3584_S3584x64_S640x64_1_0_0_1_n_n.lhsIdx j k 0).val = (j 0).val := by
  unfold DotDims.lhsIdx
  rw [dif_neg (show ¬(0 : Fin S640x3584.rank) ∈ dot_S640x3584_S3584x64_S640x64_1_0_0_1_n_n.lhsBatch by decide), dif_pos (show (0 : Fin S640x3584.rank) ∈ dot_S640x3584_S3584x64_S640x64_1_0_0_1_n_n.lhsNonContracting by decide)]
  rfl
theorem lhs1a_1 (j : S640x64.Idx) (k : dot_S640x3584_S3584x64_S640x64_1_0_0_1_n_n.contr.Idx) : (dot_S640x3584_S3584x64_S640x64_1_0_0_1_n_n.lhsIdx j k 1).val = (k ⟨0, by decide⟩).val :=
  dot_S640x3584_S3584x64_S640x64_1_0_0_1_n_n.lhsIdx_val_of_single rfl j k
theorem rhs1a_0 (j : S640x64.Idx) (k : dot_S640x3584_S3584x64_S640x64_1_0_0_1_n_n.contr.Idx) : (dot_S640x3584_S3584x64_S640x64_1_0_0_1_n_n.rhsIdx j k 0).val = (k ⟨0, by decide⟩).val :=
  dot_S640x3584_S3584x64_S640x64_1_0_0_1_n_n.rhsIdx_val_of_single rfl j k
theorem rhs1a_1 (j : S640x64.Idx) (k : dot_S640x3584_S3584x64_S640x64_1_0_0_1_n_n.contr.Idx) : (dot_S640x3584_S3584x64_S640x64_1_0_0_1_n_n.rhsIdx j k 1).val = (j 1).val := by
  unfold DotDims.rhsIdx
  rw [dif_neg (show ¬(1 : Fin S3584x64.rank) ∈ dot_S640x3584_S3584x64_S640x64_1_0_0_1_n_n.rhsBatch by decide), dif_pos (show (1 : Fin S3584x64.rank) ∈ dot_S640x3584_S3584x64_S640x64_1_0_0_1_n_n.rhsNonContracting by decide)]
  rfl

theorem lhs1b_0 (j : S3584x64.Idx) (k : dot_S3584x640_S640x64_S3584x64_1_0_0_1_n_n.contr.Idx) : (dot_S3584x640_S640x64_S3584x64_1_0_0_1_n_n.lhsIdx j k 0).val = (j 0).val := by
  unfold DotDims.lhsIdx
  rw [dif_neg (show ¬(0 : Fin S3584x640.rank) ∈ dot_S3584x640_S640x64_S3584x64_1_0_0_1_n_n.lhsBatch by decide), dif_pos (show (0 : Fin S3584x640.rank) ∈ dot_S3584x640_S640x64_S3584x64_1_0_0_1_n_n.lhsNonContracting by decide)]
  rfl
theorem lhs1b_1 (j : S3584x64.Idx) (k : dot_S3584x640_S640x64_S3584x64_1_0_0_1_n_n.contr.Idx) : (dot_S3584x640_S640x64_S3584x64_1_0_0_1_n_n.lhsIdx j k 1).val = (k ⟨0, by decide⟩).val :=
  dot_S3584x640_S640x64_S3584x64_1_0_0_1_n_n.lhsIdx_val_of_single rfl j k
theorem rhs1b_0 (j : S3584x64.Idx) (k : dot_S3584x640_S640x64_S3584x64_1_0_0_1_n_n.contr.Idx) : (dot_S3584x640_S640x64_S3584x64_1_0_0_1_n_n.rhsIdx j k 0).val = (k ⟨0, by decide⟩).val :=
  dot_S3584x640_S640x64_S3584x64_1_0_0_1_n_n.rhsIdx_val_of_single rfl j k
theorem rhs1b_1 (j : S3584x64.Idx) (k : dot_S3584x640_S640x64_S3584x64_1_0_0_1_n_n.contr.Idx) : (dot_S3584x640_S640x64_S3584x64_1_0_0_1_n_n.rhsIdx j k 1).val = (j 1).val := by
  unfold DotDims.rhsIdx
  rw [dif_neg (show ¬(1 : Fin S640x64.rank) ∈ dot_S3584x640_S640x64_S3584x64_1_0_0_1_n_n.rhsBatch by decide), dif_pos (show (1 : Fin S640x64.rank) ∈ dot_S3584x640_S640x64_S3584x64_1_0_0_1_n_n.rhsNonContracting by decide)]
  rfl

theorem pay3_apply1 (k : Fin k1_t1_loop.trips) (v16 : Vec Ideal S3584x64 .bf16) (v21 : Vec Ideal S640x1 .i32)
    (v29 : Vec Ideal S640x64 .f32) (r : Fin 640) (q : Fin 64) :
    k1_pay3 (F := Ideal) k v16 v21 v29 (ix2 r q)
      = v29 (ix2 r q) + ∑ j : Fin 3584, Cert.Spec.hot (v21 (ix2 r 0)) (BitVec.ofNat 32 (3584 * k.val + j.val)) * v16 (ix2 j q) := by
  unfold k1_pay3
  simp only [shapeCast_self]
  rw [addf_apply]
  congr 1
  simp only [matmul]
  rw [Ideal.matmul_constant_zero_apply, ← Equiv.sum_comp (contrEquiv1 dot_S640x3584_S3584x64_S640x64_1_0_0_1_n_n 3584 rfl rfl).symm]
  refine Finset.sum_congr rfl fun j _ => ?_
  have hj := contrEquiv1_symm_val dot_S640x3584_S3584x64_S640x64_1_0_0_1_n_n 3584 rfl rfl j
  have el : dot_S640x3584_S3584x64_S640x64_1_0_0_1_n_n.lhsIdx (ix2 r q) ((contrEquiv1 dot_S640x3584_S3584x64_S640x64_1_0_0_1_n_n 3584 rfl rfl).symm j) = ix2 r j := funext fun a => Fin.ext (by
    match a with
    | ⟨0, _⟩ => exact lhs1a_0 _ _
    | ⟨1, _⟩ => exact (lhs1a_1 _ _).trans hj)
  have er : dot_S640x3584_S3584x64_S640x64_1_0_0_1_n_n.rhsIdx (ix2 r q) ((contrEquiv1 dot_S640x3584_S3584x64_S640x64_1_0_0_1_n_n 3584 rfl rfl).symm j) = ix2 j q := funext fun a => Fin.ext (by
    match a with
    | ⟨0, _⟩ => exact (rhs1a_0 _ _).trans hj
    | ⟨1, _⟩ => exact rhs1a_1 _ _)
  rw [el, er, truncf_apply, sitofp_apply, extui_apply]
  congr 1
  show FloatOps.sitofp (F := Ideal) .f32 ((IntOp.cmpi .eq _ _).setWidth 32) = _
  rw [hot_cmp1, node_word1_t1]
  congr 1
  · exact broadcastTo_apply _ _ _ (ix2 r 0) (fun a => by match a with | ⟨0, _⟩ => rfl | ⟨1, _⟩ => rfl)
  · rw [broadcastTo_apply _ _ (ix2 r j) (ix2 0 j) (fun a => by match a with | ⟨0, _⟩ => rfl | ⟨1, _⟩ => rfl)]
    show BitVec.ofNat 32 (3584 * k.val) + iota .tc S1x3584 32 [1] iota_S1x3584_d1_w32 (ix2 0 j) = _
    rw [iota_single_apply]
    show BitVec.ofNat 32 (3584 * k.val) + BitVec.ofNat 32 j.val = _
    rw [← BitVec.ofNat_add]

theorem pay4_apply1 (v8 : Vec Ideal S640x64 .f32) (k : Fin k1_t2_loop.trips) (v18 : Vec Ideal S1x640 .i32)
    (v28 : Vec Ideal S3584x64 .f32) (j : Fin 3584) (q : Fin 64) :
    k1_pay4 (F := Ideal) v8 k v18 v28 (ix2 j q)
      = v28 (ix2 j q) + ∑ r : Fin 640, Cert.Spec.hot (BitVec.ofNat 32 (3584 * k.val + j.val)) (v18 (ix2 0 r)) * v8 (ix2 r q) := by
  unfold k1_pay4
  simp only [shapeCast_self]
  rw [addf_apply]
  congr 1
  simp only [matmul]
  rw [Ideal.matmul_constant_zero_apply, ← Equiv.sum_comp (contrEquiv1 dot_S3584x640_S640x64_S3584x64_1_0_0_1_n_n 640 rfl rfl).symm]
  refine Finset.sum_congr rfl fun r _ => ?_
  have hr := contrEquiv1_symm_val dot_S3584x640_S640x64_S3584x64_1_0_0_1_n_n 640 rfl rfl r
  have el : dot_S3584x640_S640x64_S3584x64_1_0_0_1_n_n.lhsIdx (ix2 j q) ((contrEquiv1 dot_S3584x640_S640x64_S3584x64_1_0_0_1_n_n 640 rfl rfl).symm r) = ix2 j r := funext fun a => Fin.ext (by
    match a with
    | ⟨0, _⟩ => exact lhs1b_0 _ _
    | ⟨1, _⟩ => exact (lhs1b_1 _ _).trans hr)
  have er : dot_S3584x640_S640x64_S3584x64_1_0_0_1_n_n.rhsIdx (ix2 j q) ((contrEquiv1 dot_S3584x640_S640x64_S3584x64_1_0_0_1_n_n 640 rfl rfl).symm r) = ix2 r q := funext fun a => Fin.ext (by
    match a with
    | ⟨0, _⟩ => exact (rhs1b_0 _ _).trans hr
    | ⟨1, _⟩ => exact rhs1b_1 _ _)
  rw [el, er, truncf_apply, truncf_apply, sitofp_apply, extui_apply]
  congr 1
  show FloatOps.sitofp (F := Ideal) .f32 ((IntOp.cmpi .eq _ _).setWidth 32) = _
  rw [hot_cmp1, node_word1_t2]
  congr 1
  · rw [broadcastTo_apply _ _ (ix2 j r) (ix2 j 0) (fun a => by match a with | ⟨0, _⟩ => rfl | ⟨1, _⟩ => rfl)]
    show BitVec.ofNat 32 (3584 * k.val) + iota .tc S3584x1 32 [0] iota_S3584x1_d0_w32 (ix2 j 0) = _
    rw [iota_single_apply]
    show BitVec.ofNat 32 (3584 * k.val) + BitVec.ofNat 32 j.val = _
    rw [← BitVec.ofNat_add]
  · exact broadcastTo_apply _ _ _ (ix2 0 r) (fun a => by match a with | ⟨0, _⟩ => rfl | ⟨1, _⟩ => rfl)

theorem pay1_apply1 (y : S50176x64.Idx) : k1_pay1 (F := Ideal) y = 0 := by
  unfold k1_pay1
  show Ideal.ofBits .f32 0x00000000#32 = 0
  exact Ideal.ofBits_zero_f32
theorem pay2_apply1 (y : S640x64.Idx) : k1_pay2 (F := Ideal) y = 0 := by
  unfold k1_pay2
  simp only [shapeCast_self]
  show Ideal.ofBits .f32 0x00000000#32 = 0
  exact Ideal.ofBits_zero_f32

end Cert.KernelIdeal.Hand

end
-- ==== Proof.KI.Val1Piece.lean ====
import proofs.«413690_j74569222193909_1_alg».proof.Proof.KI.Reg1
import proofs.«413690_j74569222193909_1_alg».proof.Proof.KI.Val1Pay
import proofs.«413690_j74569222193909_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

theorem hz1 : (![0, 0] : Fin 2 → ℕ) = fun _ => 0 := funext fun a => by fin_cases a <;> rfl

theorem trips1_t1 : k1_t1_loop.trips = 14 := by decide
theorem trips1_t2 : k1_t2_loop.trips = 14 := by decide

theorem idx1_whole {S : Shape} {off : Fin S.rank → ℕ} (h : off = fun _ => 0) (inb : ∀ a, off a + S.size a ≤ S.size a) (y : S.Idx) :
    (Rect.unit off S.size inb).idx y = y := by
  subst h; show (Rect.whole S).emb y = y; rw [Rect.emb_whole_apply]
theorem readAt1_whole {sg : RefSig} {κ : Kind} {sp : Space} {S : Shape} {e : EltTy} (v : View sg κ sp S e) {off : Fin S.rank → ℕ}
    (h : off = fun _ => 0) (inb : ∀ a, off a + S.size a ≤ S.size a) (f : v.ty.Contents (Elt Ideal)) :
    v.readAt (Elt Ideal) (Rect.unit off S.size inb).toLoadRect f = v.read (Elt Ideal) f := by
  funext y; rw [View.readAt_apply, idx1_whole h]
theorem read1_write_whole {sg : RefSig} {κ : Kind} {sp : Space} {S : Shape} {e : EltTy} (v : View sg κ sp S e) {off : Fin S.rank → ℕ}
    (h : off = fun _ => 0) (inb : ∀ a, off a + S.size a ≤ S.size a) (f : v.ty.Contents (Elt Ideal)) (w : S.Idx → Elt Ideal e) :
    v.read (Elt Ideal) (v.writes (Elt Ideal) f [⟨Rect.unit off S.size inb, w⟩]) = w := by
  rw [View.read_writes_eq_canon _ _ _ (fun y => ⟨_, List.mem_singleton_self _, View.mem_set_unit_zero h inb y⟩), View.canon_unit_zero h]

theorem idx1_t1 (k : Fin k1_t1_loop.trips) (j : Fin 3584) (q : Fin 64) (h : 3584 * k.val + j.val < 50176) :
    (Rect.unit (s := S50176x64) (k1_off1 k) S3584x64.size (k1_off1_inb k)).idx (ix2 j q) = ix2 (⟨3584 * k.val + j.val, h⟩ : Fin 50176) q := by
  have e0 : k1_off1 k 0 = 3584 * k.val := by rw [k1_off1_eq]; rfl
  have e1 : k1_off1 k 1 = 0 := by rw [k1_off1_eq]; rfl
  funext a; apply Fin.ext
  match a with
  | ⟨0, _⟩ => show k1_off1 k 0 + 1 * j.val = 3584 * k.val + j.val; rw [e0]; omega
  | ⟨1, _⟩ => show k1_off1 k 1 + 1 * q.val = q.val; rw [e1]; omega
theorem idx1_t2 (k : Fin k1_t2_loop.trips) (j : Fin 3584) (q : Fin 64) (h : 3584 * k.val + j.val < 50176) :
    (Rect.unit (s := S50176x64) (k1_off2 k) S3584x64.size (k1_off2_inb k)).idx (ix2 j q) = ix2 (⟨3584 * k.val + j.val, h⟩ : Fin 50176) q := by
  have e0 : k1_off2 k 0 = 3584 * k.val := by rw [k1_off2_eq]; rfl
  have e1 : k1_off2 k 1 = 0 := by rw [k1_off2_eq]; rfl
  funext a; apply Fin.ext
  match a with
  | ⟨0, _⟩ => show k1_off2 k 0 + 1 * j.val = 3584 * k.val + j.val; rw [e0]; omega
  | ⟨1, _⟩ => show k1_off2 k 1 + 1 * q.val = q.val; rw [e1]; omega

section Pieces

variable (𝒱 : Variants) (c : Dev nD) (bd : Option 𝒱.V) (i : grid1.Coords)
    (arg1 : Memref sig .tc .vmem S640x1 .i32) (harg1 : arg1.IsWhole) (arg2 : Memref sig .tc .vmem S1x640 .i32) (harg2 : arg2.IsWhole)
    (arg3 : Memref sig .tc .vmem S50176x64 .bf16) (harg3 : arg3.IsWhole) (arg4 : Memref sig .tc .vmem S50176x64 .f32) (harg4 : arg4.IsWhole)
    (arg5 : Memref sig .tc .vmem S640x64 .f32) (harg5 : arg5.IsWhole)

theorem tripL1_t1 (X1 : BufTy.Contents (Elt Ideal) arg1.view.ty) (X3 : BufTy.Contents (Elt Ideal) arg3.view.ty) (k : Fin k1_t1_loop.trips)
    (f : BufTy.Contents (Elt Ideal) arg5.view.ty) :
    tripL_k1_t1 (F := Ideal) 𝒱 c bd i arg1 harg1 arg2 harg2 arg3 harg3 arg4 harg4 arg5 harg5 X1 X3 k f
      = [⟨Rect.unit ![0, 0] S640x64.size inb_S640x64_S640x64_0_0,
          k1_pay3 k (arg3.view.readAt (Elt Ideal) (Rect.unit (s := S50176x64) (k1_off1 k) S3584x64.size (k1_off1_inb k)).toLoadRect X3)
            (arg1.view.readAt (Elt Ideal) (Rect.unit ![0, 0] S640x1.size inb_S640x1_S640x1_0_0).toLoadRect X1)
            (arg5.view.readAt (Elt Ideal) (Rect.unit ![0, 0] S640x64.size inb_S640x64_S640x64_0_0).toLoadRect f)⟩] := by
  unfold tripL_k1_t1 trip_k1_t1
  rfl

theorem tripL1_t2 (v8 : Vec Ideal S640x64 .f32) (X2 : BufTy.Contents (Elt Ideal) arg2.view.ty) (k : Fin k1_t2_loop.trips)
    (f : BufTy.Contents (Elt Ideal) arg4.view.ty) :
    tripL_k1_t2 (F := Ideal) 𝒱 c bd i arg1 harg1 arg2 harg2 arg3 harg3 arg4 harg4 arg5 harg5 v8 X2 k f
      = [⟨Rect.unit (s := S50176x64) (k1_off2 k) S3584x64.size (k1_off2_inb k),
          k1_pay4 v8 k (arg2.view.readAt (Elt Ideal) (Rect.unit ![0, 0] S1x640.size inb_S1x640_S1x640_0_0).toLoadRect X2)
            (arg4.view.readAt (Elt Ideal) (Rect.unit (s := S50176x64) (k1_off2 k) S3584x64.size (k1_off2_inb k)).toLoadRect f)⟩] := by
  unfold tripL_k1_t2 trip_k1_t2
  rfl

def scr1 (X1 : BufTy.Contents (Elt Ideal) arg1.view.ty) (X3 : BufTy.Contents (Elt Ideal) arg3.view.ty) (G5 : BufTy.Contents (Elt Ideal) arg5.view.ty)
    (k : ℕ) : S640x64.Idx → EReal :=
  arg5.view.read (Elt Ideal) (arg5.view.writes (Elt Ideal) G5 (pb_k1_t1 (F := Ideal) 𝒱 c bd i arg1 harg1 arg2 harg2 arg3 harg3 arg4 harg4 arg5 harg5 X1 X3 G5 k))

theorem scr1_succ (X1 : BufTy.Contents (Elt Ideal) arg1.view.ty) (X3 : BufTy.Contents (Elt Ideal) arg3.view.ty) (G5 : BufTy.Contents (Elt Ideal) arg5.view.ty)
    (k : Fin k1_t1_loop.trips) :
    scr1 𝒱 c bd i arg1 harg1 arg2 harg2 arg3 harg3 arg4 harg4 arg5 harg5 X1 X3 G5 (k.val + 1)
      = k1_pay3 k (arg3.view.readAt (Elt Ideal) (Rect.unit (s := S50176x64) (k1_off1 k) S3584x64.size (k1_off1_inb k)).toLoadRect X3)
          (arg1.view.read (Elt Ideal) X1) (scr1 𝒱 c bd i arg1 harg1 arg2 harg2 arg3 harg3 arg4 harg4 arg5 harg5 X1 X3 G5 k.val) := by
  unfold scr1
  rw [pb_k1_t1_succ, View.writes_append, tripL1_t1, read1_write_whole _ hz1, readAt1_whole _ hz1, readAt1_whole _ hz1]

def gterm1 (s : Fin 640 → BitVec 32) (m : S50176x64.Idx → EReal) (i : Fin 14) (r : Fin 640) (q : Fin 64) : EReal :=
  ∑ j : Fin 3584, Cert.Spec.hot (s r) (BitVec.ofNat 32 (3584 * i.val + j.val))
    * m (ix2 (⟨3584 * i.val + j.val, by have := i.isLt; have := j.isLt; omega⟩ : Fin 50176) q)

theorem scr1_eq (X1 : BufTy.Contents (Elt Ideal) arg1.view.ty) (X3 : BufTy.Contents (Elt Ideal) arg3.view.ty) (G5 : BufTy.Contents (Elt Ideal) arg5.view.ty) :
    ∀ (k : ℕ) (hk : k ≤ 14) (r : Fin 640) (q : Fin 64),
      scr1 𝒱 c bd i arg1 harg1 arg2 harg2 arg3 harg3 arg4 harg4 arg5 harg5 X1 X3 G5 k (ix2 r q)
        = arg5.view.read (Elt Ideal) G5 (ix2 r q)
          + ∑ i ∈ Finset.univ.filter (fun i : Fin 14 => i.val < k),
              gterm1 (fun r => arg1.view.read (Elt Ideal) X1 (ix2 r 0)) (arg3.view.read (Elt Ideal) X3) i r q
  | 0, _, r, q => by
    rw [show (Finset.univ.filter fun i : Fin 14 => i.val < 0) = ∅ from by ext i; simp, Finset.sum_empty, add_zero]
    rfl
  | k + 1, hk, r, q => by
    have hk' : k < k1_t1_loop.trips := by rw [trips1_t1]; omega
    have hf : (Finset.univ.filter fun i : Fin 14 => i.val < k + 1)
        = insert (⟨k, by omega⟩ : Fin 14) (Finset.univ.filter fun i : Fin 14 => i.val < k) := by
      ext i
      simp only [Finset.mem_filter, Finset.mem_univ, true_and, Finset.mem_insert, Fin.ext_iff]
      omega
    have hn : (⟨k, by omega⟩ : Fin 14) ∉ Finset.univ.filter (fun i : Fin 14 => i.val < k) := by simp
    rw [show scr1 𝒱 c bd i arg1 harg1 arg2 harg2 arg3 harg3 arg4 harg4 arg5 harg5 X1 X3 G5 (k + 1) = _ from scr1_succ 𝒱 c bd i arg1 harg1 arg2 harg2 arg3 harg3 arg4 harg4 arg5 harg5 X1 X3 G5 ⟨k, hk'⟩, pay3_apply1,
      scr1_eq X1 X3 G5 k (by omega), hf, Finset.sum_insert hn, add_assoc]
    congr 1
    rw [add_comm]
    congr 1
    unfold gterm1
    refine Finset.sum_congr rfl fun j _ => ?_
    rw [View.readAt_apply, idx1_t1 ⟨k, hk'⟩ j q (by have := j.isLt; show 3584 * k + j.val < 50176; omega)]

def agg1 (v8 : Vec Ideal S640x64 .f32) (X2 : BufTy.Contents (Elt Ideal) arg2.view.ty) (G4 : BufTy.Contents (Elt Ideal) arg4.view.ty)
    (k : ℕ) : S50176x64.Idx → EReal :=
  arg4.view.read (Elt Ideal) (arg4.view.writes (Elt Ideal) G4 (pb_k1_t2 (F := Ideal) 𝒱 c bd i arg1 harg1 arg2 harg2 arg3 harg3 arg4 harg4 arg5 harg5 v8 X2 G4 k))

theorem agg1_eq (v8 : Vec Ideal S640x64 .f32) (X2 : BufTy.Contents (Elt Ideal) arg2.view.ty) (G4 : BufTy.Contents (Elt Ideal) arg4.view.ty) :
    ∀ (k : ℕ) (hk : k ≤ 14) (n : Fin 50176) (q : Fin 64),
      agg1 𝒱 c bd i arg1 harg1 arg2 harg2 arg3 harg3 arg4 harg4 arg5 harg5 v8 X2 G4 k (ix2 n q)
        = if n.val < 3584 * k then
            arg4.view.read (Elt Ideal) G4 (ix2 n q)
              + ∑ r : Fin 640, Cert.Spec.hot (BitVec.ofNat 32 n.val) (arg2.view.read (Elt Ideal) X2 (ix2 0 r)) * v8 (ix2 r q)
          else arg4.view.read (Elt Ideal) G4 (ix2 n q)
  | 0, _, n, q => by
    rw [if_neg (by omega)]
    rfl
  | k + 1, hk, n, q => by
    have hk' : k < k1_t2_loop.trips := by rw [trips1_t2]; omega
    have ih := agg1_eq v8 X2 G4 k (by omega)
    have h0 : k1_off2 ⟨k, hk'⟩ 0 = 3584 * k := by rw [k1_off2_eq]; rfl
    have hn64 : n.val < 50176 := n.isLt
    unfold agg1 at ih ⊢
    rw [show pb_k1_t2 (F := Ideal) 𝒱 c bd i arg1 harg1 arg2 harg2 arg3 harg3 arg4 harg4 arg5 harg5 v8 X2 G4 (k + 1) = _ from pb_k1_t2_succ (F := Ideal) 𝒱 c bd i arg1 harg1 arg2 harg2 arg3 harg3 arg4 harg4 arg5 harg5 v8 X2 G4 ⟨k, hk'⟩,
      View.writes_append, tripL1_t2, View.writes_singleton]
    by_cases hin : 3584 * k ≤ n.val ∧ n.val < 3584 * k + 3584
    · have hj : n.val - 3584 * k < 3584 := by omega
      have he : (ix2 n q : S50176x64.Idx)
          = (Rect.unit (s := S50176x64) (k1_off2 ⟨k, hk'⟩) S3584x64.size (k1_off2_inb ⟨k, hk'⟩)).emb (ix2 (⟨n.val - 3584 * k, hj⟩ : Fin 3584) q) := by
        show _ = (Rect.unit (s := S50176x64) (k1_off2 ⟨k, hk'⟩) S3584x64.size (k1_off2_inb ⟨k, hk'⟩)).idx (ix2 (⟨n.val - 3584 * k, hj⟩ : Fin 3584) q)
        rw [idx1_t2 ⟨k, hk'⟩ ⟨n.val - 3584 * k, hj⟩ q (by show 3584 * k + (n.val - 3584 * k) < 50176; omega)]
        congr 1
        apply Fin.ext
        show n.val = 3584 * k + (n.val - 3584 * k)
        omega
      rw [if_pos (by omega)]
      conv_lhs => rw [he]
      rw [View.read_slice_write_emb _ _ _ (Finset.mem_univ _), pay4_apply1]
      congr 1
      · show arg4.view.read (Elt Ideal) _ ((Rect.unit (s := S50176x64) (k1_off2 ⟨k, hk'⟩) S3584x64.size (k1_off2_inb ⟨k, hk'⟩)).emb (ix2 (⟨n.val - 3584 * k, hj⟩ : Fin 3584) q)) = _
        rw [← he, ih n q, if_neg (by omega)]
      · refine Finset.sum_congr rfl fun r _ => ?_
        rw [show 3584 * (⟨k, hk'⟩ : Fin k1_t2_loop.trips).val + (⟨n.val - 3584 * k, hj⟩ : Fin 3584).val = n.val from by show 3584 * k + (n.val - 3584 * k) = n.val; omega]
        rw [readAt1_whole _ hz1]
    · have hout : (ix2 n q : S50176x64.Idx) ∉ Finset.univ.map (Rect.unit (s := S50176x64) (k1_off2 ⟨k, hk'⟩) S3584x64.size (k1_off2_inb ⟨k, hk'⟩)).emb := by
        rw [Rect.map_emb_univ, Rect.mem_set_unit]
        intro h
        have h' := h 0
        rw [h0] at h'
        exact hin ⟨h'.1, h'.2⟩
      rw [View.read_slice_write_of_not_mem _ _ _ _ hout, ih n q]
      by_cases hlt : n.val < 3584 * k
      · rw [if_pos hlt, if_pos (by omega)]
      · rw [if_neg hlt, if_neg (by omega)]

end Pieces

end Cert.KernelIdeal.Hand

end
-- ==== Proof.MsgSum.lean ====
import proofs.«413690_j74569222193909_1_alg».proof.Proof.Spec
import Mathlib.Algebra.BigOperators.Fin
import Mathlib.Logic.Equiv.Fin.Basic

noncomputable section

open scoped BigOperators

namespace Cert.Spec

theorem blk_lt {T B k : ℕ} (hk : k < T) (r : Fin B) : B * k + r.val < T * B := by
  have h1 : B * (k + 1) ≤ B * T := Nat.mul_le_mul_left B hk
  have h2 : B * (k + 1) = B * k + B := Nat.mul_succ B k
  have h3 := r.isLt
  rw [Nat.mul_comm T B]
  omega

theorem sum_blocks {M : Type*} [AddCommMonoid M] (T B : ℕ) (f : Fin (T * B) → M) :
    ∑ e : Fin (T * B), f e = ∑ t : Fin T, ∑ r : Fin B, f ⟨B * t.val + r.val, blk_lt t.isLt r⟩ := by
  rw [← (finProdFinEquiv (m := T) (n := B)).sum_comp, Fintype.sum_prod_type]
  refine Finset.sum_congr rfl fun t _ => Finset.sum_congr rfl fun r _ => ?_
  congr 1
  ext
  simp [finProdFinEquiv, Nat.add_comm]

def pointAdd {B N D : ℕ} (dstb : Fin B → BitVec 32) (msgb : Mat B D) (prev : Mat N D) : Mat N D :=
  fun n q => prev n q + ∑ r : Fin B, hot (BitVec.ofNat 32 n.val) (dstb r) * msgb r q

def accPts {T B N D : ℕ} (dst : Fin (T * B) → BitVec 32) (msg : Mat (T * B) D) : (k : ℕ) → k < T → Mat N D
  | 0, h => pointAdd (fun r => dst ⟨B * 0 + r.val, blk_lt h r⟩) (fun r q => msg ⟨B * 0 + r.val, blk_lt h r⟩ q)
      (fun _ _ => 0)
  | k + 1, h => pointAdd (fun r => dst ⟨B * (k + 1) + r.val, blk_lt h r⟩)
      (fun r q => msg ⟨B * (k + 1) + r.val, blk_lt h r⟩ q) (accPts dst msg k (Nat.lt_of_succ_lt h))

theorem accPts_zero {T B N D : ℕ} (dst : Fin (T * B) → BitVec 32) (msg : Mat (T * B) D) (h : 0 < T) :
    accPts (N := N) dst msg 0 h
      = pointAdd (fun r => dst ⟨B * 0 + r.val, blk_lt h r⟩) (fun r q => msg ⟨B * 0 + r.val, blk_lt h r⟩ q)
          (fun _ _ => 0) := rfl

theorem accPts_succ {T B N D : ℕ} (dst : Fin (T * B) → BitVec 32) (msg : Mat (T * B) D) (k : ℕ) (h : k + 1 < T) :
    accPts (N := N) dst msg (k + 1) h
      = pointAdd (fun r => dst ⟨B * (k + 1) + r.val, blk_lt h r⟩)
          (fun r q => msg ⟨B * (k + 1) + r.val, blk_lt h r⟩ q) (accPts dst msg k (Nat.lt_of_succ_lt h)) := rfl

theorem accPts_eq {T B N D : ℕ} (dst : Fin (T * B) → BitVec 32) (msg : Mat (T * B) D) (k : ℕ) (hk : k < T)
    (n : Fin N) (q : Fin D) :
    accPts dst msg k hk n q
      = ∑ t ∈ Finset.univ.filter (fun t : Fin T => t.val ≤ k), ∑ r : Fin B,
          hot (BitVec.ofNat 32 n.val) (dst ⟨B * t.val + r.val, blk_lt t.isLt r⟩)
            * msg ⟨B * t.val + r.val, blk_lt t.isLt r⟩ q := by
  induction k with
  | zero =>
    have hf : Finset.univ.filter (fun t : Fin T => t.val ≤ 0) = {⟨0, hk⟩} := by
      ext t
      simp [Fin.ext_iff]
    rw [hf, Finset.sum_singleton]
    show (0 : EReal) + _ = _
    rw [zero_add]
  | succ k ih =>
    have hf : Finset.univ.filter (fun t : Fin T => t.val ≤ k + 1)
        = insert ⟨k + 1, hk⟩ (Finset.univ.filter (fun t : Fin T => t.val ≤ k)) := by
      ext t
      simp only [Finset.mem_filter, Finset.mem_univ, true_and, Finset.mem_insert, Fin.ext_iff]
      omega
    have hn : (⟨k + 1, hk⟩ : Fin T) ∉ Finset.univ.filter (fun t : Fin T => t.val ≤ k) := by
      simp
    rw [hf, Finset.sum_insert hn, ← ih (Nat.lt_of_succ_lt hk)]
    exact add_comm (accPts dst msg k (Nat.lt_of_succ_lt hk) n q) _

theorem accPts_last {T B N D : ℕ} (hT : 0 < T) (dst : Fin (T * B) → BitVec 32) (msg : Mat (T * B) D) :
    accPts (N := N) dst msg (T - 1) (by omega) = scat dst msg := by
  funext n q
  rw [accPts_eq, Finset.filter_true_of_mem (fun t _ => by have := t.isLt; omega)]
  unfold scat
  rw [sum_blocks]

theorem gath_blocks {S R D : ℕ} (s : BitVec 32) (m : Mat (S * R) D) (q : Fin D) :
    ∑ i : Fin S, ∑ r : Fin R,
        hot s (BitVec.ofNat 32 (R * i.val + r.val)) * m ⟨R * i.val + r.val, blk_lt i.isLt r⟩ q
      = ∑ n : Fin (S * R), hot s (BitVec.ofNat 32 n.val) * m n q :=
  (sum_blocks S R (fun n => hot s (BitVec.ofNat 32 n.val) * m n q)).symm

theorem foldl_add_list {ι M : Type*} [AddCommMonoid M] (g : ι → M) (l : List ι) (a : M) :
    l.foldl (fun acc i => acc + g i) a = a + (l.map g).sum := by
  induction l generalizing a with
  | nil => simp
  | cons x l ih => simp [ih, add_assoc]

theorem foldl_add_finRange {M : Type*} [AddCommMonoid M] (S : ℕ) (g : Fin S → M) (a : M) :
    (List.finRange S).foldl (fun acc i => acc + g i) a = a + ∑ i, g i := by
  rw [foldl_add_list, Fin.sum_univ_def]

end Cert.Spec

end
-- ==== Proof.KI.Val1Point.lean ====
import proofs.«413690_j74569222193909_1_alg».proof.Proof.KI.Reg1
import proofs.«413690_j74569222193909_1_alg».proof.Proof.KI.Val1Pay
import proofs.«413690_j74569222193909_1_alg».proof.Proof.KI.Val1Piece
import proofs.«413690_j74569222193909_1_alg».proof.Proof.Spec
import proofs.«413690_j74569222193909_1_alg».proof.Proof.MsgSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

def msgOf1 (x0 : Vec Ideal S640x1 .i32) (x2 : Vec Ideal S50176x64 .bf16) : Cert.Spec.Mat 640 64 :=
  fun r q => ∑ i : Fin 14, gterm1 (fun r => x0 (ix2 r 0)) x2 i r q

section Runs

variable (c : Dev nD) (i : grid1.Coords)
    (arg1 : Memref sig .tc .vmem S640x1 .i32) (harg1 : arg1.IsWhole) (arg2 : Memref sig .tc .vmem S1x640 .i32) (harg2 : arg2.IsWhole)
    (arg3 : Memref sig .tc .vmem S50176x64 .bf16) (harg3 : arg3.IsWhole) (arg4 : Memref sig .tc .vmem S50176x64 .f32) (harg4 : arg4.IsWhole)
    (arg5 : Memref sig .tc .vmem S640x64 .f32) (harg5 : arg5.IsWhole)

abbrev Z5_1 : View.Piece (Elt Ideal) S640x64 .f32 := ⟨Rect.unit ![0, 0] S640x64.size inb_S640x64_S640x64_0_0, k1_pay2 (F := Ideal)⟩
abbrev Z4_1 : View.Piece (Elt Ideal) S50176x64 .f32 := ⟨Rect.unit ![0, 0] S50176x64.size inb_S50176x64_S50176x64_0_0, k1_pay1 (F := Ideal)⟩

def v8Of1 (x0 : Vec Ideal S640x1 .i32) (x2 : Vec Ideal S50176x64 .bf16) : Vec Ideal S640x64 .f32 :=
  arg5.view.readAt (Elt Ideal) (Rect.unit ![0, 0] S640x64.size inb_S640x64_S640x64_0_0).toLoadRect
    (arg5.view.writes (Elt Ideal) arg5.view.junk
      (pb_k1_t1 (F := Ideal) Variants.none c none i arg1 harg1 arg2 harg2 arg3 harg3 arg4 harg4 arg5 harg5 (harg1.unread x0) (harg3.unread x2)
          (arg5.view.writes (Elt Ideal) arg5.view.junk [Z5_1]) k1_t1_loop.trips ++ [Z5_1]))

theorem run1_B_pieces (hc0 : ¬cond1_0 i) (x0 : Vec Ideal S640x1 .i32) (x1 : Vec Ideal S1x640 .i32) (x2 : Vec Ideal S50176x64 .bf16)
    (xo3 : Vec Ideal S50176x64 .f32) :
    (kernelRun1_B (F := Ideal) c i arg1 harg1 arg2 harg2 arg3 harg3 arg4 harg4 arg5 harg5 hc0 x0 x1 x2 xo3).1
      = pb_k1_t2 (F := Ideal) Variants.none c none i arg1 harg1 arg2 harg2 arg3 harg3 arg4 harg4 arg5 harg5 (v8Of1 c i arg1 harg1 arg2 harg2 arg3 harg3 arg4 harg4 arg5 harg5 x0 x2) (harg2.unread x1) (harg4.unread xo3) k1_t2_loop.trips := by
  unfold kernelRun1_B v8Of1
  dsimp only
  sl_unfold_run_names
  rfl

theorem run1_A_pieces (hc0 : cond1_0 i) (x0 : Vec Ideal S640x1 .i32) (x1 : Vec Ideal S1x640 .i32) (x2 : Vec Ideal S50176x64 .bf16) :
    (kernelRun1_A (F := Ideal) c i arg1 harg1 arg2 harg2 arg3 harg3 arg4 harg4 arg5 harg5 hc0 x0 x1 x2).1
      = pb_k1_t2 (F := Ideal) Variants.none c none i arg1 harg1 arg2 harg2 arg3 harg3 arg4 harg4 arg5 harg5 (v8Of1 c i arg1 harg1 arg2 harg2 arg3 harg3 arg4 harg4 arg5 harg5 x0 x2) (harg2.unread x1)
          (arg4.view.writes (Elt Ideal) arg4.view.junk [Z4_1]) k1_t2_loop.trips ++ [Z4_1] := by
  unfold kernelRun1_A v8Of1
  dsimp only
  sl_unfold_run_names
  rfl

theorem v8Of1_apply (x0 : Vec Ideal S640x1 .i32) (x2 : Vec Ideal S50176x64 .bf16) (r : Fin 640) (q : Fin 64) :
    v8Of1 c i arg1 harg1 arg2 harg2 arg3 harg3 arg4 harg4 arg5 harg5 x0 x2 (ix2 r q) = msgOf1 x0 x2 r q := by
  unfold v8Of1 msgOf1
  rw [readAt1_whole _ hz1, View.writes_append]
  show scr1 Variants.none c none i arg1 harg1 arg2 harg2 arg3 harg3 arg4 harg4 arg5 harg5 (harg1.unread x0) (harg3.unread x2) (arg5.view.writes (Elt Ideal) arg5.view.junk [Z5_1]) k1_t1_loop.trips (ix2 r q) = _
  rw [trips1_t1, scr1_eq Variants.none c none i arg1 harg1 arg2 harg2 arg3 harg3 arg4 harg4 arg5 harg5 _ _ _ 14 (le_refl _) r q, read1_write_whole _ hz1, pay2_apply1, zero_add,
    Finset.filter_true_of_mem (fun i _ => i.isLt), harg1.read_unread, harg3.read_unread]

theorem out1_B_3_apply (hc0 : ¬cond1_0 i) (x0 : Vec Ideal S640x1 .i32) (x1 : Vec Ideal S1x640 .i32) (x2 : Vec Ideal S50176x64 .bf16)
    (xo3 : Vec Ideal S50176x64 .f32) (n : Fin 50176) (q : Fin 64) :
    out1_B_3 (F := Ideal) c i arg1 harg1 arg2 harg2 arg3 harg3 arg4 harg4 arg5 harg5 hc0 x0 x1 x2 xo3 (ix2 n q)
      = xo3 (ix2 n q) + ∑ r : Fin 640, Cert.Spec.hot (BitVec.ofNat 32 n.val) (x1 (ix2 0 r)) * msgOf1 x0 x2 r q := by
  unfold out1_B_3
  rw [View.read_writes_of_cover VO1_3 VO1_3.junk arg4.view (harg4.unread xo3) _ (cover1_B_3 c i arg1 harg1 arg2 harg2 arg3 harg3 arg4 harg4 arg5 harg5 hc0 x0 x1 x2 xo3),
    run1_B_pieces]
  show agg1 Variants.none c none i arg1 harg1 arg2 harg2 arg3 harg3 arg4 harg4 arg5 harg5 (v8Of1 c i arg1 harg1 arg2 harg2 arg3 harg3 arg4 harg4 arg5 harg5 x0 x2) (harg2.unread x1) (harg4.unread xo3) k1_t2_loop.trips (ix2 n q) = _
  rw [trips1_t2, agg1_eq Variants.none c none i arg1 harg1 arg2 harg2 arg3 harg3 arg4 harg4 arg5 harg5 _ _ _ 14 (le_refl _) n q, if_pos (by have := n.isLt; omega), harg4.read_unread, harg2.read_unread]
  congr 1
  exact Finset.sum_congr rfl fun r _ => by rw [v8Of1_apply]

theorem out1_A_3_apply (hc0 : cond1_0 i) (x0 : Vec Ideal S640x1 .i32) (x1 : Vec Ideal S1x640 .i32) (x2 : Vec Ideal S50176x64 .bf16)
    (n : Fin 50176) (q : Fin 64) :
    out1_A_3 (F := Ideal) c i arg1 harg1 arg2 harg2 arg3 harg3 arg4 harg4 arg5 harg5 hc0 x0 x1 x2 (ix2 n q)
      = 0 + ∑ r : Fin 640, Cert.Spec.hot (BitVec.ofNat 32 n.val) (x1 (ix2 0 r)) * msgOf1 x0 x2 r q := by
  unfold out1_A_3
  rw [View.read_writes_of_cover VO1_3 VO1_3.junk arg4.view arg4.view.junk _ (cover1_A_3 c i arg1 harg1 arg2 harg2 arg3 harg3 arg4 harg4 arg5 harg5 hc0 x0 x1 x2),
    run1_A_pieces, View.writes_append]
  show agg1 Variants.none c none i arg1 harg1 arg2 harg2 arg3 harg3 arg4 harg4 arg5 harg5 (v8Of1 c i arg1 harg1 arg2 harg2 arg3 harg3 arg4 harg4 arg5 harg5 x0 x2) (harg2.unread x1) (arg4.view.writes (Elt Ideal) arg4.view.junk [Z4_1]) k1_t2_loop.trips (ix2 n q) = _
  rw [trips1_t2, agg1_eq Variants.none c none i arg1 harg1 arg2 harg2 arg3 harg3 arg4 harg4 arg5 harg5 _ _ _ 14 (le_refl _) n q, if_pos (by have := n.isLt; omega), read1_write_whole _ hz1, pay1_apply1,
    harg2.read_unread]
  congr 1
  exact Finset.sum_congr rfl fun r _ => by rw [v8Of1_apply]

end Runs

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0 :=
  (by decide +kernel : ∀ t : Fin grid1.N, _)

theorem blk1 (t : Fin cfg1.N) (r : Fin 640) : 640 * t.val + r.val < 800000 := by
  have hN : t.val < 1250 := lt_of_lt_of_eq t.isLt (show cfg1.N = 1250 from N_1)
  have := r.isLt
  omega

theorem iblk1_0_apply (c : Dev nD) (t : Fin cfg1.N) (r : Fin 640) :
    iblk1 V c 0 t (ix2 r 0) = Cert.Spec.col0 (V c main_v5) ⟨640 * t.val + r.val, blk1 t r⟩ := by
  obtain ⟨e00, e01, -, -, -, -⟩ := idx_facts1 t
  unfold iblk1 Cert.Spec.col0
  rw [View.read_apply]
  show V c main_v5 _ = V c main_v5 _
  congr 1
  funext a; apply Fin.ext
  match a with
  | ⟨0, _⟩ => show win1_0.index t (0 : Fin 2) * 640 + 1 * r.val = 640 * t.val + r.val; rw [e00]; omega
  | ⟨1, _⟩ => show win1_0.index t (1 : Fin 2) * 1 + 1 * 0 = 0; rw [e01]

theorem iblk1_1_apply (c : Dev nD) (t : Fin cfg1.N) (r : Fin 640) :
    iblk1 V c 1 t (ix2 0 r) = Cert.Spec.row0 (V c main_v8) ⟨640 * t.val + r.val, blk1 t r⟩ := by
  obtain ⟨-, -, e10, e11, -, -⟩ := idx_facts1 t
  unfold iblk1 Cert.Spec.row0
  rw [View.read_apply]
  show V c main_v8 _ = V c main_v8 _
  congr 1
  funext a; apply Fin.ext
  match a with
  | ⟨0, _⟩ => show win1_1.index t (0 : Fin 2) * 1 + 1 * 0 = 0; rw [e10]
  | ⟨1, _⟩ => show win1_1.index t (1 : Fin 2) * 640 + 1 * r.val = 640 * t.val + r.val; rw [e11]; omega

theorem iblk1_2_apply (c : Dev nD) (t : Fin cfg1.N) (n : Fin 50176) (q : Fin 64) :
    iblk1 V c 2 t (ix2 n q) = V c main_v15 (ix2 n q) := by
  obtain ⟨-, -, -, -, e20, e21⟩ := idx_facts1 t
  unfold iblk1
  rw [View.read_apply]
  show V c main_v15 _ = V c main_v15 _
  congr 1
  funext a; apply Fin.ext
  match a with
  | ⟨0, _⟩ => show win1_2.index t (0 : Fin 2) * 50176 + 1 * n.val = n.val; rw [e20]; omega
  | ⟨1, _⟩ => show win1_2.index t (1 : Fin 2) * 64 + 1 * q.val = q.val; rw [e21]; omega

theorem msgOf1_iblk (c : Dev nD) (t : Fin cfg1.N) (r : Fin 640) (q : Fin 64) :
    msgOf1 (iblk1 V c 0 t) (iblk1 V c 2 t) r q
      = Cert.Spec.gath (Cert.Spec.col0 (V c main_v5)) (Cert.Spec.mat (V c main_v15)) ⟨640 * t.val + r.val, blk1 t r⟩ q := by
  unfold msgOf1 gterm1 Cert.Spec.gath
  simp only [iblk1_0_apply, iblk1_2_apply]
  exact Cert.Spec.gath_blocks (S := 14) (R := 3584) (Cert.Spec.col0 (V c main_v5) ⟨640 * t.val + r.val, blk1 t r⟩)
    (Cert.Spec.mat (V c main_v15)) q

theorem point1_A (c : Dev nD) (t : Fin cfg1.N) (h0 : t.val % 1250 = 0) :
    Cert.Spec.mat (outsAt1 V c t.val t.isLt)
      = Cert.Spec.pointAdd (B := 640) (N := 50176) (D := 64)
          (fun r => Cert.Spec.row0 (V c main_v8) ⟨640 * t.val + r.val, blk1 t r⟩)
          (fun r q => Cert.Spec.gath (Cert.Spec.col0 (V c main_v5)) (Cert.Spec.mat (V c main_v15)) ⟨640 * t.val + r.val, blk1 t r⟩ q)
          (fun _ _ => 0) := by
  funext n q
  show outsAt1 V c t.val t.isLt (ix2 n q) = _
  rw [outsAt1_A V c t h0, out1_A_3_apply]
  unfold Cert.Spec.pointAdd
  congr 1
  exact Finset.sum_congr rfl fun r _ => by rw [iblk1_1_apply, msgOf1_iblk]

theorem point1_B (c : Dev nD) (t : Fin cfg1.N) (h0 : ¬ t.val % 1250 = 0) :
    Cert.Spec.mat (outsAt1 V c t.val t.isLt)
      = Cert.Spec.pointAdd (B := 640) (N := 50176) (D := 64)
          (fun r => Cert.Spec.row0 (V c main_v8) ⟨640 * t.val + r.val, blk1 t r⟩)
          (fun r q => Cert.Spec.gath (Cert.Spec.col0 (V c main_v5)) (Cert.Spec.mat (V c main_v15)) ⟨640 * t.val + r.val, blk1 t r⟩ q)
          (Cert.Spec.mat (outsAt1 V c (t.val - 1) (Nat.lt_of_le_of_lt (Nat.sub_le _ _) t.isLt))) := by
  funext n q
  show outsAt1 V c t.val t.isLt (ix2 n q) = _
  rw [outsAt1_B V c t h0, out1_B_3_apply]
  unfold Cert.Spec.pointAdd
  congr 1
  exact Finset.sum_congr rfl fun r _ => by rw [iblk1_1_apply, msgOf1_iblk]

end Cert.KernelIdeal.Hand

end
-- ==== Proof.KI.Val1Last.lean ====
import proofs.«413690_j74569222193909_1_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

theorem last_lt1 : 1249 < cfg1.N := by rw [show cfg1.N = 1250 from N_1]; decide
def tLast1 : Fin cfg1.N := ⟨1249, last_lt1⟩

abbrev res1_3 (c : Dev nD) : Buf (Elt F) ((c : Thread nD τ).loc main_v16) := outsAt1 V c 1249 last_lt1

theorem idx1_3 : ∀ t : Fin cfg1.N, win1_3.index t (0 : Fin 2) = 0 ∧ win1_3.index t (1 : Fin 2) = 0 :=
  (by decide +kernel : ∀ t : Fin grid1.N, _)

theorem whole_blk1_3 (c : Dev nD) (X : Buf (Elt F) ((c : Thread nD τ).loc main_v16)) :
    (cfg1.win 3).cut (grid1.coords tLast1) X = ((cfg1.win 3).blk tLast1).view.read (Elt F) X := by
  obtain ⟨e0, e1⟩ := idx1_3 tLast1
  have hz : (fun a => win1_3.index tLast1 a * main_v16.ty.shape.size a) = fun _ => 0 := funext fun a => by
    match a with
    | ⟨0, _⟩ => show win1_3.index tLast1 (0 : Fin 2) * 50176 = 0; rw [e0]
    | ⟨1, _⟩ => show win1_3.index tLast1 (1 : Fin 2) * 64 = 0; rw [e1]
  exact (Memref.read_access_unit_zero (Elt F) main_v16 hz (fun a => by rw [congrFun hz a]; simp) X).symm

theorem flushed1_3_eq (c : Dev nD) (t : Fin cfg1.N) (hf : (cfg1.win 3).flush t = true) :
    (dat1 V c).flushed 3 t = ((cfg1.win 3).blk t).view.read (Elt F) (res1_3 V c) := by
  have hN : cfg1.N = 1250 := N_1
  have hl : t.val = 1249 := by have := (flush1_3 t).mp hf; have := t.isLt; omega
  obtain rfl : t = tLast1 := Fin.ext hl
  show (cfg1.win 3).cut (grid1.coords tLast1) ((dat1 V c).after 3 tLast1) = _
  rw [after1_3]
  exact whole_blk1_3 c _

theorem cover_arr1_3 (i : S50176x64.Idx) : ∃ t : Fin cfg1.N, (cfg1.win 3).flush t = true ∧ i ∈ ((cfg1.win 3).blk t).view.set := by
  refine ⟨tLast1, (flush1_3 tLast1).mpr rfl, ?_⟩
  show i ∈ ((View.whole main_v16).slice (win1_3.rect tLast1)).set
  rw [View.set_slice_whole, Rect.mem_set_unit]
  obtain ⟨e0, e1⟩ := idx1_3 tLast1
  have h0 : (i 0 : Nat) < 50176 := (i 0).isLt
  have h1 : (i 1 : Nat) < 64 := (i 1).isLt
  intro a
  match a with
  | ⟨0, _⟩ => show win1_3.index tLast1 (0 : Fin 2) * 50176 ≤ (i 0 : Nat) ∧ (i 0 : Nat) < win1_3.index tLast1 (0 : Fin 2) * 50176 + 50176; omega
  | ⟨1, _⟩ => show win1_3.index tLast1 (1 : Fin 2) * 64 ≤ (i 1 : Nat) ∧ (i 1 : Nat) < win1_3.index tLast1 (1 : Fin 2) * 64 + 64; omega

theorem last1 (c : Dev nD) : (dat1 V c).arrAt 3 cfg1.N = outsAt1 V c 1249 (by rw [show cfg1.N = 1250 from N_1]; decide) :=
  (dat1 V c).arrAt_eq_of_cover 3 (res1_3 V c) (flushed1_3_eq V c) cover_arr1_3

end Cert.KernelIdeal.Hand

end
-- ==== Proof.KI.Val1.lean ====
import proofs.«413690_j74569222193909_1_alg».proof.Proof.KI.Val1Point
import proofs.«413690_j74569222193909_1_alg».proof.Proof.KI.Val1Last
import proofs.«413690_j74569222193909_1_alg».proof.Proof.MsgSum
import proofs.«413690_j74569222193909_1_alg».proof.Proof.Spec
import Idealize.ShloMosaic.PureOps.Ideal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.Spec (mat pointAdd gath accPts)

variable (V : (c : Dev nD) → (b : Ref sig .tc) → Buf (Elt Ideal) ((c : Thread nD τ).loc b))

def edgeAt {N : ℕ} (hN : N = 1250) (t : Fin N) (r : Fin 640) : Fin 800000 :=
  ⟨640 * t.val + r.val, Cert.Spec.blk_lt (lt_of_lt_of_eq t.isLt hN) r⟩

/-- Points that each add their block's messages to the point before end at the scatter of all messages. -/
theorem msgp_of_points {N : ℕ} (hN : N = 1250) (outs : (n : ℕ) → n < N → Vec Ideal S50176x64 .f32)
    (src dst : Fin 800000 → BitVec 32) (m : Cert.Spec.Mat 50176 64)
    (hA : ∀ t : Fin N, t.val % 1250 = 0 → mat (outs t.val t.isLt)
      = pointAdd (fun r => dst (edgeAt hN t r)) (fun r => gath src m (edgeAt hN t r)) (fun _ _ => 0))
    (hB : ∀ t : Fin N, ¬t.val % 1250 = 0 → mat (outs t.val t.isLt)
      = pointAdd (fun r => dst (edgeAt hN t r)) (fun r => gath src m (edgeAt hN t r))
          (mat (outs (t.val - 1) (Nat.lt_of_le_of_lt (Nat.sub_le _ _) t.isLt)))) :
    mat (outs 1249 (by omega)) = Cert.Spec.msgp src dst m := by
  have acc : ∀ (n : ℕ) (hn : n < N),
      mat (outs n hn) = accPts (T := 1250) (B := 640) dst (gath src m) n (lt_of_lt_of_eq hn hN) := by
    intro n
    induction n with
    | zero => exact fun hn => hA ⟨0, hn⟩ (Nat.zero_mod _)
    | succ n ih =>
      exact fun hn => (hB ⟨n + 1, hn⟩ (by show ¬(n + 1) % 1250 = 0; omega)).trans
        (congrArg (pointAdd _ _) (ih (Nat.lt_of_succ_lt hn)))
  exact (acc 1249 _).trans (Cert.Spec.accPts_last (T := 1250) (B := 640) (by norm_num) dst (gath src m))

theorem val1 (c : Dev nD) :
    mat ((dat1 V c).arrAt 3 cfg1.N)
      = Cert.Spec.msgp (N := 50176) (E := 800000) (Cert.Spec.col0 (V c main_v5)) (Cert.Spec.row0 (V c main_v8)) (mat (V c main_v15)) :=
  (congrArg mat (last1 V c)).trans (msgp_of_points (N := cfg1.N) N_1 _ _ _ _ (point1_A V c) (point1_B V c))

end Cert.KernelIdeal.Hand

end
-- ==== Proof.KI.Val2.lean ====
import proofs.«413690_j74569222193909_1_alg».proof.Proof.KI.Reg2
import proofs.«413690_j74569222193909_1_alg».proof.Proof.Spec
import Idealize.ShloMosaic.Lib.StackMember
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx
open scoped BigOperators

theorem mm_gate2 (x : FVec Ideal S6272x64 .bf16) (w : FVec Ideal S64x192 .bf16) (p : Fin 6272) (j : Fin 192) :
    matmul dot_S6272x64_S64x192_S6272x192_1_0_0_1_n_n none x w (constant (F := Ideal) S6272x192 .f32 0x00000000#32) (ix2 p j) = ∑ l : Fin 64, x (ix2 p l) * w (ix2 l j) :=
  (congrFun (matmul_zero_eq_dotGeneral _ _ x w) _).trans (StackMember.dotGeneral_plain_apply none x w p j)

def gates2 (x : Vec Ideal S6272x64 .f32) (w : Vec Ideal S64x192 .f32) (b : Vec Ideal S1x192 .f32) : FVec Ideal S6272x192 .f32 :=
  addf (matmul dot_S6272x64_S64x192_S6272x192_1_0_0_1_n_n none
      (truncf .bf16 (shapeCast S6272x64 x shapeCasts_S6272x64_S6272x64) bitsLt_bf16_f32)
      (truncf .bf16 (shapeCast S64x192 w shapeCasts_S64x192_S64x192) bitsLt_bf16_f32)
      (constant (F := Ideal) S6272x192 .f32 0x00000000#32))
    (broadcastTo S6272x192 (shapeCast S1x192 b shapeCasts_S1x192_S1x192) broadcasts_S1x192_S6272x192)

theorem bias2_apply (b : Vec Ideal S1x192 .f32) (p : Fin 6272) (j : Fin 192) :
    broadcastTo S6272x192 b broadcasts_S1x192_S6272x192 (ix2 p j) = b (ix2 0 j) :=
  broadcastTo_apply b broadcasts_S1x192_S6272x192 (ix2 p j) (ix2 0 j) (fun a => by
    match a with
    | ⟨0, _⟩ => rfl
    | ⟨1, _⟩ => rfl)

theorem gates2_apply (x : Vec Ideal S6272x64 .f32) (w : Vec Ideal S64x192 .f32) (b : Vec Ideal S1x192 .f32) (p : Fin 6272) (j : Fin 192) :
    gates2 x w b (ix2 p j) = Cert.Spec.gate (Cert.Spec.mat x) (Cert.Spec.mat w) (Cert.Spec.row0 b) p j := by
  unfold gates2
  rw [addf_apply, mm_gate2, shapeCast_self, shapeCast_self, shapeCast_self, bias2_apply]
  rfl

theorem pay2_apply (a h : Vec Ideal S6272x64 .f32) (wi wh : Vec Ideal S64x192 .f32) (bi bh : Vec Ideal S1x192 .f32)
    (h' : Vec Ideal S6272x64 .f32) (p : Fin 6272) (q : Fin 64) :
    k2_pay1 a h wi wh bi bh h' (ix2 p q)
      = Cert.Spec.gruCell (Cert.Spec.gate (Cert.Spec.mat a) (Cert.Spec.mat wi) (Cert.Spec.row0 bi) p)
          (Cert.Spec.gate (Cert.Spec.mat h) (Cert.Spec.mat wh) (Cert.Spec.row0 bh) p) (h' (ix2 p q)) q := by
  have e : k2_pay1 a h wi wh bi bh h' (ix2 p q)
      = (Cert.Spec.one - Ideal.logistic (extractStridedSlice S6272x64 ![0, 64] (gates2 a wi bi) slices_S6272x192_o0_64_S6272x64 (ix2 p q) + extractStridedSlice S6272x64 ![0, 64] (gates2 h wh bh) slices_S6272x192_o0_64_S6272x64 (ix2 p q)))
          * Ideal.tanh (extractStridedSlice S6272x64 ![0, 128] (gates2 a wi bi) slices_S6272x192_o0_128_S6272x64 (ix2 p q) + Ideal.logistic (extractStridedSlice S6272x64 ![0, 0] (gates2 a wi bi) slices_S6272x192_o0_0_S6272x64 (ix2 p q) + extractStridedSlice S6272x64 ![0, 0] (gates2 h wh bh) slices_S6272x192_o0_0_S6272x64 (ix2 p q)) * extractStridedSlice S6272x64 ![0, 128] (gates2 h wh bh) slices_S6272x192_o0_128_S6272x64 (ix2 p q))
        + Ideal.logistic (extractStridedSlice S6272x64 ![0, 64] (gates2 a wi bi) slices_S6272x192_o0_64_S6272x64 (ix2 p q) + extractStridedSlice S6272x64 ![0, 64] (gates2 h wh bh) slices_S6272x192_o0_64_S6272x64 (ix2 p q)) * shapeCast S6272x64 h' shapeCasts_S6272x64_S6272x64 (ix2 p q) := rfl
  refine e.trans ?_
  simp only [slice2_axis1_eq, gates2_apply, shapeCast_self]
  rfl

theorem hz2 : (![0, 0] : Fin 2 → Nat) = fun _ => 0 := funext fun a => by fin_cases a <;> rfl

theorem out2_6_eq (a h : Vec Ideal S6272x64 .f32) (wi wh : Vec Ideal S64x192 .f32) (bi bh : Vec Ideal S1x192 .f32) :
    out2_6 (F := Ideal) a h wi wh bi bh = k2_pay1 a h wi wh bi bh h := by
  unfold out2_6
  rw [View.canon_unit_zero hz2]
  simp only [View.ld_unit_zero (S := S6272x64) hz2, View.ld_unit_zero (S := S64x192) hz2, View.ld_unit_zero (S := S1x192) hz2]

def G2 (A H : Vec Ideal S50176x64 .f32) (Wi Wh : Vec Ideal S64x192 .f32) (Bi Bh : Vec Ideal S1x192 .f32) : Vec Ideal S50176x64 .f32 :=
  fun i => Cert.Spec.gru (Cert.Spec.mat A) (Cert.Spec.mat H) (Cert.Spec.mat Wi) (Cert.Spec.mat Wh) (Cert.Spec.row0 Bi) (Cert.Spec.row0 Bh) (i 0) (i 1)

theorem cell_of_rows2 (A H : Vec Ideal S50176x64 .f32) (Wi Wh : Vec Ideal S64x192 .f32) (Bi Bh : Vec Ideal S1x192 .f32)
    (a h : Vec Ideal S6272x64 .f32) (wi wh : Vec Ideal S64x192 .f32) (bi bh : Vec Ideal S1x192 .f32)
    (p : Fin 6272) (P : Fin 50176) (q : Fin 64)
    (ha : ∀ l : Fin 64, a (ix2 p l) = A (ix2 P l)) (hh : ∀ l : Fin 64, h (ix2 p l) = H (ix2 P l))
    (hwi : ∀ (l : Fin 64) (j : Fin 192), wi (ix2 l j) = Wi (ix2 l j)) (hwh : ∀ (l : Fin 64) (j : Fin 192), wh (ix2 l j) = Wh (ix2 l j))
    (hbi : ∀ j : Fin 192, bi (ix2 0 j) = Bi (ix2 0 j)) (hbh : ∀ j : Fin 192, bh (ix2 0 j) = Bh (ix2 0 j)) :
    k2_pay1 a h wi wh bi bh h (ix2 p q) = G2 A H Wi Wh Bi Bh (ix2 P q) := by
  have ga : Cert.Spec.gate (Cert.Spec.mat a) (Cert.Spec.mat wi) (Cert.Spec.row0 bi) p
      = Cert.Spec.gate (Cert.Spec.mat A) (Cert.Spec.mat Wi) (Cert.Spec.row0 Bi) P := by
    funext j
    unfold Cert.Spec.gate Cert.Spec.mm Cert.Spec.mat Cert.Spec.row0
    simp only [ha, hwi, hbi]
  have gh : Cert.Spec.gate (Cert.Spec.mat h) (Cert.Spec.mat wh) (Cert.Spec.row0 bh) p
      = Cert.Spec.gate (Cert.Spec.mat H) (Cert.Spec.mat Wh) (Cert.Spec.row0 Bh) P := by
    funext j
    unfold Cert.Spec.gate Cert.Spec.mm Cert.Spec.mat Cert.Spec.row0
    simp only [hh, hwh, hbh]
  refine (pay2_apply a h wi wh bi bh h p q).trans ?_
  rw [ga, gh, hh q]
  rfl

theorem idx_facts2 : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

abbrev rd2 (w : Fin cfg2.W) (t : Fin cfg2.N) (X : ((cfg2.win w).blk t).view.ty.Contents (Elt Ideal)) :=
  ((cfg2.win w).blk t).view.read (Elt Ideal) X

theorem flushed2_eq (A H : Vec Ideal S50176x64 .f32) (Wi Wh : Vec Ideal S64x192 .f32) (Bi Bh : Vec Ideal S1x192 .f32) (t : Fin cfg2.N) :
    (cfg2.win 6).cut (grid2.coords t) (k2_pay1 (F := Ideal) (rd2 0 t A) (rd2 1 t H) (rd2 2 t Wi) (rd2 3 t Wh) (rd2 4 t Bi) (rd2 5 t Bh) (rd2 1 t H))
      = ((cfg2.win 6).blk t).view.read (Elt Ideal) (G2 A H Wi Wh Bi Bh) := by
  obtain ⟨e00, e01, e10, e11, e20, e21, e30, e31, e40, e41, e50, e51, e60, e61⟩ := idx_facts2 t
  have ht : t.val < 8 := (show t.val < grid2.N from t.isLt).trans_eq N_2
  funext j
  obtain ⟨p, q, rfl⟩ : ∃ (p : Fin 6272) (q : Fin 64), j = ix2 p q := ⟨j 0, j 1, eq_ix2 j⟩
  have hemb : ((cfg2.win 6).blk t).view.emb (ix2 p q) = ix2 (⟨t.val * 6272 + p.val, by omega⟩ : Fin 50176) q :=
    Shape.idx_ext₂ (show win2_6.index t (0 : Fin 2) * 6272 + 1 * p.val = t.val * 6272 + p.val by omega)
      (show win2_6.index t (1 : Fin 2) * 64 + 1 * q.val = q.val by omega)
  show k2_pay1 (rd2 0 t A) (rd2 1 t H) (rd2 2 t Wi) (rd2 3 t Wh) (rd2 4 t Bi) (rd2 5 t Bh) (rd2 1 t H) (ix2 p q)
    = G2 A H Wi Wh Bi Bh (((cfg2.win 6).blk t).view.emb (ix2 p q))
  rw [hemb]
  refine cell_of_rows2 A H Wi Wh Bi Bh (rd2 0 t A) (rd2 1 t H) (rd2 2 t Wi) (rd2 3 t Wh) (rd2 4 t Bi) (rd2 5 t Bh) p ⟨t.val * 6272 + p.val, by omega⟩ q ?_ ?_ ?_ ?_ ?_ ?_
  · exact fun l => congrArg A (Shape.idx_ext₂ (show win2_0.index t (0 : Fin 2) * 6272 + 1 * p.val = t.val * 6272 + p.val by omega)
      (show win2_0.index t (1 : Fin 2) * 64 + 1 * l.val = l.val by omega))
  · exact fun l => congrArg H (Shape.idx_ext₂ (show win2_1.index t (0 : Fin 2) * 6272 + 1 * p.val = t.val * 6272 + p.val by omega)
      (show win2_1.index t (1 : Fin 2) * 64 + 1 * l.val = l.val by omega))
  · exact fun l j => congrArg Wi (Shape.idx_ext₂ (show win2_2.index t (0 : Fin 2) * 64 + 1 * l.val = l.val by omega)
      (show win2_2.index t (1 : Fin 2) * 192 + 1 * j.val = j.val by omega))
  · exact fun l j => congrArg Wh (Shape.idx_ext₂ (show win2_3.index t (0 : Fin 2) * 64 + 1 * l.val = l.val by omega)
      (show win2_3.index t (1 : Fin 2) * 192 + 1 * j.val = j.val by omega))
  · exact fun j => congrArg Bi (Shape.idx_ext₂ (show win2_4.index t (0 : Fin 2) * 1 + 1 * (0 : Fin 1).val = (0 : Fin 1).val by omega)
      (show win2_4.index t (1 : Fin 2) * 192 + 1 * j.val = j.val by omega))
  · exact fun j => congrArg Bh (Shape.idx_ext₂ (show win2_5.index t (0 : Fin 2) * 1 + 1 * (0 : Fin 1).val = (0 : Fin 1).val by omega)
      (show win2_5.index t (1 : Fin 2) * 192 + 1 * j.val = j.val by omega))

theorem cover2 (i : S50176x64.Idx) :
    ∃ t : Fin cfg2.N, (cfg2.win 6).flush t = true ∧ i ∈ ((cfg2.win 6).blk t).view.set := by
  have hi : (i 0).val < 50176 := (i 0).isLt
  have hN : cfg2.N = 8 := N_2
  obtain ⟨t, ht⟩ : ∃ t : Fin cfg2.N, t.val = (i 0).val / 6272 := ⟨⟨(i 0).val / 6272, by rw [hN]; omega⟩, rfl⟩
  obtain ⟨-, -, -, -, -, -, -, -, -, -, -, -, e60, e61⟩ := idx_facts2 t
  have h : ((cfg2.win 6).blk t).view.emb (ix2 ⟨(i 0).val % 6272, Nat.mod_lt _ (by decide)⟩ (i 1)) = i :=
    Shape.idx_ext₂ (show win2_6.index t (0 : Fin 2) * 6272 + 1 * ((i 0).val % 6272) = (i 0).val by omega)
      (show win2_6.index t (1 : Fin 2) * 64 + 1 * (i 1).val = (i 1).val by omega)
  exact ⟨t, flush2_6 t, h ▸ View.emb_mem_set _ _⟩

variable (V : (c : Dev nD) → (b : Ref sig .tc) → Buf (Elt Ideal) ((c : Thread nD τ).loc b))

theorem final2 (c : Dev nD) : (dat2 V c).arrAt 6 cfg2.N = G2 (V c main_v16) (V c main_v0) (V c main_v9) (V c main_v10) (V c main_v11) (V c main_v12) :=
  (dat2 V c).arrAt_eq_of_cover 6 _ (fun t _ => by
    show (cfg2.win 6).cut (grid2.coords t) ((dat2 V c).after 6 t) = _
    rw [after2_6, out2_6_eq]
    exact flushed2_eq (V c main_v16) (V c main_v0) (V c main_v9) (V c main_v10) (V c main_v11) (V c main_v12) t) cover2

theorem val2 (c : Dev nD) :
    Cert.Spec.mat ((dat2 V c).arrAt 6 cfg2.N)
      = Cert.Spec.gru (Cert.Spec.mat (V c main_v16)) (Cert.Spec.mat (V c main_v0)) (Cert.Spec.mat (V c main_v9)) (Cert.Spec.mat (V c main_v10)) (Cert.Spec.row0 (V c main_v11)) (Cert.Spec.row0 (V c main_v12)) := by
  rw [final2]
  rfl

end Cert.KernelIdeal.Hand

end
-- ==== Proof.KI.Val3.lean ====
import proofs.«413690_j74569222193909_1_alg».proof.Proof.KI.Reg3
import proofs.«413690_j74569222193909_1_alg».proof.Proof.KI.Val0

namespace Cert.KernelIdeal.Hand

open Cert.KernelIdeal Idealize.ShloMosaic Idealize.ShloMosaic.TcCoe

variable (V : (c : Dev nD) → (b : Ref sig .tc) → Buf (Elt Ideal) ((c : Thread nD τ).loc b))

-- cfg3 is cfg0 over other arrays (same grid, index maps and block sizes), so its blocks are cfg0's index sets
theorem val3 (c : Dev nD) :
    Cert.Spec.mat ((dat3 V c).arrAt 2 cfg3.N) = Cert.Spec.mm (Cert.Spec.mat (V c main_v17)) (Cert.Spec.mat (V c main_v19)) :=
  congrArg Cert.Spec.mat ((dat3 V c).arrAt_eq_of_cover 2 (mmArr0 (V c main_v17) (V c main_v19)) (fun t _ => by
    show (cfg3.win 2).cut (grid3.coords t) ((dat3 V c).after 2 t) = _
    rw [after3_2]
    exact flushed0_2_eq (V c main_v17) (V c main_v19) t) cover_arr0_2)

end Cert.KernelIdeal.Hand
-- ==== Proof.KI.Val4Point.lean ====
import proofs.«413690_j74569222193909_1_alg».proof.Proof.KI.Reg4
import proofs.«413690_j74569222193909_1_alg».proof.Proof.KI.Val1Point
import proofs.«413690_j74569222193909_1_alg».proof.Proof.Spec
import proofs.«413690_j74569222193909_1_alg».proof.Proof.MsgSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem iblk4_0_eq (c : Dev nD) (t : Fin cfg4.N) : iblk4 V c 0 t = iblk1 V c 0 t := rfl
theorem iblk4_1_eq (c : Dev nD) (t : Fin cfg4.N) : iblk4 V c 1 t = iblk1 V c 1 t := rfl

theorem idx4_2 : ∀ t : Fin cfg4.N, win4_2.index t (0 : Fin 2) = 0 ∧ win4_2.index t (1 : Fin 2) = 0 :=
  (by decide +kernel : ∀ t : Fin grid4.N, _)

theorem iblk4_2_apply (c : Dev nD) (t : Fin cfg4.N) (n : Fin 50176) (q : Fin 64) :
    iblk4 V c 2 t (ix2 n q) = V c main_v20 (ix2 n q) := by
  obtain ⟨e20, e21⟩ := idx4_2 t
  unfold iblk4
  rw [View.read_apply]
  show V c main_v20 _ = V c main_v20 _
  congr 1
  funext a; apply Fin.ext
  match a with
  | ⟨0, _⟩ => show win4_2.index t (0 : Fin 2) * 50176 + 1 * n.val = n.val; rw [e20]; omega
  | ⟨1, _⟩ => show win4_2.index t (1 : Fin 2) * 64 + 1 * q.val = q.val; rw [e21]; omega

theorem msgOf4_iblk (c : Dev nD) (t : Fin cfg4.N) (r : Fin 640) (q : Fin 64) :
    msgOf1 (iblk4 V c 0 t) (iblk4 V c 2 t) r q
      = Cert.Spec.gath (Cert.Spec.col0 (V c main_v5)) (Cert.Spec.mat (V c main_v20)) ⟨640 * t.val + r.val, blk1 t r⟩ q := by
  unfold msgOf1 gterm1 Cert.Spec.gath
  simp only [iblk4_0_eq, iblk1_0_apply, iblk4_2_apply]
  exact Cert.Spec.gath_blocks (S := 14) (R := 3584) (Cert.Spec.col0 (V c main_v5) ⟨640 * t.val + r.val, blk1 t r⟩)
    (Cert.Spec.mat (V c main_v20)) q

theorem point4_A (c : Dev nD) (t : Fin cfg4.N) (h0 : t.val % 1250 = 0) :
    Cert.Spec.mat (outsAt4 V c t.val t.isLt)
      = Cert.Spec.pointAdd (B := 640) (N := 50176) (D := 64)
          (fun r => Cert.Spec.row0 (V c main_v8) ⟨640 * t.val + r.val, blk1 t r⟩)
          (fun r q => Cert.Spec.gath (Cert.Spec.col0 (V c main_v5)) (Cert.Spec.mat (V c main_v20)) ⟨640 * t.val + r.val, blk1 t r⟩ q)
          (fun _ _ => 0) := by
  funext n q
  show outsAt4 V c t.val t.isLt (ix2 n q) = _
  rw [outsAt4_A V c t h0, outA4, out1_A_3_apply]
  unfold Cert.Spec.pointAdd
  congr 1
  exact Finset.sum_congr rfl fun r _ => by rw [iblk4_1_eq, iblk1_1_apply, msgOf4_iblk]

theorem point4_B (c : Dev nD) (t : Fin cfg4.N) (h0 : ¬ t.val % 1250 = 0) :
    Cert.Spec.mat (outsAt4 V c t.val t.isLt)
      = Cert.Spec.pointAdd (B := 640) (N := 50176) (D := 64)
          (fun r => Cert.Spec.row0 (V c main_v8) ⟨640 * t.val + r.val, blk1 t r⟩)
          (fun r q => Cert.Spec.gath (Cert.Spec.col0 (V c main_v5)) (Cert.Spec.mat (V c main_v20)) ⟨640 * t.val + r.val, blk1 t r⟩ q)
          (Cert.Spec.mat (outsAt4 V c (t.val - 1) (Nat.lt_of_le_of_lt (Nat.sub_le _ _) t.isLt))) := by
  funext n q
  show outsAt4 V c t.val t.isLt (ix2 n q) = _
  rw [outsAt4_B V c t h0, outB4, out1_B_3_apply]
  unfold Cert.Spec.pointAdd
  congr 1
  exact Finset.sum_congr rfl fun r _ => by rw [iblk4_1_eq, iblk1_1_apply, msgOf4_iblk]

end Cert.KernelIdeal.Hand

end
-- ==== Proof.KI.Val4Last.lean ====
import proofs.«413690_j74569222193909_1_alg».proof.Proof.KI.Reg4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

theorem last_lt4 : 1249 < cfg4.N := by rw [show cfg4.N = 1250 from N_4]; decide
def tLast4 : Fin cfg4.N := ⟨1249, last_lt4⟩

abbrev res4_3 (c : Dev nD) : Buf (Elt F) ((c : Thread nD τ).loc main_v21) := outsAt4 V c 1249 last_lt4

theorem idx4_3 : ∀ t : Fin cfg4.N, win4_3.index t (0 : Fin 2) = 0 ∧ win4_3.index t (1 : Fin 2) = 0 :=
  (by decide +kernel : ∀ t : Fin grid4.N, _)

theorem whole_blk4_3 (c : Dev nD) (X : Buf (Elt F) ((c : Thread nD τ).loc main_v21)) :
    (cfg4.win 3).cut (grid4.coords tLast4) X = ((cfg4.win 3).blk tLast4).view.read (Elt F) X := by
  obtain ⟨e0, e1⟩ := idx4_3 tLast4
  have hz : (fun a => win4_3.index tLast4 a * main_v21.ty.shape.size a) = fun _ => 0 := funext fun a => by
    match a with
    | ⟨0, _⟩ => show win4_3.index tLast4 (0 : Fin 2) * 50176 = 0; rw [e0]
    | ⟨1, _⟩ => show win4_3.index tLast4 (1 : Fin 2) * 64 = 0; rw [e1]
  exact (Memref.read_access_unit_zero (Elt F) main_v21 hz (fun a => by rw [congrFun hz a]; simp) X).symm

theorem flushed4_3_eq (c : Dev nD) (t : Fin cfg4.N) (hf : (cfg4.win 3).flush t = true) :
    (dat4 V c).flushed 3 t = ((cfg4.win 3).blk t).view.read (Elt F) (res4_3 V c) := by
  have hN : cfg4.N = 1250 := N_4
  have hl : t.val = 1249 := by have := (flush4_3 t).mp hf; have := t.isLt; omega
  obtain rfl : t = tLast4 := Fin.ext hl
  show (cfg4.win 3).cut (grid4.coords tLast4) ((dat4 V c).after 3 tLast4) = _
  rw [after4_3]
  exact whole_blk4_3 c _

theorem cover_arr4_3 (i : S50176x64.Idx) : ∃ t : Fin cfg4.N, (cfg4.win 3).flush t = true ∧ i ∈ ((cfg4.win 3).blk t).view.set := by
  refine ⟨tLast4, (flush4_3 tLast4).mpr rfl, ?_⟩
  show i ∈ ((View.whole main_v21).slice (win4_3.rect tLast4)).set
  rw [View.set_slice_whole, Rect.mem_set_unit]
  obtain ⟨e0, e1⟩ := idx4_3 tLast4
  have h0 : (i 0 : Nat) < 50176 := (i 0).isLt
  have h1 : (i 1 : Nat) < 64 := (i 1).isLt
  intro a
  match a with
  | ⟨0, _⟩ => show win4_3.index tLast4 (0 : Fin 2) * 50176 ≤ (i 0 : Nat) ∧ (i 0 : Nat) < win4_3.index tLast4 (0 : Fin 2) * 50176 + 50176; omega
  | ⟨1, _⟩ => show win4_3.index tLast4 (1 : Fin 2) * 64 ≤ (i 1 : Nat) ∧ (i 1 : Nat) < win4_3.index tLast4 (1 : Fin 2) * 64 + 64; omega

theorem last4 (c : Dev nD) : (dat4 V c).arrAt 3 cfg4.N = outsAt4 V c 1249 last_lt4 :=
  (dat4 V c).arrAt_eq_of_cover 3 (res4_3 V c) (flushed4_3_eq V c) cover_arr4_3

end Cert.KernelIdeal.Hand

end
-- ==== Proof.KI.Val4.lean ====
import proofs.«413690_j74569222193909_1_alg».proof.Proof.KI.Val4Point
import proofs.«413690_j74569222193909_1_alg».proof.Proof.KI.Val4Last
import proofs.«413690_j74569222193909_1_alg».proof.Proof.KI.Val1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

theorem val4 (c : Dev nD) :
    Cert.Spec.mat ((dat4 V c).arrAt 3 cfg4.N)
      = Cert.Spec.msgp (N := 50176) (E := 800000) (Cert.Spec.col0 (V c main_v5)) (Cert.Spec.row0 (V c main_v8)) (Cert.Spec.mat (V c main_v20)) :=
  (congrArg Cert.Spec.mat (last4 V c)).trans (msgp_of_points (N := cfg4.N) N_4 _ _ _ _ (point4_A V c) (point4_B V c))

end Cert.KernelIdeal.Hand

end
-- ==== Proof.KI.Val5.lean ====
import proofs.«413690_j74569222193909_1_alg».proof.Proof.KI.Reg5
import proofs.«413690_j74569222193909_1_alg».proof.Proof.KI.Val2

namespace Cert.KernelIdeal.Hand

open Cert.KernelIdeal Cert.KernelIdeal.Gen Idealize.ShloMosaic Idealize.ShloMosaic.TcCoe

theorem out5_6_eq (a h : Vec Ideal S6272x64 .f32) (wi wh : Vec Ideal S64x192 .f32) (bi bh : Vec Ideal S1x192 .f32) :
    out5_6 (F := Ideal) a h wi wh bi bh = k5_pay1 (k2_pay1 a h wi wh bi bh h) := by
  unfold out5_6
  rw [View.canon_unit_zero hz2]
  simp only [View.ld_unit_zero (S := S6272x64) hz2, View.ld_unit_zero (S := S64x192) hz2, View.ld_unit_zero (S := S1x192) hz2]
  rfl

variable (V : (c : Dev nD) → (b : Ref sig .tc) → Buf (Elt Ideal) ((c : Thread nD τ).loc b))

-- cfg5 is cfg2 over other arrays, and its payload is region 2's followed by a maximum with zero
theorem val5 (c : Dev nD) :
    Cert.Spec.mat ((dat5 V c).arrAt 6 cfg5.N)
      = Cert.Spec.gruRelu (Cert.Spec.mat (V c main_v21)) (Cert.Spec.mat (V c main_v17)) (Cert.Spec.mat (V c main_v9)) (Cert.Spec.mat (V c main_v10)) (Cert.Spec.row0 (V c main_v11)) (Cert.Spec.row0 (V c main_v12)) :=
  congrArg Cert.Spec.mat ((dat5 V c).arrAt_eq_of_cover 6
    (fun i => (max (G2 (V c main_v21) (V c main_v17) (V c main_v9) (V c main_v10) (V c main_v11) (V c main_v12) i) Cert.Spec.zero : EReal)) (fun t _ => by
    show (cfg5.win 6).cut (grid5.coords t) ((dat5 V c).after 6 t) = _
    rw [after5_6, out5_6_eq]
    exact funext fun j => congrArg (max · Cert.Spec.zero)
      (congrFun (flushed2_eq (V c main_v21) (V c main_v17) (V c main_v9) (V c main_v10) (V c main_v11) (V c main_v12) t) j)) cover2)

end Cert.KernelIdeal.Hand
-- ==== Proof.KI.Val6Piece.lean ====
import proofs.«413690_j74569222193909_1_alg».proof.Proof.KI.Reg6
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz6 : (![0, 0] : Fin 2 → Nat) = fun _ => 0 := funext fun a => by fin_cases a <;> rfl

section
variable (c : Dev nD) (i : grid6.Coords) (arg1 : Memref sig .tc .vmem S6272x64 .f32) (harg1 : arg1.IsWhole) (arg2 : Memref sig .tc .vmem S6272x1 .i32) (harg2 : arg2.IsWhole) (arg3 : Memref sig .tc .vmem S128x64 .f32) (harg3 : arg3.IsWhole) (arg4 : Memref sig .tc .vmem S128x1 .f32) (harg4 : arg4.IsWhole)
  (x0 : Vec F S6272x64 .f32) (x1 : Vec F S6272x1 .i32)

theorem out6_A_2_eq (hc0 : cond6_0 i) :
    out6_A_2 c i arg1 harg1 arg2 harg2 arg3 harg3 arg4 harg4 hc0 x0 x1 = k6_pay4 x1 x0 (k6_pay1 (F := F)) := by
  unfold out6_A_2
  rw [View.read_writes_eq_canon _ _ _ (cover6_A_2 c i arg1 harg1 arg2 harg2 arg3 harg3 arg4 harg4 hc0 x0 x1)]
  unfold kernelRun6_A
  dsimp only
  sl_unfold_words
  rw [View.canon_cons_unit_zero (S := S128x64) hz6, View.readCov_unit_zero (S := S128x64) _ hz6]
  simp only [View.readAt_eq_ld, harg1.read_unread, harg2.read_unread, View.ld_unit_zero (S := S6272x64) hz6,
    View.ld_unit_zero (S := S6272x1) hz6]

theorem out6_A_3_eq (hc0 : cond6_0 i) :
    out6_A_3 c i arg1 harg1 arg2 harg2 arg3 harg3 arg4 harg4 hc0 x0 x1 = k6_pay5 x1 (k6_pay2 (F := F)) := by
  unfold out6_A_3
  rw [View.read_writes_eq_canon _ _ _ (cover6_A_3 c i arg1 harg1 arg2 harg2 arg3 harg3 arg4 harg4 hc0 x0 x1)]
  unfold kernelRun6_A
  dsimp only
  sl_unfold_words
  rw [View.canon_cons_unit_zero (S := S128x1) hz6, View.readCov_unit_zero (S := S128x1) _ hz6]
  simp only [View.readAt_eq_ld, harg1.read_unread, harg2.read_unread, View.ld_unit_zero (S := S6272x64) hz6,
    View.ld_unit_zero (S := S6272x1) hz6]

theorem out6_B_2_eq (hc0 : ¬cond6_0 i) (xo2 : Vec F S128x64 .f32) (xo3 : Vec F S128x1 .f32) :
    out6_B_2 c i arg1 harg1 arg2 harg2 arg3 harg3 arg4 harg4 hc0 x0 x1 xo2 xo3 = k6_pay4 x1 x0 xo2 := by
  unfold out6_B_2
  rw [View.read_writes_eq_canon _ _ _ (cover6_B_2 c i arg1 harg1 arg2 harg2 arg3 harg3 arg4 harg4 hc0 x0 x1 xo2 xo3)]
  unfold kernelRun6_B
  dsimp only
  sl_unfold_words
  rw [View.canon_unit_zero hz6]
  simp only [View.readAt_eq_ld, harg1.read_unread, harg2.read_unread, harg3.read_unread, harg4.read_unread,
    View.ld_unit_zero (S := S6272x64) hz6, View.ld_unit_zero (S := S6272x1) hz6, View.ld_unit_zero (S := S128x64) hz6,
    View.ld_unit_zero (S := S128x1) hz6]

theorem out6_B_3_eq (hc0 : ¬cond6_0 i) (xo2 : Vec F S128x64 .f32) (xo3 : Vec F S128x1 .f32) :
    out6_B_3 c i arg1 harg1 arg2 harg2 arg3 harg3 arg4 harg4 hc0 x0 x1 xo2 xo3 = k6_pay5 x1 xo3 := by
  unfold out6_B_3
  rw [View.read_writes_eq_canon _ _ _ (cover6_B_3 c i arg1 harg1 arg2 harg2 arg3 harg3 arg4 harg4 hc0 x0 x1 xo2 xo3)]
  unfold kernelRun6_B
  dsimp only
  sl_unfold_words
  rw [View.canon_unit_zero hz6]
  simp only [View.readAt_eq_ld, harg1.read_unread, harg2.read_unread, harg3.read_unread, harg4.read_unread,
    View.ld_unit_zero (S := S6272x64) hz6, View.ld_unit_zero (S := S6272x1) hz6, View.ld_unit_zero (S := S128x64) hz6,
    View.ld_unit_zero (S := S128x1) hz6]

end

variable (V : (c : Dev nD) → (b : Ref sig .tc) → Buf (Elt F) ((c : Thread nD τ).loc b))

theorem outs6_A_fst (c : Dev nD) (t : Fin cfg6.N) (h0 : t.val % 8 = 0) :
    (outs6_A V c t h0).1 = k6_pay4 (iblk6 V c 1 t) (iblk6 V c 0 t) (k6_pay1 (F := F)) :=
  out6_A_2_eq c (grid6.coords t) (ms6_0 t) (hs6_0 t) (ms6_1 t) (hs6_1 t) (ms6_2 t) (hs6_2 t) (ms6_3 t) (hs6_3 t) (iblk6 V c 0 t) (iblk6 V c 1 t) ((hcond6_0 t).mpr h0)

theorem outs6_A_snd (c : Dev nD) (t : Fin cfg6.N) (h0 : t.val % 8 = 0) :
    (outs6_A V c t h0).2 = k6_pay5 (iblk6 V c 1 t) (k6_pay2 (F := F)) :=
  out6_A_3_eq c (grid6.coords t) (ms6_0 t) (hs6_0 t) (ms6_1 t) (hs6_1 t) (ms6_2 t) (hs6_2 t) (ms6_3 t) (hs6_3 t) (iblk6 V c 0 t) (iblk6 V c 1 t) ((hcond6_0 t).mpr h0)

theorem outs6_B_fst (c : Dev nD) (t : Fin cfg6.N) (h0 : ¬t.val % 8 = 0) (p : Vec F S128x64 .f32 × Vec F S128x1 .f32) :
    (outs6_B V c t h0 p).1 = k6_pay4 (iblk6 V c 1 t) (iblk6 V c 0 t) p.1 :=
  out6_B_2_eq c (grid6.coords t) (ms6_0 t) (hs6_0 t) (ms6_1 t) (hs6_1 t) (ms6_2 t) (hs6_2 t) (ms6_3 t) (hs6_3 t) (iblk6 V c 0 t) (iblk6 V c 1 t) (fun h => h0 ((hcond6_0 t).mp h)) p.1 p.2

theorem outs6_B_snd (c : Dev nD) (t : Fin cfg6.N) (h0 : ¬t.val % 8 = 0) (p : Vec F S128x64 .f32 × Vec F S128x1 .f32) :
    (outs6_B V c t h0 p).2 = k6_pay5 (iblk6 V c 1 t) p.2 :=
  out6_B_3_eq c (grid6.coords t) (ms6_0 t) (hs6_0 t) (ms6_1 t) (hs6_1 t) (ms6_2 t) (hs6_2 t) (ms6_3 t) (hs6_3 t) (iblk6 V c 0 t) (iblk6 V c 1 t) (fun h => h0 ((hcond6_0 t).mp h)) p.1 p.2

end Cert.KernelIdeal.Hand

end
-- ==== Proof.KI.Val6.lean ====
import proofs.«413690_j74569222193909_1_alg».proof.Proof.KI.Val6Piece
import proofs.«413690_j74569222193909_1_alg».proof.Proof.Spec
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open scoped BigOperators

theorem ind6 (a b : BitVec 32) :
    (FloatOps.sitofp (F := Ideal) .f32 (BitVec.setWidth 32 (IntOp.cmpi .eq a b)) : EReal) = Cert.Spec.hot a b := by
  unfold Cert.Spec.hot
  by_cases h : a = b
  · subst h
    rw [if_pos rfl]
    show (((BitVec.setWidth 32 (IntOp.cmpi .eq a a)).toInt : ℝ) : EReal) = 1
    have e : IntOp.cmpi .eq a a = 1#1 := by simp [IntOp.cmpi]
    rw [e]
    have e2 : (BitVec.setWidth 32 (1#1)).toInt = 1 := by decide
    rw [e2]; simp
  · rw [if_neg h]
    show (((BitVec.setWidth 32 (IntOp.cmpi .eq a b)).toInt : ℝ) : EReal) = 0
    have hb : (a == b) = false := beq_eq_false_iff_ne.mpr h
    have e : IntOp.cmpi .eq a b = 0#1 := by simp [IntOp.cmpi, hb]
    rw [e]
    have e2 : (BitVec.setWidth 32 (0#1)).toInt = 0 := by decide
    rw [e2]; simp

theorem pay3_apply6 (v4 : Vec Ideal S6272x1 .i32) (r : Fin 6272) (g : Fin 128) :
    k6_pay3 (F := Ideal) v4 (ix2 r g) = Cert.Spec.hot (v4 (ix2 r 0)) (BitVec.ofNat 32 g.val) := by
  unfold k6_pay3
  (try dsimp only)
  rw [truncf_apply, sitofp_apply, extui_apply]
  rw [shapeCast_self]
  show FloatOps.sitofp (F := Ideal) .f32 (BitVec.setWidth 32 (IntOp.cmpi .eq
      (broadcastTo S6272x128 v4 broadcasts_S6272x1_S6272x128 (ix2 r g))
      (broadcastTo S6272x128 (iota Kind.tc S1x128 32 [1] iota_S1x128_d1_w32) broadcasts_S1x128_S6272x128 (ix2 r g)))) = _
  rw [broadcastTo_apply v4 broadcasts_S6272x1_S6272x128 (ix2 r g) (ix2 r 0) (fun a => by
      match a with
      | ⟨0, _⟩ => rfl
      | ⟨1, _⟩ => rfl), broadcastTo_1b_ab_apply]
  have hi : iota Kind.tc S1x128 32 [1] iota_S1x128_d1_w32 (ix2 0 g) = BitVec.ofNat 32 g.val := by
    show BitVec.ofNat 32 (0 * 128 + g.val) = _
    rw [Nat.zero_mul, Nat.zero_add]
  rw [hi]
  exact ind6 _ _

theorem lhs6_64_0 (j : S128x64.Idx) (k : dot_S6272x128_S6272x64_S128x64_0_0_1_1_n_n.contr.Idx) :
    (dot_S6272x128_S6272x64_S128x64_0_0_1_1_n_n.lhsIdx j k 0).val = (k ⟨0, by decide⟩).val :=
  dot_S6272x128_S6272x64_S128x64_0_0_1_1_n_n.lhsIdx_val_of_single rfl j k
theorem lhs6_64_1 (j : S128x64.Idx) (k : dot_S6272x128_S6272x64_S128x64_0_0_1_1_n_n.contr.Idx) :
    (dot_S6272x128_S6272x64_S128x64_0_0_1_1_n_n.lhsIdx j k 1).val = (j 0).val := by
  unfold DotDims.lhsIdx
  rw [dif_neg (show ¬(1 : Fin S6272x128.rank) ∈ dot_S6272x128_S6272x64_S128x64_0_0_1_1_n_n.lhsBatch by decide), dif_pos (show (1 : Fin S6272x128.rank) ∈ dot_S6272x128_S6272x64_S128x64_0_0_1_1_n_n.lhsNonContracting by decide)]
  rfl
theorem rhs6_64_0 (j : S128x64.Idx) (k : dot_S6272x128_S6272x64_S128x64_0_0_1_1_n_n.contr.Idx) :
    (dot_S6272x128_S6272x64_S128x64_0_0_1_1_n_n.rhsIdx j k 0).val = (k ⟨0, by decide⟩).val :=
  dot_S6272x128_S6272x64_S128x64_0_0_1_1_n_n.rhsIdx_val_of_single rfl j k
theorem rhs6_64_1 (j : S128x64.Idx) (k : dot_S6272x128_S6272x64_S128x64_0_0_1_1_n_n.contr.Idx) :
    (dot_S6272x128_S6272x64_S128x64_0_0_1_1_n_n.rhsIdx j k 1).val = (j 1).val := by
  unfold DotDims.rhsIdx
  rw [dif_neg (show ¬(1 : Fin S6272x64.rank) ∈ dot_S6272x128_S6272x64_S128x64_0_0_1_1_n_n.rhsBatch by decide), dif_pos (show (1 : Fin S6272x64.rank) ∈ dot_S6272x128_S6272x64_S128x64_0_0_1_1_n_n.rhsNonContracting by decide)]
  rfl

theorem pay4_apply6 (v4 : Vec Ideal S6272x1 .i32) (v12 : Vec Ideal S6272x64 .f32) (v18 : Vec Ideal S128x64 .f32) (g : Fin 128) (q : Fin 64) :
    k6_pay4 (F := Ideal) v4 v12 v18 (ix2 g q)
      = v18 (ix2 g q) + ∑ r : Fin 6272, Cert.Spec.hot (v4 (ix2 r 0)) (BitVec.ofNat 32 g.val) * v12 (ix2 r q) := by
  unfold k6_pay4
  (try dsimp only)
  rw [addf_apply, shapeCast_self]
  simp only [matmul]
  rw [Ideal.matmul_constant_zero_apply, ← Equiv.sum_comp (contrEquiv1 dot_S6272x128_S6272x64_S128x64_0_0_1_1_n_n 6272 rfl rfl).symm]
  refine congrArg (v18 (ix2 g q) + ·) (Finset.sum_congr rfl fun k _ => ?_)
  have hk := contrEquiv1_symm_val dot_S6272x128_S6272x64_S128x64_0_0_1_1_n_n 6272 rfl rfl k
  have el : dot_S6272x128_S6272x64_S128x64_0_0_1_1_n_n.lhsIdx (ix2 g q) ((contrEquiv1 dot_S6272x128_S6272x64_S128x64_0_0_1_1_n_n 6272 rfl rfl).symm k) = ix2 k g :=
    Shape.idx_ext₂ ((lhs6_64_0 _ _).trans hk) (lhs6_64_1 _ _)
  have er : dot_S6272x128_S6272x64_S128x64_0_0_1_1_n_n.rhsIdx (ix2 g q) ((contrEquiv1 dot_S6272x128_S6272x64_S128x64_0_0_1_1_n_n 6272 rfl rfl).symm k) = ix2 k q :=
    Shape.idx_ext₂ ((rhs6_64_0 _ _).trans hk) (rhs6_64_1 _ _)
  rw [el, er, pay3_apply6, truncf_apply, shapeCast_self]

theorem lhs6_1_0 (j : S128x1.Idx) (k : dot_S6272x128_S6272x1_S128x1_0_0_1_1_n_n.contr.Idx) :
    (dot_S6272x128_S6272x1_S128x1_0_0_1_1_n_n.lhsIdx j k 0).val = (k ⟨0, by decide⟩).val :=
  dot_S6272x128_S6272x1_S128x1_0_0_1_1_n_n.lhsIdx_val_of_single rfl j k
theorem lhs6_1_1 (j : S128x1.Idx) (k : dot_S6272x128_S6272x1_S128x1_0_0_1_1_n_n.contr.Idx) :
    (dot_S6272x128_S6272x1_S128x1_0_0_1_1_n_n.lhsIdx j k 1).val = (j 0).val := by
  unfold DotDims.lhsIdx
  rw [dif_neg (show ¬(1 : Fin S6272x128.rank) ∈ dot_S6272x128_S6272x1_S128x1_0_0_1_1_n_n.lhsBatch by decide), dif_pos (show (1 : Fin S6272x128.rank) ∈ dot_S6272x128_S6272x1_S128x1_0_0_1_1_n_n.lhsNonContracting by decide)]
  rfl

theorem pay5_apply6 (v4 : Vec Ideal S6272x1 .i32) (v22 : Vec Ideal S128x1 .f32) (g : Fin 128) :
    k6_pay5 (F := Ideal) v4 v22 (ix2 g 0)
      = v22 (ix2 g 0) + ∑ r : Fin 6272, Cert.Spec.hot (v4 (ix2 r 0)) (BitVec.ofNat 32 g.val) * Cert.Spec.oneN := by
  unfold k6_pay5
  (try dsimp only)
  rw [addf_apply, shapeCast_self]
  simp only [matmul]
  rw [Ideal.matmul_constant_zero_apply, ← Equiv.sum_comp (contrEquiv1 dot_S6272x128_S6272x1_S128x1_0_0_1_1_n_n 6272 rfl rfl).symm]
  refine congrArg (v22 (ix2 g 0) + ·) (Finset.sum_congr rfl fun k _ => ?_)
  have hk := contrEquiv1_symm_val dot_S6272x128_S6272x1_S128x1_0_0_1_1_n_n 6272 rfl rfl k
  have el : dot_S6272x128_S6272x1_S128x1_0_0_1_1_n_n.lhsIdx (ix2 g 0) ((contrEquiv1 dot_S6272x128_S6272x1_S128x1_0_0_1_1_n_n 6272 rfl rfl).symm k) = ix2 k g :=
    Shape.idx_ext₂ ((lhs6_1_0 _ _).trans hk) (lhs6_1_1 _ _)
  rw [el, pay3_apply6, broadcast_apply]
  rfl

theorem pay1_apply6 (j : S128x64.Idx) : k6_pay1 (F := Ideal) j = 0 := by
  show Ideal.ofBits .f32 0x00000000#32 = 0
  exact Ideal.ofBits_zero_f32
theorem pay2_apply6 (j : S128x1.Idx) : k6_pay2 (F := Ideal) j = 0 := by
  show Ideal.ofBits .f32 0x00000000#32 = 0
  exact Ideal.ofBits_zero_f32

variable (V : (c : Dev nD) → (b : Ref sig .tc) → Buf (Elt Ideal) ((c : Thread nD τ).loc b))

abbrev harr6 (c : Dev nD) : Vec Ideal S50176x64 .f32 := V c main_v22
abbrev barr6 (c : Dev nD) : Vec Ideal S50176x1 .i32 := V c main_v2
abbrev hblk6 (c : Dev nD) (t : Fin cfg6.N) : Vec Ideal S6272x64 .f32 := iblk6 V c 0 t
abbrev bblk6 (c : Dev nD) (t : Fin cfg6.N) : Vec Ideal S6272x1 .i32 := iblk6 V c 1 t

theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

def row6 (t : Fin cfg6.N) (r : Fin 6272) : Fin 50176 :=
  ⟨6272 * t.val + r.val, by have := t.isLt; have h8 : cfg6.N = 8 := N_6; have := r.isLt; omega⟩

theorem hblk6_apply (c : Dev nD) (t : Fin cfg6.N) (r : Fin 6272) (q : Fin 64) :
    hblk6 V c t (ix2 r q) = harr6 V c (ix2 (row6 t r) q) := by
  obtain ⟨e0, e1, -, -⟩ := idx_facts6 t
  exact congrArg (harr6 V c) (Shape.idx_ext₂ (show win6_0.index t (0 : Fin 2) * 6272 + 1 * r.val = 6272 * t.val + r.val by omega)
    (show win6_0.index t (1 : Fin 2) * 64 + 1 * q.val = q.val by omega))

theorem bblk6_apply (c : Dev nD) (t : Fin cfg6.N) (r : Fin 6272) :
    bblk6 V c t (ix2 r 0) = barr6 V c (ix2 (row6 t r) 0) := by
  obtain ⟨-, -, e0, e1⟩ := idx_facts6 t
  exact congrArg (barr6 V c) (Shape.idx_ext₂ (show win6_1.index t (0 : Fin 2) * 6272 + 1 * r.val = 6272 * t.val + r.val by omega)
    (show win6_1.index t (1 : Fin 2) * 1 + 1 * 0 = 0 by omega))

def blkSum6 (c : Dev nD) (t : Fin cfg6.N) (g : Fin 128) (q : Fin 64) : EReal :=
  ∑ r : Fin 6272, Cert.Spec.hot (bblk6 V c t (ix2 r 0)) (BitVec.ofNat 32 g.val) * hblk6 V c t (ix2 r q)
def blkCnt6 (c : Dev nD) (t : Fin cfg6.N) (g : Fin 128) : EReal :=
  ∑ r : Fin 6272, Cert.Spec.hot (bblk6 V c t (ix2 r 0)) (BitVec.ofNat 32 g.val) * Cert.Spec.oneN

def blkSumN6 (c : Dev nD) (g : Fin 128) (q : Fin 64) (k : ℕ) : EReal :=
  if h : k < cfg6.N then blkSum6 V c ⟨k, h⟩ g q else 0
def blkCntN6 (c : Dev nD) (g : Fin 128) (k : ℕ) : EReal :=
  if h : k < cfg6.N then blkCnt6 V c ⟨k, h⟩ g else 0

theorem blkSumN6_of_lt (c : Dev nD) (g : Fin 128) (q : Fin 64) (k : ℕ) (h : k < cfg6.N) :
    blkSumN6 V c g q k = blkSum6 V c ⟨k, h⟩ g q := by
  unfold blkSumN6; exact dif_pos h
theorem blkCntN6_of_lt (c : Dev nD) (g : Fin 128) (k : ℕ) (h : k < cfg6.N) :
    blkCntN6 V c g k = blkCnt6 V c ⟨k, h⟩ g := by
  unfold blkCntN6; exact dif_pos h

theorem outsAt6_sum (c : Dev nD) (g : Fin 128) (q : Fin 64) : ∀ (n : ℕ) (h : n < cfg6.N),
    (outsAt6 V c n h).1 (ix2 g q) = ∑ k ∈ Finset.range (n + 1), blkSumN6 V c g q k
  | 0, h => by
    rw [outsAt6_A V c ⟨0, h⟩ rfl, outs6_A_fst V c ⟨0, h⟩ rfl,
      pay4_apply6 (bblk6 V c ⟨0, h⟩) (hblk6 V c ⟨0, h⟩) (k6_pay1 (F := Ideal)) g q, pay1_apply6, zero_add, Finset.sum_range_one]
    exact (blkSumN6_of_lt V c g q 0 h).symm
  | n + 1, h => by
    have hN : cfg6.N = 8 := N_6
    have hB : ¬(⟨n + 1, h⟩ : Fin cfg6.N).val % 8 = 0 := by dsimp only; omega
    rw [outsAt6_B V c ⟨n + 1, h⟩ hB, outs6_B_fst V c ⟨n + 1, h⟩ hB,
      pay4_apply6 (bblk6 V c ⟨n + 1, h⟩) (hblk6 V c ⟨n + 1, h⟩) _ g q, Finset.sum_range_succ]
    refine congr (congrArg HAdd.hAdd ?_) ?_
    · exact outsAt6_sum c g q n (Nat.lt_of_succ_lt h)
    · exact (blkSumN6_of_lt V c g q (n + 1) h).symm

theorem outsAt6_cnt (c : Dev nD) (g : Fin 128) : ∀ (n : ℕ) (h : n < cfg6.N),
    (outsAt6 V c n h).2 (ix2 g 0) = ∑ k ∈ Finset.range (n + 1), blkCntN6 V c g k
  | 0, h => by
    rw [outsAt6_A V c ⟨0, h⟩ rfl, outs6_A_snd V c ⟨0, h⟩ rfl,
      pay5_apply6 (bblk6 V c ⟨0, h⟩) (k6_pay2 (F := Ideal)) g, pay2_apply6, zero_add, Finset.sum_range_one]
    exact (blkCntN6_of_lt V c g 0 h).symm
  | n + 1, h => by
    have hN : cfg6.N = 8 := N_6
    have hB : ¬(⟨n + 1, h⟩ : Fin cfg6.N).val % 8 = 0 := by dsimp only; omega
    rw [outsAt6_B V c ⟨n + 1, h⟩ hB, outs6_B_snd V c ⟨n + 1, h⟩ hB,
      pay5_apply6 (bblk6 V c ⟨n + 1, h⟩) _ g, Finset.sum_range_succ]
    refine congr (congrArg HAdd.hAdd ?_) ?_
    · exact outsAt6_cnt c g n (Nat.lt_of_succ_lt h)
    · exact (blkCntN6_of_lt V c g (n + 1) h).symm

def rowEquiv6 : Fin 8 × Fin 6272 ≃ Fin 50176 where
  toFun p := ⟨6272 * p.1.val + p.2.val, by have := p.1.isLt; have := p.2.isLt; omega⟩
  invFun i := (⟨i.val / 6272, by have := i.isLt; omega⟩, ⟨i.val % 6272, Nat.mod_lt _ (by decide)⟩)
  left_inv p := by
    obtain ⟨⟨a, ha⟩, ⟨b, hb⟩⟩ := p
    refine Prod.ext (Fin.ext ?_) (Fin.ext ?_)
    · show (6272 * a + b) / 6272 = a; omega
    · show (6272 * a + b) % 6272 = b; omega
  right_inv i := by
    refine Fin.ext ?_
    show 6272 * (i.val / 6272) + i.val % 6272 = i.val; omega

theorem sum_rows6 (f : Fin 50176 → EReal) : ∑ i, f i = ∑ t : Fin 8, ∑ r : Fin 6272, f (rowEquiv6 (t, r)) := by
  rw [← Equiv.sum_comp rowEquiv6 f, Fintype.sum_prod_type]

theorem sum_all6 (c : Dev nD) (g : Fin 128) (q : Fin 64) :
    ∑ k ∈ Finset.range 8, blkSumN6 V c g q k
      = ∑ i : Fin 50176, Cert.Spec.hot (barr6 V c (ix2 i 0)) (BitVec.ofNat 32 g.val) * harr6 V c (ix2 i q) := by
  rw [Finset.sum_range, sum_rows6]
  refine Finset.sum_congr rfl fun t _ => ?_
  have ht : t.val < cfg6.N := lt_of_lt_of_eq t.isLt N_6.symm
  rw [blkSumN6_of_lt V c g q t.val ht]
  unfold blkSum6
  refine Finset.sum_congr rfl fun r _ => ?_
  rw [bblk6_apply, hblk6_apply]
  rfl

theorem cnt_all6 (c : Dev nD) (g : Fin 128) :
    ∑ k ∈ Finset.range 8, blkCntN6 V c g k
      = ∑ i : Fin 50176, Cert.Spec.hot (barr6 V c (ix2 i 0)) (BitVec.ofNat 32 g.val) * Cert.Spec.oneN := by
  rw [Finset.sum_range, sum_rows6]
  refine Finset.sum_congr rfl fun t _ => ?_
  have ht : t.val < cfg6.N := lt_of_lt_of_eq t.isLt N_6.symm
  rw [blkCntN6_of_lt V c g t.val ht]
  unfold blkCnt6
  refine Finset.sum_congr rfl fun r _ => ?_
  rw [bblk6_apply]
  rfl

abbrev res6_2 (c : Dev nD) : Buf (Elt Ideal) ((c : Thread nD τ).loc main_v23_0) :=
  (outsAt6 V c 7 (by rw [show cfg6.N = 8 from N_6]; decide)).1
abbrev res6_3 (c : Dev nD) : Buf (Elt Ideal) ((c : Thread nD τ).loc main_v23_1) :=
  (outsAt6 V c 7 (by rw [show cfg6.N = 8 from N_6]; decide)).2

theorem flushed6_2_eq (c : Dev nD) (t : Fin cfg6.N) (hf : (cfg6.win 2).flush t = true) :
    (dat6 V c).flushed 2 t = ((cfg6.win 2).blk t).view.read (Elt Ideal) (res6_2 V c) := by
  have hN : cfg6.N = 8 := N_6
  have h7 : t.val = 7 := by have := (flush6_2 t).mp hf; have := t.isLt; omega
  obtain rfl : t = t6_7 := Fin.ext h7
  show (cfg6.win 2).cut (grid6.coords t6_7) ((dat6 V c).after 2 t6_7) = _
  rw [after6_2]
  have hz' : (fun a => win6_2.index t6_7 a * main_v23_0.ty.shape.size a) = fun _ => 0 := funext fun a => by fin_cases a <;> decide
  exact (Memref.read_access_unit_zero (Elt Ideal) main_v23_0 hz' (fun a => by rw [congrFun hz' a]; simp) (res6_2 V c)).symm

theorem flushed6_3_eq (c : Dev nD) (t : Fin cfg6.N) (hf : (cfg6.win 3).flush t = true) :
    (dat6 V c).flushed 3 t = ((cfg6.win 3).blk t).view.read (Elt Ideal) (res6_3 V c) := by
  have hN : cfg6.N = 8 := N_6
  have h7 : t.val = 7 := by have := (flush6_3 t).mp hf; have := t.isLt; omega
  obtain rfl : t = t6_7 := Fin.ext h7
  show (cfg6.win 3).cut (grid6.coords t6_7) ((dat6 V c).after 3 t6_7) = _
  rw [after6_3]
  have hz' : (fun a => win6_3.index t6_7 a * main_v23_1.ty.shape.size a) = fun _ => 0 := funext fun a => by fin_cases a <;> decide
  exact (Memref.read_access_unit_zero (Elt Ideal) main_v23_1 hz' (fun a => by rw [congrFun hz' a]; simp) (res6_3 V c)).symm

theorem final6_2 (c : Dev nD) : (dat6 V c).arrAt 2 cfg6.N = res6_2 V c :=
  (dat6 V c).arrAt_eq_of_cover 2 (res6_2 V c) (flushed6_2_eq V c) fun i =>
    ⟨t6_7, (flush6_2 t6_7).mpr rfl, (show ((cfg6.win 2).blk t6_7).view.emb i = i from
      Shape.idx_ext₂ (win6_2.rect_emb_val_of_index_zero t6_7 0 (by decide +kernel) i)
        (win6_2.rect_emb_val_of_index_zero t6_7 1 (by decide +kernel) i)) ▸ View.emb_mem_set _ _⟩

theorem final6_3 (c : Dev nD) : (dat6 V c).arrAt 3 cfg6.N = res6_3 V c :=
  (dat6 V c).arrAt_eq_of_cover 3 (res6_3 V c) (flushed6_3_eq V c) fun i =>
    ⟨t6_7, (flush6_3 t6_7).mpr rfl, (show ((cfg6.win 3).blk t6_7).view.emb i = i from
      Shape.idx_ext₂ (win6_3.rect_emb_val_of_index_zero t6_7 0 (by decide +kernel) i)
        (win6_3.rect_emb_val_of_index_zero t6_7 1 (by decide +kernel) i)) ▸ View.emb_mem_set _ _⟩

theorem val6_0 (c : Dev nD) : Cert.Spec.mat ((dat6 V c).arrAt 2 cfg6.N)
    = Cert.Spec.poolSum (Cert.Spec.col0 (V c main_v2)) (Cert.Spec.mat (V c main_v22)) := by
  rw [final6_2]
  funext g q
  show (outsAt6 V c 7 _).1 (ix2 g q) = ∑ i : Fin 50176, Cert.Spec.hot (barr6 V c (ix2 i 0)) (BitVec.ofNat 32 g.val) * harr6 V c (ix2 i q)
  rw [outsAt6_sum V c g q 7]
  exact sum_all6 V c g q

theorem val6_1 (c : Dev nD) : Cert.Spec.col0 ((dat6 V c).arrAt 3 cfg6.N)
    = Cert.Spec.poolCnt (Cert.Spec.col0 (V c main_v2)) := by
  rw [final6_3]
  funext g
  show (outsAt6 V c 7 _).2 (ix2 g 0) = ∑ i : Fin 50176, Cert.Spec.hot (barr6 V c (ix2 i 0)) (BitVec.ofNat 32 g.val) * Cert.Spec.oneN
  rw [outsAt6_cnt V c g 7]
  exact cnt_all6 V c g

end Cert.KernelIdeal.Hand

end
-- ==== Proof.KI.Val7.lean ====
import proofs.«413690_j74569222193909_1_alg».proof.Proof.KI.Reg7
import proofs.«413690_j74569222193909_1_alg».proof.Proof.Spec
import Idealize.ShloMosaic.Lib.StackMember
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx
open scoped BigOperators

theorem shapeCast_a_a1_apply7 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply7 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ninf_bot7 : Ideal.ofBits .f32 0xFF800000#32 = (⊥ : EReal) := by
  simp [Ideal.ofBits, Ideal.ieee]

theorem lift_row7 (g : Fin 128) (k : Fin 6) :
    (reduces_S128x6_S128 : S128x6.Reduces [1] S128).lift (ix1 g) k = ix2 g k := by
  funext c; apply Fin.ext
  match c with
  | ⟨0, _⟩ => rfl
  | ⟨1, _⟩ => rfl

theorem fold_max_sup7 (f : Fin 6 → EReal) : (Finset.univ : Finset (Fin 6)).fold max (⊥ : EReal) f = Finset.univ.sup f := rfl

theorem rowSum7 (v : FVec Ideal S128x6 .f32) (hφ : FTy.f32 = FTy.f32 ∨ FTy.f32 = FTy.bf16)
    (hacc : @Eq (BitVec FTy.f32.bits) (0x00000000#32 : BitVec 32) (0x00000000#32 : BitVec 32)) (g : Fin 128) :
    multiReduction (F := Ideal) .add [1] S128 v 0x00000000#32 reduces_S128x6_S128 hφ hacc (ix1 g) = ∑ k : Fin 6, v (ix2 g k) := by
  refine (Ideal.multiReduction_add_single v 0x00000000#32 reduces_S128x6_S128 hφ hacc (ix1 g)).trans ?_
  show ∑ k : Fin 6, v ((reduces_S128x6_S128 : S128x6.Reduces [1] S128).lift (ix1 g) k) = _
  exact Finset.sum_congr rfl fun k _ => by rw [lift_row7]

theorem rowMax7 (v : FVec Ideal S128x6 .f32) (hφ : FTy.f32 = FTy.f32 ∨ FTy.f32 = FTy.bf16)
    (hacc : @Eq (BitVec FTy.f32.bits) (0xFF800000#32 : BitVec 32) (0xFF800000#32 : BitVec 32)) (g : Fin 128) :
    multiReduction (F := Ideal) .maximumf [1] S128 v 0xFF800000#32 reduces_S128x6_S128 hφ hacc (ix1 g) = Cert.Spec.rowMax fun k => v (ix2 g k) := by
  refine (Ideal.multiReduction_maximumf_single v 0xFF800000#32 reduces_S128x6_S128 hφ hacc (ix1 g)).trans ?_
  show (Finset.univ : Finset (Fin 6)).fold max (Ideal.ofBits .f32 0xFF800000#32) (fun k : Fin 6 => v ((reduces_S128x6_S128 : S128x6.Reduces [1] S128).lift (ix1 g) k)) = _
  rw [ninf_bot7, fold_max_sup7]
  unfold Cert.Spec.rowMax
  exact congrArg _ (funext fun k => by rw [lift_row7])

theorem matmul1_apply7 {φ₁ φ₂ : FTy} (a : FVec Ideal S128x64 φ₁) (b : FVec Ideal S64x32 φ₂) (g : Fin 128) (l : Fin 32) :
    matmul dot_S128x64_S64x32_S128x32_1_0_0_1_n_n none a b (constant (F := Ideal) S128x32 .f32 0x00000000#32) (ix2 g l) = ∑ k : Fin 64, a (ix2 g k) * b (ix2 k l) :=
  (congrFun (matmul_zero_eq_dotGeneral _ _ a b) _).trans (StackMember.dotGeneral_plain_apply none a b g l)

theorem matmul2_apply7 {φ₁ φ₂ : FTy} (a : FVec Ideal S128x32 φ₁) (b : FVec Ideal S32x6 φ₂) (g : Fin 128) (l : Fin 6) :
    matmul dot_S128x32_S32x6_S128x6_1_0_0_1_n_n none a b (constant (F := Ideal) S128x6 .f32 0x00000000#32) (ix2 g l) = ∑ k : Fin 32, a (ix2 g k) * b (ix2 k l) :=
  (congrFun (matmul_zero_eq_dotGeneral _ _ a b) _).trans (StackMember.dotGeneral_plain_apply none a b g l)

theorem exp_apply7 {s : Shape} {φ : FTy} (a : FVec Ideal s φ) (i : s.Idx) : exp a i = Ideal.exp (a i) := rfl
theorem log_apply7 {s : Shape} {φ : FTy} (a : FVec Ideal s φ) (i : s.Idx) : log a i = Ideal.log (a i) := rfl

theorem pay7_apply (x1 : FVec Ideal S128x1 .f32) (x0 : FVec Ideal S128x64 .f32) (x2 : FVec Ideal S64x32 .f32) (x3 : FVec Ideal S1x32 .f32)
    (x4 : FVec Ideal S32x6 .f32) (x5 : FVec Ideal S1x6 .f32) (g : Fin 128) (j : Fin 6) :
    k7_pay1 (F := Ideal) x1 x0 x2 x3 x4 x5 (ix2 g j)
      = Cert.Spec.head (Cert.Spec.mat x0) (Cert.Spec.col0 x1) (Cert.Spec.mat x2) (Cert.Spec.row0 x3) (Cert.Spec.mat x4) (Cert.Spec.row0 x5) g j := by
  unfold k7_pay1
  simp only [subf_apply, addf_apply, divf_apply, maximumf_apply, truncf_apply, broadcast_apply, exp_apply7, log_apply7,
    shapeCast_self, broadcastTo_a1_ab_apply7, broadcastTo_1b_ab_apply, shapeCast_a_a1_apply7, matmul1_apply7, matmul2_apply7]
  rw [rowMax7, rowSum7]
  simp only [subf_apply, addf_apply, divf_apply, maximumf_apply, truncf_apply, broadcast_apply, exp_apply7, log_apply7,
    shapeCast_self, broadcastTo_a1_ab_apply7, broadcastTo_1b_ab_apply, shapeCast_a_a1_apply7, matmul1_apply7, matmul2_apply7]
  rw [rowMax7]
  simp only [subf_apply, addf_apply, divf_apply, maximumf_apply, truncf_apply, broadcast_apply, exp_apply7, log_apply7,
    shapeCast_self, broadcastTo_a1_ab_apply7, broadcastTo_1b_ab_apply, shapeCast_a_a1_apply7, matmul1_apply7, matmul2_apply7]
  unfold Cert.Spec.head Cert.Spec.mm Cert.Spec.mat Cert.Spec.col0 Cert.Spec.row0 Cert.Spec.one Cert.Spec.zero
  rfl

variable (V : (c : Dev nD) → (b : Ref sig .tc) → Buf (Elt Ideal) ((c : Thread nD τ).loc b))

theorem hz7 : (![0, 0] : Fin 2 → Nat) = fun _ => 0 := funext fun a => by fin_cases a <;> rfl

def G7 (c : Dev nD) : S128x6.Idx → Elt Ideal .f32 :=
  k7_pay1 (F := Ideal) (V c main_v23_1) (V c main_v23_0) (V c main_v24) (V c main_v25) (V c main_v26) (V c main_v27)

theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

theorem iblk7_0_eq (c : Dev nD) (t : Fin cfg7.N) : iblk7 V c 0 t = V c main_v23_0 := by
  obtain ⟨e00, e01, e10, e11, e20, e21, e30, e31, e40, e41, e50, e51, e60, e61⟩ := idx_facts7 t
  exact funext fun y => congrArg (V c main_v23_0)
    (Shape.idx_ext₂ (win7_0.rect_emb_val_of_index_zero t 0 e00 y) (win7_0.rect_emb_val_of_index_zero t 1 e01 y))

theorem iblk7_1_eq (c : Dev nD) (t : Fin cfg7.N) : iblk7 V c 1 t = V c main_v23_1 := by
  obtain ⟨e00, e01, e10, e11, e20, e21, e30, e31, e40, e41, e50, e51, e60, e61⟩ := idx_facts7 t
  exact funext fun y => congrArg (V c main_v23_1)
    (Shape.idx_ext₂ (win7_1.rect_emb_val_of_index_zero t 0 e10 y) (win7_1.rect_emb_val_of_index_zero t 1 e11 y))

theorem iblk7_2_eq (c : Dev nD) (t : Fin cfg7.N) : iblk7 V c 2 t = V c main_v24 := by
  obtain ⟨e00, e01, e10, e11, e20, e21, e30, e31, e40, e41, e50, e51, e60, e61⟩ := idx_facts7 t
  exact funext fun y => congrArg (V c main_v24)
    (Shape.idx_ext₂ (win7_2.rect_emb_val_of_index_zero t 0 e20 y) (win7_2.rect_emb_val_of_index_zero t 1 e21 y))

theorem iblk7_3_eq (c : Dev nD) (t : Fin cfg7.N) : iblk7 V c 3 t = V c main_v25 := by
  obtain ⟨e00, e01, e10, e11, e20, e21, e30, e31, e40, e41, e50, e51, e60, e61⟩ := idx_facts7 t
  exact funext fun y => congrArg (V c main_v25)
    (Shape.idx_ext₂ (win7_3.rect_emb_val_of_index_zero t 0 e30 y) (win7_3.rect_emb_val_of_index_zero t 1 e31 y))

theorem iblk7_4_eq (c : Dev nD) (t : Fin cfg7.N) : iblk7 V c 4 t = V c main_v26 := by
  obtain ⟨e00, e01, e10, e11, e20, e21, e30, e31, e40, e41, e50, e51, e60, e61⟩ := idx_facts7 t
  exact funext fun y => congrArg (V c main_v26)
    (Shape.idx_ext₂ (win7_4.rect_emb_val_of_index_zero t 0 e40 y) (win7_4.rect_emb_val_of_index_zero t 1 e41 y))

theorem iblk7_5_eq (c : Dev nD) (t : Fin cfg7.N) : iblk7 V c 5 t = V c main_v27 := by
  obtain ⟨e00, e01, e10, e11, e20, e21, e30, e31, e40, e41, e50, e51, e60, e61⟩ := idx_facts7 t
  exact funext fun y => congrArg (V c main_v27)
    (Shape.idx_ext₂ (win7_5.rect_emb_val_of_index_zero t 0 e50 y) (win7_5.rect_emb_val_of_index_zero t 1 e51 y))

theorem flushed7_eq (c : Dev nD) (t : Fin cfg7.N) :
    (dat7 V c).flushed 6 t = ((cfg7.win 6).blk t).view.read (Elt Ideal) (G7 V c) := by
  show (cfg7.win 6).cut (grid7.coords t) ((dat7 V c).after 6 t) = _
  rw [after7_6]
  unfold out7_6
  rw [View.canon_unit_zero hz7]
  simp only [View.ld_unit_zero (S := S128x64) hz7, View.ld_unit_zero (S := S128x1) hz7, View.ld_unit_zero (S := S64x32) hz7,
    View.ld_unit_zero (S := S1x32) hz7, View.ld_unit_zero (S := S32x6) hz7, View.ld_unit_zero (S := S1x6) hz7]
  rw [iblk7_0_eq, iblk7_1_eq, iblk7_2_eq, iblk7_3_eq, iblk7_4_eq, iblk7_5_eq]
  obtain ⟨e00, e01, e10, e11, e20, e21, e30, e31, e40, e41, e50, e51, e60, e61⟩ := idx_facts7 t
  exact funext fun y => congrArg (G7 V c)
    (Shape.idx_ext₂ (win7_6.rect_emb_val_of_index_zero t 0 e60 y) (win7_6.rect_emb_val_of_index_zero t 1 e61 y)).symm

theorem cover7 (i : S128x6.Idx) : ∃ t : Fin cfg7.N, (cfg7.win 6).flush t = true ∧ i ∈ ((cfg7.win 6).blk t).view.set := by
  obtain ⟨e00, e01, e10, e11, e20, e21, e30, e31, e40, e41, e50, e51, e60, e61⟩ := idx_facts7 t7_0
  have h : ((cfg7.win 6).blk t7_0).view.emb i = i :=
    Shape.idx_ext₂ (win7_6.rect_emb_val_of_index_zero t7_0 0 e60 i) (win7_6.rect_emb_val_of_index_zero t7_0 1 e61 i)
  exact ⟨t7_0, flush7_6 t7_0, h ▸ View.emb_mem_set _ _⟩

theorem arr7_eq (c : Dev nD) : (dat7 V c).arrAt 6 cfg7.N = G7 V c :=
  (dat7 V c).arrAt_eq_of_cover 6 (G7 V c) (fun t _ => flushed7_eq V c t) cover7

theorem val7 (c : Dev nD) :
    Cert.Spec.mat ((dat7 V c).arrAt 6 cfg7.N)
      = Cert.Spec.head (Cert.Spec.mat (V c main_v23_0)) (Cert.Spec.col0 (V c main_v23_1)) (Cert.Spec.mat (V c main_v24))
          (Cert.Spec.row0 (V c main_v25)) (Cert.Spec.mat (V c main_v26)) (Cert.Spec.row0 (V c main_v27)) := by
  rw [arr7_eq]
  funext g j
  exact pay7_apply (V c main_v23_1) (V c main_v23_0) (V c main_v24) (V c main_v25) (V c main_v26) (V c main_v27) g j

end Cert.KernelIdeal.Hand

end
-- ==== Proof.KI.Chain.lean ====
import proofs.«413690_j74569222193909_1_alg».proof.Proof.KI.Run
import proofs.«413690_j74569222193909_1_alg».proof.Proof.KI.Val0
import proofs.«413690_j74569222193909_1_alg».proof.Proof.KI.Val1
import proofs.«413690_j74569222193909_1_alg».proof.Proof.KI.Val2
import proofs.«413690_j74569222193909_1_alg».proof.Proof.KI.Val3
import proofs.«413690_j74569222193909_1_alg».proof.Proof.KI.Val4
import proofs.«413690_j74569222193909_1_alg».proof.Proof.KI.Val5
import proofs.«413690_j74569222193909_1_alg».proof.Proof.KI.Val6
import proofs.«413690_j74569222193909_1_alg».proof.Proof.KI.Val7
import proofs.«413690_j74569222193909_1_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.Spec (Mat mat col0 row0 mm msgp gru gruRelu poolSum poolCnt head net)

variable (m : (ℓ : Loc nD τ sig) → Buf (Elt Ideal) ℓ)

theorem chainBack6 (c : Dev nD) (r : Ref sig .tc) (h6 : r ∉ ([main_v15] : List (Ref sig .tc))) :
    V6 m (outs m) c r = V5 m c r := V6_of m (outs m) c r h6
theorem chainBack7 (c : Dev nD) (r : Ref sig .tc) (h7 : r ∉ ([main_v16] : List (Ref sig .tc))) (h6 : r ∉ ([main_v15] : List (Ref sig .tc))) :
    V7 m (outs m) c r = V5 m c r := (V7_of m (outs m) c r h7).trans (chainBack6 m c r h6)
theorem chainBack8 (c : Dev nD) (r : Ref sig .tc) (h8 : r ∉ ([main_v17] : List (Ref sig .tc))) (h7 : r ∉ ([main_v16] : List (Ref sig .tc)))
    (h6 : r ∉ ([main_v15] : List (Ref sig .tc))) : V8 m (outs m) c r = V5 m c r :=
  (V8_of m (outs m) c r h8).trans (chainBack7 m c r h7 h6)
theorem chainBack9 (c : Dev nD) (r : Ref sig .tc) (h9 : r ∉ (hostOps3_W : List (Ref sig .tc))) (h8 : r ∉ ([main_v17] : List (Ref sig .tc)))
    (h7 : r ∉ ([main_v16] : List (Ref sig .tc))) (h6 : r ∉ ([main_v15] : List (Ref sig .tc))) : V9 m (outs m) c r = V5 m c r :=
  (V9_of m (outs m) c r h9).trans (chainBack8 m c r h8 h7 h6)
theorem chainBack10 (c : Dev nD) (r : Ref sig .tc) (h10 : r ∉ ([main_v20] : List (Ref sig .tc))) (h9 : r ∉ (hostOps3_W : List (Ref sig .tc)))
    (h8 : r ∉ ([main_v17] : List (Ref sig .tc))) (h7 : r ∉ ([main_v16] : List (Ref sig .tc))) (h6 : r ∉ ([main_v15] : List (Ref sig .tc))) :
    V10 m (outs m) c r = V5 m c r := (V10_of m (outs m) c r h10).trans (chainBack9 m c r h9 h8 h7 h6)
theorem chainBack11 (c : Dev nD) (r : Ref sig .tc) (h11 : r ∉ ([main_v21] : List (Ref sig .tc))) (h10 : r ∉ ([main_v20] : List (Ref sig .tc)))
    (h9 : r ∉ (hostOps3_W : List (Ref sig .tc))) (h8 : r ∉ ([main_v17] : List (Ref sig .tc))) (h7 : r ∉ ([main_v16] : List (Ref sig .tc)))
    (h6 : r ∉ ([main_v15] : List (Ref sig .tc))) : V11 m (outs m) c r = V5 m c r :=
  (V11_of m (outs m) c r h11).trans (chainBack10 m c r h10 h9 h8 h7 h6)
theorem chainBack12 (c : Dev nD) (r : Ref sig .tc) (h12 : r ∉ ([main_v22] : List (Ref sig .tc))) (h11 : r ∉ ([main_v21] : List (Ref sig .tc)))
    (h10 : r ∉ ([main_v20] : List (Ref sig .tc))) (h9 : r ∉ (hostOps3_W : List (Ref sig .tc))) (h8 : r ∉ ([main_v17] : List (Ref sig .tc)))
    (h7 : r ∉ ([main_v16] : List (Ref sig .tc))) (h6 : r ∉ ([main_v15] : List (Ref sig .tc))) : V12 m (outs m) c r = V5 m c r :=
  (V12_of m (outs m) c r h12).trans (chainBack11 m c r h11 h10 h9 h8 h7 h6)

theorem chainHid1_at9 (c : Dev nD) : V9 m (outs m) c main_v17 = outs m 8 main_v17 c :=
  (V9_of m (outs m) c main_v17 (by decide)).trans (V8_at_main_v17 m c)
theorem chainHid1_at11 (c : Dev nD) : V11 m (outs m) c main_v17 = outs m 8 main_v17 c :=
  (V11_of m (outs m) c main_v17 (by decide)).trans ((V10_of m (outs m) c main_v17 (by decide)).trans (chainHid1_at9 m c))
theorem chainPool_at14_0 (c : Dev nD) : V14 m (outs m) c main_v23_0 = outs m 13 main_v23_0 c :=
  (V14_of m (outs m) c main_v23_0 (by decide)).trans (V13_at_main_v23_0 m c)
theorem chainPool_at14_1 (c : Dev nD) : V14 m (outs m) c main_v23_1 = outs m 13 main_v23_1 c :=
  (V14_of m (outs m) c main_v23_1 (by decide)).trans (V13_at_main_v23_1 m c)

theorem chainLayer0 (c : Dev nD) :
    (mat (outs m 6 main_v15 c) : Mat 50176 64) = mm (mat (V5 m c main_v0)) (mat (V5 m c main_v14)) := by
  rw [outs_6]
  exact val0 (fun c b => V5 m c b) c

theorem chainLayer1 (c : Dev nD) :
    (mat (outs m 7 main_v16 c) : Mat 50176 64)
      = msgp (N := 50176) (E := 800000) (col0 (V5 m c main_v5)) (row0 (V5 m c main_v8)) (mat (outs m 6 main_v15 c)) := by
  rw [outs_7]
  refine (val1 (fun c b => V6 m (outs m) c b) c).trans ?_
  show msgp (N := 50176) (E := 800000) (col0 (V6 m (outs m) c main_v5)) (row0 (V6 m (outs m) c main_v8)) (mat (V6 m (outs m) c main_v15)) = _
  rw [chainBack6 m c main_v5 (by decide), chainBack6 m c main_v8 (by decide), V6_at_main_v15]

theorem chainLayer2 (c : Dev nD) :
    (mat (outs m 8 main_v17 c) : Mat 50176 64)
      = gru (mat (outs m 7 main_v16 c)) (mat (V5 m c main_v0)) (mat (V5 m c main_v9)) (mat (V5 m c main_v10))
          (row0 (V5 m c main_v11)) (row0 (V5 m c main_v12)) := by
  rw [outs_8]
  refine (val2 (fun c b => V7 m (outs m) c b) c).trans ?_
  show gru (mat (V7 m (outs m) c main_v16)) (mat (V7 m (outs m) c main_v0)) (mat (V7 m (outs m) c main_v9)) (mat (V7 m (outs m) c main_v10))
      (row0 (V7 m (outs m) c main_v11)) (row0 (V7 m (outs m) c main_v12)) = _
  rw [V7_at_main_v16, chainBack7 m c main_v0 (by decide) (by decide), chainBack7 m c main_v9 (by decide) (by decide),
    chainBack7 m c main_v10 (by decide) (by decide), chainBack7 m c main_v11 (by decide) (by decide), chainBack7 m c main_v12 (by decide) (by decide)]

theorem chainLayer3 (c : Dev nD) :
    (mat (outs m 10 main_v20 c) : Mat 50176 64) = mm (mat (outs m 8 main_v17 c)) (mat (V9 m (outs m) c main_v19)) := by
  rw [outs_10]
  refine (val3 (fun c b => V9 m (outs m) c b) c).trans ?_
  show mm (mat (V9 m (outs m) c main_v17)) (mat (V9 m (outs m) c main_v19)) = _
  rw [chainHid1_at9]

theorem chainLayer4 (c : Dev nD) :
    (mat (outs m 11 main_v21 c) : Mat 50176 64)
      = msgp (N := 50176) (E := 800000) (col0 (V5 m c main_v5)) (row0 (V5 m c main_v8)) (mat (outs m 10 main_v20 c)) := by
  rw [outs_11]
  refine (val4 (fun c b => V10 m (outs m) c b) c).trans ?_
  show msgp (N := 50176) (E := 800000) (col0 (V10 m (outs m) c main_v5)) (row0 (V10 m (outs m) c main_v8)) (mat (V10 m (outs m) c main_v20)) = _
  rw [chainBack10 m c main_v5 (by decide) (by decide) (by decide) (by decide) (by decide),
    chainBack10 m c main_v8 (by decide) (by decide) (by decide) (by decide) (by decide), V10_at_main_v20]

theorem chainLayer5 (c : Dev nD) :
    (mat (outs m 12 main_v22 c) : Mat 50176 64)
      = gruRelu (mat (outs m 11 main_v21 c)) (mat (outs m 8 main_v17 c)) (mat (V5 m c main_v9)) (mat (V5 m c main_v10))
          (row0 (V5 m c main_v11)) (row0 (V5 m c main_v12)) := by
  rw [outs_12]
  refine (val5 (fun c b => V11 m (outs m) c b) c).trans ?_
  show gruRelu (mat (V11 m (outs m) c main_v21)) (mat (V11 m (outs m) c main_v17)) (mat (V11 m (outs m) c main_v9)) (mat (V11 m (outs m) c main_v10))
      (row0 (V11 m (outs m) c main_v11)) (row0 (V11 m (outs m) c main_v12)) = _
  rw [V11_at_main_v21, chainHid1_at11,
    chainBack11 m c main_v9 (by decide) (by decide) (by decide) (by decide) (by decide) (by decide),
    chainBack11 m c main_v10 (by decide) (by decide) (by decide) (by decide) (by decide) (by decide),
    chainBack11 m c main_v11 (by decide) (by decide) (by decide) (by decide) (by decide) (by decide),
    chainBack11 m c main_v12 (by decide) (by decide) (by decide) (by decide) (by decide) (by decide)]

theorem chainLayer6_0 (c : Dev nD) :
    (mat (outs m 13 main_v23_0 c) : Mat 128 64) = poolSum (col0 (V5 m c main_v2)) (mat (outs m 12 main_v22 c)) := by
  rw [outs_13_0]
  refine (val6_0 (fun c b => V12 m (outs m) c b) c).trans ?_
  show poolSum (col0 (V12 m (outs m) c main_v2)) (mat (V12 m (outs m) c main_v22)) = _
  rw [chainBack12 m c main_v2 (by decide) (by decide) (by decide) (by decide) (by decide) (by decide) (by decide), V12_at_main_v22]
theorem chainLayer6_1 (c : Dev nD) :
    (col0 (outs m 13 main_v23_1 c) : Fin 128 → EReal) = poolCnt (col0 (V5 m c main_v2)) := by
  rw [outs_13_1]
  refine (val6_1 (fun c b => V12 m (outs m) c b) c).trans ?_
  show poolCnt (col0 (V12 m (outs m) c main_v2)) = _
  rw [chainBack12 m c main_v2 (by decide) (by decide) (by decide) (by decide) (by decide) (by decide) (by decide)]

theorem chainLayer7 (c : Dev nD) :
    (mat ((dat7 (fun c b => V14 m (outs m) c b) c).arrAt 6 cfg7.N) : Mat 128 6)
      = head (mat (outs m 13 main_v23_0 c)) (col0 (outs m 13 main_v23_1 c)) (mat (V14 m (outs m) c main_v24)) (row0 (V14 m (outs m) c main_v25))
          (mat (V14 m (outs m) c main_v26)) (row0 (V14 m (outs m) c main_v27)) := by
  refine (val7 (fun c b => V14 m (outs m) c b) c).trans ?_
  show head (mat (V14 m (outs m) c main_v23_0)) (col0 (V14 m (outs m) c main_v23_1)) (mat (V14 m (outs m) c main_v24)) (row0 (V14 m (outs m) c main_v25))
      (mat (V14 m (outs m) c main_v26)) (row0 (V14 m (outs m) c main_v27)) = _
  rw [chainPool_at14_0, chainPool_at14_1]

theorem chain (c : Dev nD) :
    Cert.Spec.mat ((dat7 (fun c b => V14 m (outs m) c b) c).arrAt 6 cfg7.N)
      = Cert.Spec.net (N := 50176) (E := 800000) (Cert.Spec.mat (V5 m c main_v0)) (Cert.Spec.col0 (V5 m c main_v5)) (Cert.Spec.row0 (V5 m c main_v8)) (Cert.Spec.col0 (V5 m c main_v2))
          (Cert.Spec.mat (V5 m c main_v14)) (Cert.Spec.mat (V9 m (outs m) c main_v19)) (Cert.Spec.mat (V5 m c main_v9)) (Cert.Spec.mat (V5 m c main_v10)) (Cert.Spec.row0 (V5 m c main_v11)) (Cert.Spec.row0 (V5 m c main_v12))
          (Cert.Spec.mat (V14 m (outs m) c main_v24)) (Cert.Spec.row0 (V14 m (outs m) c main_v25)) (Cert.Spec.mat (V14 m (outs m) c main_v26)) (Cert.Spec.row0 (V14 m (outs m) c main_v27)) := by
  refine (chainLayer7 m c).trans ?_
  rw [chainLayer6_0, chainLayer6_1, chainLayer5, chainLayer4, chainLayer3, chainLayer2, chainLayer1, chainLayer0]
  rfl

end Cert.KernelIdeal.Hand

end
-- ==== Proof.KI.Host.lean ====
import proofs.«413690_j74569222193909_1_alg».proof.Proof.Gen.KernelIdeal.Regions
import proofs.«413690_j74569222193909_1_alg».proof.Proof.Spec
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (m : (ℓ : Loc nD τ sig) → Buf (Elt F) ℓ) (outs : Gen.Outs (F := F)) (c : Dev nD)

theorem host_arr_v0 : (V5 m c main_v0 : S50176x64.Idx → Elt F .f32)
    = pad S50176x64 ![0, 0] ![176, 0] ![0, 0] (m ((c : Thread nD τ).loc main_arg0) : S50000x64.Idx → Elt F .f32)
        (sitofp .f32 (constantI S_ 32 0#32) : S_.Idx → Elt F .f32) pads_S50000x64_S50176x64_01760_000 h_S_ := by
  dsimp only [V5, hostOps0_4]
  after_results
  try rfl

theorem host_h (i : Fin 50176) (hi : i.val < 50000) (q : Fin 64) :
    Cert.Spec.mat (V5 m c main_v0 : S50176x64.Idx → Elt F .f32) i q
      = Cert.Spec.mat (m ((c : Thread nD τ).loc main_arg0) : S50000x64.Idx → Elt F .f32) ⟨i.val, hi⟩ q := by
  unfold Cert.Spec.mat
  rw [host_arr_v0]
  exact pad_apply_of_inside _ _ _ _ _ pads_S50000x64_S50176x64_01760_000 h_S_ (ix2 i q) (ix2 (⟨i.val, hi⟩ : Fin 50000) q)
    (fun a => match a with
      | ⟨0, _⟩ => by show i.val = 0 + i.val * (0 + 1); omega
      | ⟨1, _⟩ => by show q.val = 0 + q.val * (0 + 1); omega)

theorem host_arr_v5 : (V5 m c main_v5 : S800000x1.Idx → Elt F .i32)
    = shapeCast S800000x1 (shapeCast S800000 (extractStridedSlice S1x800000 ![0, 0]
        (m ((c : Thread nD τ).loc main_arg1) : S2x800000.Idx → Elt F .i32) slices_S2x800000_S1x800000_0_0)
        shapeCasts_S1x800000_S800000) shapeCasts_S800000_S800000x1 := by
  dsimp only [V5, hostOps0_4]
  after_results
  try rfl

theorem host_src (e : Fin 800000) :
    Cert.Spec.col0 (V5 m c main_v5 : S800000x1.Idx → Elt F .i32) e
      = (m ((c : Thread nD τ).loc main_arg1) : S2x800000.Idx → Elt F .i32) (ix2 (0 : Fin 2) e) := by
  unfold Cert.Spec.col0
  rw [host_arr_v5]
  refine (shapeCast_apply _ shapeCasts_S800000_S800000x1 (ix2 e (0 : Fin 1)) (ix1 e)
    (by rewrite [Shape.rowMajor_val_one, Shape.rowMajor_val_two]; show e.val = e.val * 1 + 0; omega)).trans ?_
  refine (shapeCast_apply _ shapeCasts_S1x800000_S800000 (ix1 e) (ix2 (0 : Fin 1) e)
    (by rewrite [Shape.rowMajor_val_one, Shape.rowMajor_val_two]; show 0 * 800000 + e.val = e.val; omega)).trans ?_
  exact extractStridedSlice_apply ![0, 0] _ slices_S2x800000_S1x800000_0_0 (ix2 (0 : Fin 1) e) (ix2 (0 : Fin 2) e)
    (fun a => match a with
      | ⟨0, _⟩ => by show 0 = 0 + 0; omega
      | ⟨1, _⟩ => by show e.val = 0 + e.val; omega)

theorem host_arr_v8 : (V5 m c main_v8 : S1x800000.Idx → Elt F .i32)
    = shapeCast S1x800000 (shapeCast S800000 (extractStridedSlice S1x800000 ![1, 0]
        (m ((c : Thread nD τ).loc main_arg1) : S2x800000.Idx → Elt F .i32) slices_S2x800000_S1x800000_1_0)
        shapeCasts_S1x800000_S800000) shapeCasts_S800000_S1x800000 := by
  dsimp only [V5, hostOps0_4]
  after_results
  try rfl

theorem host_dst (e : Fin 800000) :
    Cert.Spec.row0 (V5 m c main_v8 : S1x800000.Idx → Elt F .i32) e
      = (m ((c : Thread nD τ).loc main_arg1) : S2x800000.Idx → Elt F .i32) (ix2 (1 : Fin 2) e) := by
  unfold Cert.Spec.row0
  rw [host_arr_v8]
  refine (shapeCast_apply _ shapeCasts_S800000_S1x800000 (ix2 (0 : Fin 1) e) (ix1 e)
    (by rewrite [Shape.rowMajor_val_one, Shape.rowMajor_val_two]; show e.val = 0 * 800000 + e.val; omega)).trans ?_
  refine (shapeCast_apply _ shapeCasts_S1x800000_S800000 (ix1 e) (ix2 (0 : Fin 1) e)
    (by rewrite [Shape.rowMajor_val_one, Shape.rowMajor_val_two]; show 0 * 800000 + e.val = e.val; omega)).trans ?_
  exact extractStridedSlice_apply ![1, 0] _ slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

theorem host_arr_v2 : (V5 m c main_v2 : S50176x1.Idx → Elt F .i32)
    = shapeCast S50176x1 (pad S50176 ![0] ![176] ![0] (m ((c : Thread nD τ).loc main_arg2) : S50000.Idx → Elt F .i32)
        (constantI S_ 32 128#32 : S_.Idx → Elt F .i32) pads_S50000_S50176_01760 h_S_) shapeCasts_S50176_S50176x1 := by
  dsimp only [V5, hostOps0_4]
  after_results
  try rfl

theorem host_batch_lo (i : Fin 50176) (hi : i.val < 50000) :
    Cert.Spec.col0 (V5 m c main_v2 : S50176x1.Idx → Elt F .i32) i
      = (m ((c : Thread nD τ).loc main_arg2) : S50000.Idx → Elt F .i32) (ix1 ⟨i.val, hi⟩) := by
  unfold Cert.Spec.col0
  rw [host_arr_v2]
  refine (shapeCast_apply _ shapeCasts_S50176_S50176x1 (ix2 i (0 : Fin 1)) (ix1 i)
    (by rewrite [Shape.rowMajor_val_one, Shape.rowMajor_val_two]; show i.val = i.val * 1 + 0; omega)).trans ?_
  exact pad_apply_of_inside _ _ _ _ _ pads_S50000_S50176_01760 h_S_ (ix1 i) (ix1 (⟨i.val, hi⟩ : Fin 50000))
    (fun a => match a with
      | ⟨0, _⟩ => by show i.val = 0 + i.val * (0 + 1); omega)

theorem host_batch_hi (i : Fin 50176) (hi : 50000 ≤ i.val) :
    Cert.Spec.col0 (V5 m c main_v2 : S50176x1.Idx → Elt F .i32) i = 128#32 := by
  unfold Cert.Spec.col0
  rw [host_arr_v2]
  refine (shapeCast_apply _ shapeCasts_S50176_S50176x1 (ix2 i (0 : Fin 1)) (ix1 i)
    (by rewrite [Shape.rowMajor_val_one, Shape.rowMajor_val_two]; show i.val = i.val * 1 + 0; omega)).trans ?_
  exact pad_apply_of_not_inside _ _ _ _ _ pads_S50000_S50176_01760 h_S_ (ix1 i) (0 : Fin 1)
    (by show ¬(0 ≤ i.val ∧ (i.val - 0) % (0 + 1) = 0 ∧ (i.val - 0) / (0 + 1) < 50000); omega)

theorem host_arr_v14 : (V5 m c main_v14 : S64x64.Idx → Elt F .f32)
    = shapeCast S64x64 (extractStridedSlice S1x64x64 ![0, 0, 0]
        (m ((c : Thread nD τ).loc main_arg3) : S2x64x64.Idx → Elt F .f32) slices_S2x64x64_S1x64x64_0_0_0)
        shapeCasts_S1x64x64_S64x64 := by
  dsimp only [V5, hostOps0_4]
  after_results
  try rfl

theorem host_W0 (k j : Fin 64) :
    Cert.Spec.mat (V5 m c main_v14 : S64x64.Idx → Elt F .f32) k j
      = (m ((c : Thread nD τ).loc main_arg3) : S2x64x64.Idx → Elt F .f32) (ix3 (0 : Fin 2) k j) := by
  unfold Cert.Spec.mat
  rw [host_arr_v14]
  refine (shapeCast_apply _ shapeCasts_S1x64x64_S64x64 (ix2 k j) (ix3 (0 : Fin 1) k j)
    (by rewrite [Shape.rowMajor_val_three, Shape.rowMajor_val_two]; show (0 * 64 + k.val) * 64 + j.val = k.val * 64 + j.val; omega)).trans ?_
  exact extractStridedSlice_apply ![0, 0, 0] _ slices_S2x64x64_S1x64x64_0_0_0 (ix3 (0 : Fin 1) k j) (ix3 (0 : Fin 2) k j)
    (fun a => match a with
      | ⟨0, _⟩ => by show 0 = 0 + 0; omega
      | ⟨1, _⟩ => by show k.val = 0 + k.val; omega
      | ⟨2, _⟩ => by show j.val = 0 + j.val; omega)

theorem host_arr_v9 : (V5 m c main_v9 : S64x192.Idx → Elt F .f32)
    = transpose S64x192 [1, 0] (m ((c : Thread nD τ).loc main_arg4) : S192x64.Idx → Elt F .f32) transposes_S192x64_S64x192_1_0 := by
  dsimp only [V5, hostOps0_4]
  after_results
  try rfl

theorem host_wih (k : Fin 64) (j : Fin 192) :
    Cert.Spec.mat (V5 m c main_v9 : S64x192.Idx → Elt F .f32) k j
      = (m ((c : Thread nD τ).loc main_arg4) : S192x64.Idx → Elt F .f32) (ix2 j k) := by
  unfold Cert.Spec.mat
  rw [host_arr_v9]
  exact transpose_apply [1, 0] _ transposes_S192x64_S64x192_1_0 (ix2 k j) (ix2 j k)
    (fun b => match b with
      | ⟨0, _⟩ => rfl
      | ⟨1, _⟩ => rfl)

theorem host_arr_v10 : (V5 m c main_v10 : S64x192.Idx → Elt F .f32)
    = transpose S64x192 [1, 0] (m ((c : Thread nD τ).loc main_arg5) : S192x64.Idx → Elt F .f32) transposes_S192x64_S64x192_1_0 := by
  dsimp only [V5, hostOps0_4]
  after_results
  try rfl

theorem host_whh (k : Fin 64) (j : Fin 192) :
    Cert.Spec.mat (V5 m c main_v10 : S64x192.Idx → Elt F .f32) k j
      = (m ((c : Thread nD τ).loc main_arg5) : S192x64.Idx → Elt F .f32) (ix2 j k) := by
  unfold Cert.Spec.mat
  rw [host_arr_v10]
  exact transpose_apply [1, 0] _ transposes_S192x64_S64x192_1_0 (ix2 k j) (ix2 j k)
    (fun b => match b with
      | ⟨0, _⟩ => rfl
      | ⟨1, _⟩ => rfl)

theorem host_arr_v11 : (V5 m c main_v11 : S1x192.Idx → Elt F .f32)
    = shapeCast S1x192 (m ((c : Thread nD τ).loc main_arg6) : S192.Idx → Elt F .f32) shapeCasts_S192_S1x192 := by
  dsimp only [V5, hostOps0_4]
  after_results
  try rfl

theorem host_bih (j : Fin 192) :
    Cert.Spec.row0 (V5 m c main_v11 : S1x192.Idx → Elt F .f32) j
      = (m ((c : Thread nD τ).loc main_arg6) : S192.Idx → Elt F .f32) (ix1 j) := by
  unfold Cert.Spec.row0
  rw [host_arr_v11]
  exact shapeCast_apply _ shapeCasts_S192_S1x192 (ix2 (0 : Fin 1) j) (ix1 j)
    (by rewrite [Shape.rowMajor_val_one, Shape.rowMajor_val_two]; show j.val = 0 * 192 + j.val; omega)

theorem host_arr_v12 : (V5 m c main_v12 : S1x192.Idx → Elt F .f32)
    = shapeCast S1x192 (m ((c : Thread nD τ).loc main_arg7) : S192.Idx → Elt F .f32) shapeCasts_S192_S1x192 := by
  dsimp only [V5, hostOps0_4]
  after_results
  try rfl

theorem host_bhh (j : Fin 192) :
    Cert.Spec.row0 (V5 m c main_v12 : S1x192.Idx → Elt F .f32) j
      = (m ((c : Thread nD τ).loc main_arg7) : S192.Idx → Elt F .f32) (ix1 j) := by
  unfold Cert.Spec.row0
  rw [host_arr_v12]
  exact shapeCast_apply _ shapeCasts_S192_S1x192 (ix2 (0 : Fin 1) j) (ix1 j)
    (by rewrite [Shape.rowMajor_val_one, Shape.rowMajor_val_two]; show j.val = 0 * 192 + j.val; omega)

theorem host_V8_arg3 : (V8 m outs c main_arg3 : S2x64x64.Idx → Elt F .f32) = m ((c : Thread nD τ).loc main_arg3) :=
  (V8_of m outs c main_arg3 (by decide)).trans <|
    (V7_of m outs c main_arg3 (by decide)).trans <|
    (V6_of m outs c main_arg3 (by decide)).trans <|
    (V5_of m c main_arg3 (by decide)).trans <|
    (V4_of m c main_arg3 (by decide)).trans <|
    (V3_of m c main_arg3 (by decide)).trans <|
    (V2_of m c main_arg3 (by decide)).trans <|
    (V1_of m c main_arg3 (by decide)).trans rfl
theorem host_V13_arg8 : (V13 m outs c main_arg8 : S32x64.Idx → Elt F .f32) = m ((c : Thread nD τ).loc main_arg8) :=
  (V13_of m outs c main_arg8 (by decide)).trans <|
    (V12_of m outs c main_arg8 (by decide)).trans <|
    (V11_of m outs c main_arg8 (by decide)).trans <|
    (V10_of m outs c main_arg8 (by decide)).trans <|
    (V9_of m outs c main_arg8 (by decide)).trans <|
    (V8_of m outs c main_arg8 (by decide)).trans <|
    (V7_of m outs c main_arg8 (by decide)).trans <|
    (V6_of m outs c main_arg8 (by decide)).trans <|
    (V5_of m c main_arg8 (by decide)).trans <|
    (V4_of m c main_arg8 (by decide)).trans <|
    (V3_of m c main_arg8 (by decide)).trans <|
    (V2_of m c main_arg8 (by decide)).trans <|
    (V1_of m c main_arg8 (by decide)).trans rfl
theorem host_V13_arg9 : (V13 m outs c main_arg9 : S32.Idx → Elt F .f32) = m ((c : Thread nD τ).loc main_arg9) :=
  (V13_of m outs c main_arg9 (by decide)).trans <|
    (V12_of m outs c main_arg9 (by decide)).trans <|
    (V11_of m outs c main_arg9 (by decide)).trans <|
    (V10_of m outs c main_arg9 (by decide)).trans <|
    (V9_of m outs c main_arg9 (by decide)).trans <|
    (V8_of m outs c main_arg9 (by decide)).trans <|
    (V7_of m outs c main_arg9 (by decide)).trans <|
    (V6_of m outs c main_arg9 (by decide)).trans <|
    (V5_of m c main_arg9 (by decide)).trans <|
    (V4_of m c main_arg9 (by decide)).trans <|
    (V3_of m c main_arg9 (by decide)).trans <|
    (V2_of m c main_arg9 (by decide)).trans <|
    (V1_of m c main_arg9 (by decide)).trans rfl
theorem host_V13_arg10 : (V13 m outs c main_arg10 : S6x32.Idx → Elt F .f32) = m ((c : Thread nD τ).loc main_arg10) :=
  (V13_of m outs c main_arg10 (by decide)).trans <|
    (V12_of m outs c main_arg10 (by decide)).trans <|
    (V11_of m outs c main_arg10 (by decide)).trans <|
    (V10_of m outs c main_arg10 (by decide)).trans <|
    (V9_of m outs c main_arg10 (by decide)).trans <|
    (V8_of m outs c main_arg10 (by decide)).trans <|
    (V7_of m outs c main_arg10 (by decide)).trans <|
    (V6_of m outs c main_arg10 (by decide)).trans <|
    (V5_of m c main_arg10 (by decide)).trans <|
    (V4_of m c main_arg10 (by decide)).trans <|
    (V3_of m c main_arg10 (by decide)).trans <|
    (V2_of m c main_arg10 (by decide)).trans <|
    (V1_of m c main_arg10 (by decide)).trans rfl
theorem host_V13_arg11 : (V13 m outs c main_arg11 : S6.Idx → Elt F .f32) = m ((c : Thread nD τ).loc main_arg11) :=
  (V13_of m outs c main_arg11 (by decide)).trans <|
    (V12_of m outs c main_arg11 (by decide)).trans <|
    (V11_of m outs c main_arg11 (by decide)).trans <|
    (V10_of m outs c main_arg11 (by decide)).trans <|
    (V9_of m outs c main_arg11 (by decide)).trans <|
    (V8_of m outs c main_arg11 (by decide)).trans <|
    (V7_of m outs c main_arg11 (by decide)).trans <|
    (V6_of m outs c main_arg11 (by decide)).trans <|
    (V5_of m c main_arg11 (by decide)).trans <|
    (V4_of m c main_arg11 (by decide)).trans <|
    (V3_of m c main_arg11 (by decide)).trans <|
    (V2_of m c main_arg11 (by decide)).trans <|
    (V1_of m c main_arg11 (by decide)).trans rfl

theorem host_arr_v19 : (V9 m outs c main_v19 : S64x64.Idx → Elt F .f32)
    = shapeCast S64x64 (extractStridedSlice S1x64x64 ![1, 0, 0]
        (V8 m outs c main_arg3 : S2x64x64.Idx → Elt F .f32) slices_S2x64x64_S1x64x64_1_0_0)
        shapeCasts_S1x64x64_S64x64 := by
  dsimp only [V9, hostOps3]
  after_results
  try rfl

theorem host_W1 (k j : Fin 64) :
    Cert.Spec.mat (V9 m outs c main_v19 : S64x64.Idx → Elt F .f32) k j
      = (m ((c : Thread nD τ).loc main_arg3) : S2x64x64.Idx → Elt F .f32) (ix3 (1 : Fin 2) k j) := by
  unfold Cert.Spec.mat
  rw [host_arr_v19, host_V8_arg3]
  refine (shapeCast_apply _ shapeCasts_S1x64x64_S64x64 (ix2 k j) (ix3 (0 : Fin 1) k j)
    (by rewrite [Shape.rowMajor_val_three, Shape.rowMajor_val_two]; show (0 * 64 + k.val) * 64 + j.val = k.val * 64 + j.val; omega)).trans ?_
  exact extractStridedSlice_apply ![1, 0, 0] _ slices_S2x64x64_S1x64x64_1_0_0 (ix3 (0 : Fin 1) k j) (ix3 (1 : Fin 2) k j)
    (fun a => match a with
      | ⟨0, _⟩ => by show 1 = 1 + 0; omega
      | ⟨1, _⟩ => by show k.val = 0 + k.val; omega
      | ⟨2, _⟩ => by show j.val = 0 + j.val; omega)

theorem host_arr_v24 : (V14 m outs c main_v24 : S64x32.Idx → Elt F .f32)
    = transpose S64x32 [1, 0] (V13 m outs c main_arg8 : S32x64.Idx → Elt F .f32) transposes_S32x64_S64x32_1_0 := by
  dsimp only [V14, hostOps7]
  after_results
  try rfl

theorem host_w1 (k : Fin 64) (j : Fin 32) :
    Cert.Spec.mat (V14 m outs c main_v24 : S64x32.Idx → Elt F .f32) k j
      = (m ((c : Thread nD τ).loc main_arg8) : S32x64.Idx → Elt F .f32) (ix2 j k) := by
  unfold Cert.Spec.mat
  rw [host_arr_v24, host_V13_arg8]
  exact transpose_apply [1, 0] _ transposes_S32x64_S64x32_1_0 (ix2 k j) (ix2 j k)
    (fun b => match b with
      | ⟨0, _⟩ => rfl
      | ⟨1, _⟩ => rfl)

theorem host_arr_v25 : (V14 m outs c main_v25 : S1x32.Idx → Elt F .f32)
    = shapeCast S1x32 (V13 m outs c main_arg9 : S32.Idx → Elt F .f32) shapeCasts_S32_S1x32 := by
  dsimp only [V14, hostOps7]
  after_results
  try rfl

theorem host_b1 (j : Fin 32) :
    Cert.Spec.row0 (V14 m outs c main_v25 : S1x32.Idx → Elt F .f32) j
      = (m ((c : Thread nD τ).loc main_arg9) : S32.Idx → Elt F .f32) (ix1 j) := by
  unfold Cert.Spec.row0
  rw [host_arr_v25, host_V13_arg9]
  exact shapeCast_apply _ shapeCasts_S32_S1x32 (ix2 (0 : Fin 1) j) (ix1 j)
    (by rewrite [Shape.rowMajor_val_one, Shape.rowMajor_val_two]; show j.val = 0 * 32 + j.val; omega)

theorem host_arr_v26 : (V14 m outs c main_v26 : S32x6.Idx → Elt F .f32)
    = transpose S32x6 [1, 0] (V13 m outs c main_arg10 : S6x32.Idx → Elt F .f32) transposes_S6x32_S32x6_1_0 := by
  dsimp only [V14, hostOps7]
  after_results
  try rfl

theorem host_w2 (k : Fin 32) (j : Fin 6) :
    Cert.Spec.mat (V14 m outs c main_v26 : S32x6.Idx → Elt F .f32) k j
      = (m ((c : Thread nD τ).loc main_arg10) : S6x32.Idx → Elt F .f32) (ix2 j k) := by
  unfold Cert.Spec.mat
  rw [host_arr_v26, host_V13_arg10]
  exact transpose_apply [1, 0] _ transposes_S6x32_S32x6_1_0 (ix2 k j) (ix2 j k)
    (fun b => match b with
      | ⟨0, _⟩ => rfl
      | ⟨1, _⟩ => rfl)

theorem host_arr_v27 : (V14 m outs c main_v27 : S1x6.Idx → Elt F .f32)
    = shapeCast S1x6 (V13 m outs c main_arg11 : S6.Idx → Elt F .f32) shapeCasts_S6_S1x6 := by
  dsimp only [V14, hostOps7]
  after_results
  try rfl

theorem host_b2 (j : Fin 6) :
    Cert.Spec.row0 (V14 m outs c main_v27 : S1x6.Idx → Elt F .f32) j
      = (m ((c : Thread nD τ).loc main_arg11) : S6.Idx → Elt F .f32) (ix1 j) := by
  unfold Cert.Spec.row0
  rw [host_arr_v27, host_V13_arg11]
  exact shapeCast_apply _ shapeCasts_S6_S1x6 (ix2 (0 : Fin 1) j) (ix1 j)
    (by rewrite [Shape.rowMajor_val_one, Shape.rowMajor_val_two]; show j.val = 0 * 6 + j.val; omega)

end Cert.KernelIdeal.Hand

end
-- ==== Proof.Bridge.lean ====
import proofs.«413690_j74569222193909_1_alg».proof.Proof.Spec
import Mathlib.Algebra.BigOperators.Group.Finset.Basic
import Mathlib.Data.Fin.Embedding
import Mathlib.Data.EReal.Basic

noncomputable section

open scoped BigOperators

namespace Cert.Spec

def Agree {N M D : ℕ} (a : Mat M D) (b : Mat N D) : Prop :=
  ∀ (i : Fin M) (hi : i.val < N) (q : Fin D), a i q = b ⟨i.val, hi⟩ q

theorem sum_castLE {N M : ℕ} (h : N ≤ M) (f : Fin M → EReal) (hz : ∀ i : Fin M, N ≤ i.val → f i = 0) :
    ∑ i : Fin M, f i = ∑ i : Fin N, f (Fin.castLE h i) := by
  have hmap : ∑ i : Fin N, f (Fin.castLE h i) = ∑ i ∈ Finset.univ.map (Fin.castLEEmb h), f i := by
    rw [Finset.sum_map]
    rfl
  rw [hmap]
  symm
  apply Finset.sum_subset (Finset.subset_univ _)
  intro i _ hi
  apply hz
  by_contra hlt
  apply hi
  rw [Finset.mem_map]
  exact ⟨⟨i.val, Nat.lt_of_not_le hlt⟩, Finset.mem_univ _, Fin.ext rfl⟩

theorem toNat_ofNat_lt {n : ℕ} (hn : n < 2 ^ 32) : (BitVec.ofNat 32 n).toNat = n := by
  rw [BitVec.toNat_ofNat]
  exact Nat.mod_eq_of_lt hn

theorem hot_ofNat_of_ne {s : BitVec 32} {n : ℕ} (hn : n < 2 ^ 32) (hne : s.toNat ≠ n) :
    hot s (BitVec.ofNat 32 n) = 0 := by
  unfold hot
  rw [if_neg]
  intro h
  apply hne
  rw [h]
  exact toNat_ofNat_lt hn

theorem hot_ofNat_of_ne' {s : BitVec 32} {n : ℕ} (hn : n < 2 ^ 32) (hne : s.toNat ≠ n) :
    hot (BitVec.ofNat 32 n) s = 0 := by
  unfold hot
  rw [if_neg]
  intro h
  apply hne
  rw [← h]
  exact toNat_ofNat_lt hn

theorem hot_128 (g : Fin 128) : hot (128#32) (BitVec.ofNat 32 g.val) = 0 := by
  apply hot_ofNat_of_ne
  · have := g.isLt
    omega
  · have := g.isLt
    have h128 : (128#32).toNat = 128 := rfl
    omega

theorem mm_agree {N M K P : ℕ} {a : Mat M K} {b : Mat N K} (h : Agree a b) (w : Mat K P) :
    Agree (mm a w) (mm b w) := by
  intro i hi j
  unfold mm
  exact Finset.sum_congr rfl (fun l _ => by rw [h i hi l])

theorem gate_agree {N M : ℕ} {a : Mat M 64} {b : Mat N 64} (h : Agree a b) (w : Mat 64 192) (c : Fin 192 → EReal) :
    Agree (gate a w c) (gate b w c) := by
  intro i hi j
  unfold gate
  rw [mm_agree h w i hi j]

theorem gru_agree {N M : ℕ} {agg h : Mat M 64} {agg' h' : Mat N 64} (ha : Agree agg agg') (hh : Agree h h')
    (wih whh : Mat 64 192) (bih bhh : Fin 192 → EReal) :
    Agree (gru agg h wih whh bih bhh) (gru agg' h' wih whh bih bhh) := by
  intro i hi q
  unfold gru
  have h1 : gate agg wih bih i = gate agg' wih bih ⟨i.val, hi⟩ := funext (fun j => gate_agree ha wih bih i hi j)
  have h2 : gate h whh bhh i = gate h' whh bhh ⟨i.val, hi⟩ := funext (fun j => gate_agree hh whh bhh i hi j)
  rw [h1, h2, hh i hi q]

theorem gruRelu_agree {N M : ℕ} {agg h : Mat M 64} {agg' h' : Mat N 64} (ha : Agree agg agg') (hh : Agree h h')
    (wih whh : Mat 64 192) (bih bhh : Fin 192 → EReal) :
    Agree (gruRelu agg h wih whh bih bhh) (gruRelu agg' h' wih whh bih bhh) := by
  intro i hi q
  unfold gruRelu
  rw [gru_agree ha hh wih whh bih bhh i hi q]

theorem gath_pad {E N M D : ℕ} (hNM : N ≤ M) (hM : M ≤ 2 ^ 32) (src : Fin E → BitVec 32)
    (hsrc : ∀ e, (src e).toNat < N) {m : Mat M D} {m' : Mat N D} (h : Agree m m') :
    gath src m = gath src m' := by
  funext e q
  unfold gath
  rw [sum_castLE hNM]
  · apply Finset.sum_congr rfl
    intro n _
    rw [h (Fin.castLE hNM n) n.isLt q]
    rfl
  · intro n hn
    rw [hot_ofNat_of_ne (Nat.lt_of_lt_of_le n.isLt hM), zero_mul]
    have := hsrc e
    omega

theorem scat_agree {E N M D : ℕ} (dst : Fin E → BitVec 32) (msg : Mat E D) :
    Agree (scat dst msg : Mat M D) (scat dst msg : Mat N D) :=
  fun _ _ _ => rfl

theorem msgp_agree {E N M D : ℕ} (hNM : N ≤ M) (hM : M ≤ 2 ^ 32) (src dst : Fin E → BitVec 32)
    (hsrc : ∀ e, (src e).toNat < N) {m : Mat M D} {m' : Mat N D} (h : Agree m m') :
    Agree (msgp src dst m) (msgp src dst m') := by
  unfold msgp
  rw [gath_pad hNM hM src hsrc h]
  exact scat_agree dst _

theorem poolSum_pad {N M : ℕ} (hNM : N ≤ M) (batch : Fin N → BitVec 32) (batchP : Fin M → BitVec 32)
    {hP : Mat M 64} {h : Mat N 64} (hh : Agree hP h)
    (hb : ∀ (i : Fin M) (hi : i.val < N), batchP i = batch ⟨i.val, hi⟩)
    (hb' : ∀ i : Fin M, N ≤ i.val → batchP i = 128#32) :
    poolSum batchP hP = poolSum batch h := by
  funext g q
  unfold poolSum
  rw [sum_castLE hNM]
  · apply Finset.sum_congr rfl
    intro i _
    rw [hb (Fin.castLE hNM i) i.isLt, hh (Fin.castLE hNM i) i.isLt q]
    rfl
  · intro i hi
    rw [hb' i hi, hot_128 g, zero_mul]

theorem poolCnt_pad {N M : ℕ} (hNM : N ≤ M) (batch : Fin N → BitVec 32) (batchP : Fin M → BitVec 32)
    (hb : ∀ (i : Fin M) (hi : i.val < N), batchP i = batch ⟨i.val, hi⟩)
    (hb' : ∀ i : Fin M, N ≤ i.val → batchP i = 128#32) :
    poolCnt batchP = poolCnt batch := by
  funext g
  unfold poolCnt
  rw [sum_castLE hNM]
  · apply Finset.sum_congr rfl
    intro i _
    rw [hb (Fin.castLE hNM i) i.isLt]
    rfl
  · intro i hi
    rw [hb' i hi, hot_128 g, zero_mul]

theorem net_pad_gen {N M E : ℕ} (hNM : N ≤ M) (hM : M ≤ 2 ^ 32) (h0 : Mat N 64) (hP : Mat M 64)
    (src dst : Fin E → BitVec 32) (batch : Fin N → BitVec 32) (batchP : Fin M → BitVec 32)
    (W0 W1 : Mat 64 64) (wih whh : Mat 64 192) (bih bhh : Fin 192 → EReal) (w1 : Mat 64 32) (b1 : Fin 32 → EReal)
    (w2 : Mat 32 6) (b2 : Fin 6 → EReal)
    (hsrc : ∀ e, (src e).toNat < N)
    (hh : Agree hP h0)
    (hb : ∀ (i : Fin M) (hi : i.val < N), batchP i = batch ⟨i.val, hi⟩)
    (hb' : ∀ i : Fin M, N ≤ i.val → batchP i = 128#32) :
    net hP src dst batchP W0 W1 wih whh bih bhh w1 b1 w2 b2 = net h0 src dst batch W0 W1 wih whh bih bhh w1 b1 w2 b2 := by
  have e1 : Agree (gru (msgp src dst (mm hP W0)) hP wih whh bih bhh) (gru (msgp src dst (mm h0 W0)) h0 wih whh bih bhh) :=
    gru_agree (msgp_agree hNM hM src dst hsrc (mm_agree hh W0)) hh wih whh bih bhh
  have e2 := gruRelu_agree (msgp_agree hNM hM src dst hsrc (mm_agree e1 W1)) e1 wih whh bih bhh
  unfold net
  simp only
  rw [poolSum_pad hNM batch batchP e2 hb hb', poolCnt_pad hNM batch batchP hb hb']

theorem net_pad (h0 : Mat 50000 64) (hP : Mat 50176 64) (src dst : Fin 800000 → BitVec 32) (batch : Fin 50000 → BitVec 32) (batchP : Fin 50176 → BitVec 32)
    (W0 W1 : Mat 64 64) (wih whh : Mat 64 192) (bih bhh : Fin 192 → EReal) (w1 : Mat 64 32) (b1 : Fin 32 → EReal) (w2 : Mat 32 6) (b2 : Fin 6 → EReal)
    (hsrc : ∀ e, (src e).toNat < 50000)
    (hh : ∀ (i : Fin 50176) (hi : i.val < 50000) (q : Fin 64), hP i q = h0 ⟨i.val, hi⟩ q)
    (hb : ∀ (i : Fin 50176) (hi : i.val < 50000), batchP i = batch ⟨i.val, hi⟩)
    (hb' : ∀ i : Fin 50176, 50000 ≤ i.val → batchP i = 128#32) :
    net hP src dst batchP W0 W1 wih whh bih bhh w1 b1 w2 b2 = net h0 src dst batch W0 W1 wih whh bih bhh w1 b1 w2 b2 :=
  net_pad_gen (by omega) (by omega) h0 hP src dst batch batchP W0 W1 wih whh bih bhh w1 b1 w2 b2 hsrc hh hb hb'

end Cert.Spec

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

section Gather
variable {α : Type}

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

section Scatter

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start_one (e : Fin E) (q' : Fin D) :
    (rowScatter N E D wf).start (ix2 e q') idx 1 = 0 := by
  unfold ScatterDims.start
  rw [dif_neg (show (1 : Fin 2) ∉ [(0 : Fin 2)] by decide)]

theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

section Broadcasts
variable {α : Type}

theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.Ref.Basic.lean ====
import proofs.«413690_j74569222193909_1_alg».proof.Proof.Spec
import proofs.«413690_j74569222193909_1_alg».proof.Proof.LibRowGatherScatter
import Idealize.ShloMosaic.PureOps.Ideal.Laws
import Idealize.ShloMosaic.Lib.IdealHost

noncomputable section

open scoped BigOperators

namespace Cert.ReferenceIdeal.Hand

open Idealize.ShloMosaic Idealize.ShloMosaic.ValueIdx Cert.Spec

theorem one_eq : Cert.Spec.one = 1 := Ideal.ofBits_one_f32

theorem oneN_eq : Cert.Spec.oneN = 1 := Ideal.ofBits_one_bf16

theorem zero_eq : Cert.Spec.zero = 0 := Ideal.ofBits_zero_f32

theorem ninf_eq : Cert.Spec.ninf = ⊥ := by
  unfold Cert.Spec.ninf
  simp [Ideal.ofBits, Ideal.ieee]

theorem toInt_eq_natCast_iff (w : BitVec 32) (d : Nat) (hd : d < 2 ^ 31) :
    w.toInt = (d : ℤ) ↔ BitVec.ofNat 32 d = w := by
  constructor
  · intro h
    apply BitVec.eq_of_toNat_eq
    rw [BitVec.toNat_ofNat]
    rw [BitVec.toInt_eq_toNat_cond] at h
    have := w.isLt
    split at h <;> omega
  · intro h
    subst h
    rw [BitVec.toInt_eq_toNat_cond, BitVec.toNat_ofNat]
    have : d % 2 ^ 32 = d := Nat.mod_eq_of_lt (by omega)
    rw [this]
    split <;> omega

theorem wrap_keep (s n : BitVec 32) (hs : s.toNat < 2 ^ 31) : (if s.toInt < 0 then s + n else s) = s := by
  rw [if_neg]
  rw [BitVec.toInt_eq_toNat_cond]
  split <;> omega

theorem toInt_toNat_of_lt (s : BitVec 32) (hs : s.toNat < 2 ^ 31) : s.toInt.toNat = s.toNat := by
  rw [BitVec.toInt_eq_toNat_cond]
  split <;> omega

theorem ofNat_toNat_self (s : BitVec 32) : BitVec.ofNat 32 s.toNat = s := by
  apply BitVec.eq_of_toNat_eq
  rw [BitVec.toNat_ofNat]
  exact Nat.mod_eq_of_lt s.isLt

theorem hot_comm (a b : BitVec 32) : hot a b = hot b a := by
  unfold hot
  by_cases h : a = b
  · rw [if_pos h, if_pos h.symm]
  · rw [if_neg h, if_neg (fun h' => h h'.symm)]

theorem gather_eq_gath {N E D : ℕ} (hN : 0 < N) (hN' : N ≤ 2 ^ 31)
    (wf : GatherDims.WF ⟨2, ![N, D]⟩ ⟨2, ![E, 1]⟩ ⟨2, ![E, D]⟩ [1] [0] [] [0] [] 1 ![1, D])
    (t : (⟨2, ![N, D]⟩ : Shape).Idx → EReal) (idx : IVec ⟨2, ![E, 1]⟩ 32) (src : Fin E → BitVec 32)
    (hidx : ∀ e, idx (ix2 e 0) = src e) (hsrc : ∀ e, (src e).toNat < N) :
    mat (Host.gather (rowGather N E D wf) t idx) = gath src (mat t) := by
  funext e q
  show Host.gather (rowGather N E D wf) t idx (ix2 e q)
    = ∑ n : Fin N, hot (src e) (BitVec.ofNat 32 n.val) * t (ix2 n q)
  rw [rowGather_apply_of_eq hN wf t idx e q (src e) (hidx e)]
  have hlt := hsrc e
  have h31 : (src e).toNat < 2 ^ 31 := by omega
  rw [Finset.sum_eq_single (⟨(src e).toNat, hlt⟩ : Fin N)]
  · have h1 : hot (src e) (BitVec.ofNat 32 (src e).toNat) = 1 := by
      unfold hot
      rw [if_pos (ofNat_toNat_self _).symm]
    rw [h1, one_mul]
    refine congrArg (fun r : Fin N => t (ix2 r q)) (Fin.ext ?_)
    show min (src e).toInt.toNat (N - 1) = (src e).toNat
    rw [toInt_toNat_of_lt _ h31]
    omega
  · intro n _ hn
    have h0 : hot (src e) (BitVec.ofNat 32 n.val) = 0 := by
      unfold hot
      rw [if_neg]
      intro h
      apply hn
      apply Fin.ext
      show n.val = (src e).toNat
      rw [h, BitVec.toNat_ofNat]
      have := n.isLt
      omega
    rw [h0, zero_mul]
  · intro h
    exact absurd (Finset.mem_univ _) h

theorem scatterAdd_eq_scat {N E D : ℕ} (hN' : N ≤ 2 ^ 31)
    (wf : ScatterDims.WF ⟨2, ![N, D]⟩ ⟨2, ![E, 1]⟩ ⟨2, ![E, D]⟩ [1] [0] [0] 1)
    (x : FVec Ideal ⟨2, ![N, D]⟩ .f32) (hx : ∀ j, x j = 0) (idx : IVec ⟨2, ![E, 1]⟩ 32) (dst : Fin E → BitVec 32)
    (hidx : ∀ e, idx (ix2 e 0) = dst e) (upd : FVec Ideal ⟨2, ![E, D]⟩ .f32) :
    mat (Host.scatterAdd (F := Ideal) (rowScatter N E D wf) x idx upd) = scat dst (mat upd) := by
  funext n q
  show Host.scatterAdd (F := Ideal) (rowScatter N E D wf) x idx upd (ix2 n q)
    = ∑ e : Fin E, hot (BitVec.ofNat 32 n.val) (dst e) * upd (ix2 e q)
  rw [rowScatterAdd_apply wf idx x upd n q, hx, zero_add, Finset.sum_filter]
  refine Finset.sum_congr rfl fun e _ => ?_
  rw [hidx e]
  have hn : n.val < 2 ^ 31 := by have := n.isLt; omega
  unfold hot
  by_cases h : BitVec.ofNat 32 n.val = dst e
  · rw [if_pos ((toInt_eq_natCast_iff _ _ hn).mpr h), if_pos h, one_mul]
  · rw [if_neg (fun h' => h ((toInt_eq_natCast_iff _ _ hn).mp h')), if_neg h, zero_mul]

theorem poolSum_eq_scat {N : ℕ} (batch : Fin N → BitVec 32) (h : Mat N 64) :
    poolSum batch h = scat (N := 128) batch h := by
  funext g q
  show ∑ i : Fin N, hot (batch i) (BitVec.ofNat 32 g.val) * h i q
    = ∑ i : Fin N, hot (BitVec.ofNat 32 g.val) (batch i) * h i q
  refine Finset.sum_congr rfl fun i _ => ?_
  rw [hot_comm]

end Cert.ReferenceIdeal.Hand

end
-- ==== Proof.Ref.Layer.lean ====
import proofs.«413690_j74569222193909_1_alg».proof.Proof.Ref.Basic
import proofs.«413690_j74569222193909_1_alg».proof.Proof.Gen.ReferenceIdeal.Read

noncomputable section

open scoped BigOperators

namespace Cert.ReferenceIdeal.Hand

open Idealize.ShloMosaic Idealize.ShloMosaic.ValueIdx Cert.Spec Cert.ReferenceIdeal Cert.ReferenceIdeal.Read

variable (x0 : (⟨S50000x64, .f32⟩ : BufTy).Contents (Elt Ideal)) (x1 : (⟨S2x800000, .i32⟩ : BufTy).Contents (Elt Ideal))
  (x3 : (⟨S2x64x64, .f32⟩ : BufTy).Contents (Elt Ideal)) (x4 x5 : (⟨S192x64, .f32⟩ : BufTy).Contents (Elt Ideal))
  (x6 x7 : (⟨S192, .f32⟩ : BufTy).Contents (Elt Ideal))

theorem src_word (e : Fin 800000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

theorem dst_word (e : Fin 800000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

theorem lin1 : mat (val_main_v6 (F := Ideal) x0 x3) = mm (mat x0) (fun k j => x3 (ix3 (0 : Fin 2) k j)) := by
  funext i j
  show val_main_v6 (F := Ideal) x0 x3 (ix2 i j) = ∑ l : Fin 64, x0 (ix2 i l) * x3 (ix3 (0 : Fin 2) l j)
  rw [val_main_v6_apply]
  refine Finset.sum_congr rfl fun k _ => ?_
  rw [val_main_v5_apply, val_main_v4_apply]
  have e1 : lidx_main_v6 (ix2 i j) k = ix2 i k := funext fun a => by
    match a with
    | ⟨0, _⟩ => rfl
    | ⟨1, _⟩ => rfl
  have e2 : idx_main_v4 (idx_main_v5 (ridx_main_v6 (ix2 i j) k)) = ix3 (0 : Fin 2) k j :=
    funext fun a => Fin.ext (by
      have hk := k.isLt
      have hj := j.isLt
      match a with
      | ⟨0, _⟩ => rfl
      | ⟨1, _⟩ => show (k.val * 64 + j.val) / 64 % 64 = k.val; omega
      | ⟨2, _⟩ => show (k.val * 64 + j.val) % 64 = j.val; omega)
  rw [e1, e2]

theorem wrapped1 (e : Fin 800000) (h : (x1 (ix2 (0 : Fin 2) e)).toNat < 50000) :
    val_main_v12 (F := Ideal) x1 (ix2 e 0) = x1 (ix2 (0 : Fin 2) e) := by
  have e0 : idx_main_v12 (ix2 e 0) = ix1 e := funext fun a => by
    match a with
    | ⟨0, _⟩ => rfl
  rw [val_main_v12_apply, val_main_v11_apply, val_main_v8_apply, val_main_v10_apply, val_main_v9_apply,
    val_main_c_0_apply, val_main_v7_apply, val_main_c_apply, e0, src_word, wrap_select]
  exact wrap_keep _ _ (by omega)

theorem gat1 (hsrc : ∀ e : Fin 800000, (x1 (ix2 (0 : Fin 2) e)).toNat < 50000) :
    mat (val_main_v13 (F := Ideal) x0 x1 x3) = gath (fun e => x1 (ix2 (0 : Fin 2) e)) (mat (val_main_v6 (F := Ideal) x0 x3)) := by
  show mat (Host.gather (rowGather 50000 800000 64 Gen.gather_S50000x64_S800000x1_S800000x64_1_0_n_n_0_1_164_wf)
    (val_main_v6 (F := Ideal) x0 x3) (val_main_v12 (F := Ideal) x1)) = _
  exact gather_eq_gath (by norm_num) (by norm_num) _ _ _ _ (fun e => wrapped1 x1 e (hsrc e)) hsrc

theorem zero1 (j : S50000x64.Idx) : val_main_v14 (F := Ideal) j = 0 := by
  rw [val_main_v14_apply, val_main_cst_apply]
  exact Ideal.ofBits_zero_f32

theorem dstcol1 (e : Fin 800000) : val_main_v15 (F := Ideal) x1 (ix2 e 0) = x1 (ix2 (1 : Fin 2) e) := by
  have e0 : idx_main_v15 (ix2 e 0) = ix1 e := funext fun a => by
    match a with
    | ⟨0, _⟩ => rfl
  rw [val_main_v15_apply, e0, dst_word]

theorem sca1 : mat (val_main_v16 (F := Ideal) x0 x1 x3) = scat (fun e => x1 (ix2 (1 : Fin 2) e)) (mat (val_main_v13 (F := Ideal) x0 x1 x3)) := by
  show mat (Host.scatterAdd (F := Ideal) (rowScatter 50000 800000 64 Gen.scatter_S50000x64_S800000x1_S800000x64_1_0_0_1_wf)
    (val_main_v14 (F := Ideal)) (val_main_v15 (F := Ideal) x1) (val_main_v13 (F := Ideal) x0 x1 x3)) = _
  exact scatterAdd_eq_scat (by norm_num) _ _ (zero1) _ _ (fun e => dstcol1 x1 e) _

theorem gate_i1 (i : Fin 50000) (j : Fin 192) :
    val_main_v21 (F := Ideal) x0 x1 x3 x4 x6 (ix2 i j)
      = gate (mat (val_main_v16 (F := Ideal) x0 x1 x3)) (fun k j => x4 (ix2 j k)) (fun j => x6 (ix1 j)) i j := by
  rw [val_main_v21_apply, val_main_v18_apply, val_main_v20_apply, val_main_v19_apply]
  show (∑ k : Fin 64, _) + _ = (∑ l : Fin 64, (val_main_v16 (F := Ideal) x0 x1 x3) (ix2 i l) * x4 (ix2 j l)) + x6 (ix1 j)
  refine congrArg₂ (· + ·) (Finset.sum_congr rfl fun k _ => ?_) ?_
  · rw [val_main_v17_apply]
    have e1 : lidx_main_v18 (ix2 i j) k = ix2 i k := funext fun a => by
      match a with
      | ⟨0, _⟩ => rfl
      | ⟨1, _⟩ => rfl
    have e2 : idx_main_v17 (ridx_main_v18 (ix2 i j) k) = ix2 j k := funext fun a => by
      match a with
      | ⟨0, _⟩ => rfl
      | ⟨1, _⟩ => rfl
    rw [e1, e2]
  · refine congrArg x6 (funext fun a => ?_)
    match a with
    | ⟨0, _⟩ => rfl

theorem gate_h1 (i : Fin 50000) (j : Fin 192) :
    val_main_v26 (F := Ideal) x0 x5 x7 (ix2 i j)
      = gate (mat x0) (fun k j => x5 (ix2 j k)) (fun j => x7 (ix1 j)) i j := by
  rw [val_main_v26_apply, val_main_v23_apply, val_main_v25_apply, val_main_v24_apply]
  show (∑ k : Fin 64, _) + _ = (∑ l : Fin 64, x0 (ix2 i l) * x5 (ix2 j l)) + x7 (ix1 j)
  refine congrArg₂ (· + ·) (Finset.sum_congr rfl fun k _ => ?_) ?_
  · rw [val_main_v22_apply]
    have e1 : lidx_main_v23 (ix2 i j) k = ix2 i k := funext fun a => by
      match a with
      | ⟨0, _⟩ => rfl
      | ⟨1, _⟩ => rfl
    have e2 : idx_main_v22 (ridx_main_v23 (ix2 i j) k) = ix2 j k := funext fun a => by
      match a with
      | ⟨0, _⟩ => rfl
      | ⟨1, _⟩ => rfl
    rw [e1, e2]
  · refine congrArg x7 (funext fun a => ?_)
    match a with
    | ⟨0, _⟩ => rfl

theorem cell1 (i : Fin 50000) (q : Fin 64) :
    val_main_v54 (F := Ideal) x0 x1 x3 x4 x5 x6 x7 (ix2 i q)
      = gruCell (fun j => val_main_v21 (F := Ideal) x0 x1 x3 x4 x6 (ix2 i j)) (fun j => val_main_v26 (F := Ideal) x0 x5 x7 (ix2 i j)) (x0 (ix2 i q)) q := by
  have s0 : idx_main_v27 (ix2 i q) = ix2 i (third 0 (by omega) q) := funext fun a => Fin.ext (by
    match a with
    | ⟨0, _⟩ => rfl
    | ⟨1, _⟩ => exact (Nat.zero_add _).symm)
  have s1 : idx_main_v28 (ix2 i q) = ix2 i (third 64 (by omega) q) := funext fun a => Fin.ext (by
    match a with
    | ⟨0, _⟩ => rfl
    | ⟨1, _⟩ => rfl)
  have s2 : idx_main_v29 (ix2 i q) = ix2 i (third 128 (by omega) q) := funext fun a => Fin.ext (by
    match a with
    | ⟨0, _⟩ => rfl
    | ⟨1, _⟩ => rfl)
  have s3 : idx_main_v30 (ix2 i q) = ix2 i (third 0 (by omega) q) := funext fun a => Fin.ext (by
    match a with
    | ⟨0, _⟩ => rfl
    | ⟨1, _⟩ => exact (Nat.zero_add _).symm)
  have s4 : idx_main_v31 (ix2 i q) = ix2 i (third 64 (by omega) q) := funext fun a => Fin.ext (by
    match a with
    | ⟨0, _⟩ => rfl
    | ⟨1, _⟩ => rfl)
  have s5 : idx_main_v32 (ix2 i q) = ix2 i (third 128 (by omega) q) := funext fun a => Fin.ext (by
    match a with
    | ⟨0, _⟩ => rfl
    | ⟨1, _⟩ => rfl)
  rw [val_main_v54_apply, val_main_v52_apply, val_main_v53_apply, val_main_v51_apply, val_main_v50_apply, val_main_cst_5_apply, val_main_v49_apply, val_main_v48_apply, val_main_v47_apply, val_main_v46_apply, val_main_v45_apply, val_main_cst_4_apply, val_main_v44_apply, val_main_v43_apply, val_main_cst_3_apply, val_main_v42_apply, val_main_v41_apply, val_main_v40_apply, val_main_v39_apply, val_main_v38_apply, val_main_cst_2_apply, val_main_v37_apply, val_main_v36_apply, val_main_cst_1_apply, val_main_v35_apply, val_main_v34_apply, val_main_v33_apply, val_main_v27_apply, val_main_v28_apply, val_main_v29_apply, val_main_v30_apply, val_main_v31_apply, val_main_v32_apply,
    s0, s1, s2, s3, s4, s5]
  unfold gruCell
  simp only [Cert.Spec.one, Ideal.ofBits_def, Ideal.ofBits_one_f32, Ideal.addf_def, Ideal.subf_def, Ideal.mulf_def,
    Ideal.hostDivf_def, Ideal.hostUnary_exp_def, Ideal.hostUnary_tanh_def, Ideal.hostNegf_def, Ideal.negf_def, Ideal.logistic]

theorem lin2 : mat (val_main_v57 (F := Ideal) x0 x1 x3 x4 x5 x6 x7) = mm (mat (val_main_v54 (F := Ideal) x0 x1 x3 x4 x5 x6 x7)) (fun k j => x3 (ix3 (1 : Fin 2) k j)) := by
  funext i j
  show val_main_v57 (F := Ideal) x0 x1 x3 x4 x5 x6 x7 (ix2 i j) = ∑ l : Fin 64, (val_main_v54 (F := Ideal) x0 x1 x3 x4 x5 x6 x7) (ix2 i l) * x3 (ix3 (1 : Fin 2) l j)
  rw [val_main_v57_apply]
  refine Finset.sum_congr rfl fun k _ => ?_
  rw [val_main_v56_apply, val_main_v55_apply]
  have e1 : lidx_main_v57 (ix2 i j) k = ix2 i k := funext fun a => by
    match a with
    | ⟨0, _⟩ => rfl
    | ⟨1, _⟩ => rfl
  have e2 : idx_main_v55 (idx_main_v56 (ridx_main_v57 (ix2 i j) k)) = ix3 (1 : Fin 2) k j :=
    funext fun a => Fin.ext (by
      have hk := k.isLt
      have hj := j.isLt
      match a with
      | ⟨0, _⟩ => rfl
      | ⟨1, _⟩ => show (k.val * 64 + j.val) / 64 % 64 = k.val; omega
      | ⟨2, _⟩ => show (k.val * 64 + j.val) % 64 = j.val; omega)
  rw [e1, e2]

theorem wrapped2 (e : Fin 800000) (h : (x1 (ix2 (0 : Fin 2) e)).toNat < 50000) :
    val_main_v63 (F := Ideal) x1 (ix2 e 0) = x1 (ix2 (0 : Fin 2) e) := by
  have e0 : idx_main_v63 (ix2 e 0) = ix1 e := funext fun a => by
    match a with
    | ⟨0, _⟩ => rfl
  rw [val_main_v63_apply, val_main_v62_apply, val_main_v59_apply, val_main_v61_apply, val_main_v60_apply,
    val_main_c_7_apply, val_main_v58_apply, val_main_c_6_apply, e0, src_word, wrap_select]
  exact wrap_keep _ _ (by omega)

theorem gat2 (hsrc : ∀ e : Fin 800000, (x1 (ix2 (0 : Fin 2) e)).toNat < 50000) :
    mat (val_main_v64 (F := Ideal) x0 x1 x3 x4 x5 x6 x7) = gath (fun e => x1 (ix2 (0 : Fin 2) e)) (mat (val_main_v57 (F := Ideal) x0 x1 x3 x4 x5 x6 x7)) := by
  show mat (Host.gather (rowGather 50000 800000 64 Gen.gather_S50000x64_S800000x1_S800000x64_1_0_n_n_0_1_164_wf)
    (val_main_v57 (F := Ideal) x0 x1 x3 x4 x5 x6 x7) (val_main_v63 (F := Ideal) x1)) = _
  exact gather_eq_gath (by norm_num) (by norm_num) _ _ _ _ (fun e => wrapped2 x1 e (hsrc e)) hsrc

theorem zero2 (j : S50000x64.Idx) : val_main_v65 (F := Ideal) j = 0 := by
  rw [val_main_v65_apply, val_main_cst_8_apply]
  exact Ideal.ofBits_zero_f32

theorem dstcol2 (e : Fin 800000) : val_main_v66 (F := Ideal) x1 (ix2 e 0) = x1 (ix2 (1 : Fin 2) e) := by
  have e0 : idx_main_v66 (ix2 e 0) = ix1 e := funext fun a => by
    match a with
    | ⟨0, _⟩ => rfl
  rw [val_main_v66_apply, e0, dst_word]

theorem sca2 : mat (val_main_v67 (F := Ideal) x0 x1 x3 x4 x5 x6 x7) = scat (fun e => x1 (ix2 (1 : Fin 2) e)) (mat (val_main_v64 (F := Ideal) x0 x1 x3 x4 x5 x6 x7)) := by
  show mat (Host.scatterAdd (F := Ideal) (rowScatter 50000 800000 64 Gen.scatter_S50000x64_S800000x1_S800000x64_1_0_0_1_wf)
    (val_main_v65 (F := Ideal)) (val_main_v66 (F := Ideal) x1) (val_main_v64 (F := Ideal) x0 x1 x3 x4 x5 x6 x7)) = _
  exact scatterAdd_eq_scat (by norm_num) _ _ (zero2) _ _ (fun e => dstcol2 x1 e) _

theorem gate_i2 (i : Fin 50000) (j : Fin 192) :
    val_main_v72 (F := Ideal) x0 x1 x3 x4 x5 x6 x7 (ix2 i j)
      = gate (mat (val_main_v67 (F := Ideal) x0 x1 x3 x4 x5 x6 x7)) (fun k j => x4 (ix2 j k)) (fun j => x6 (ix1 j)) i j := by
  rw [val_main_v72_apply, val_main_v69_apply, val_main_v71_apply, val_main_v70_apply]
  show (∑ k : Fin 64, _) + _ = (∑ l : Fin 64, (val_main_v67 (F := Ideal) x0 x1 x3 x4 x5 x6 x7) (ix2 i l) * x4 (ix2 j l)) + x6 (ix1 j)
  refine congrArg₂ (· + ·) (Finset.sum_congr rfl fun k _ => ?_) ?_
  · rw [val_main_v68_apply]
    have e1 : lidx_main_v69 (ix2 i j) k = ix2 i k := funext fun a => by
      match a with
      | ⟨0, _⟩ => rfl
      | ⟨1, _⟩ => rfl
    have e2 : idx_main_v68 (ridx_main_v69 (ix2 i j) k) = ix2 j k := funext fun a => by
      match a with
      | ⟨0, _⟩ => rfl
      | ⟨1, _⟩ => rfl
    rw [e1, e2]
  · refine congrArg x6 (funext fun a => ?_)
    match a with
    | ⟨0, _⟩ => rfl

theorem gate_h2 (i : Fin 50000) (j : Fin 192) :
    val_main_v77 (F := Ideal) x0 x1 x3 x4 x5 x6 x7 (ix2 i j)
      = gate (mat (val_main_v54 (F := Ideal) x0 x1 x3 x4 x5 x6 x7)) (fun k j => x5 (ix2 j k)) (fun j => x7 (ix1 j)) i j := by
  rw [val_main_v77_apply, val_main_v74_apply, val_main_v76_apply, val_main_v75_apply]
  show (∑ k : Fin 64, _) + _ = (∑ l : Fin 64, (val_main_v54 (F := Ideal) x0 x1 x3 x4 x5 x6 x7) (ix2 i l) * x5 (ix2 j l)) + x7 (ix1 j)
  refine congrArg₂ (· + ·) (Finset.sum_congr rfl fun k _ => ?_) ?_
  · rw [val_main_v73_apply]
    have e1 : lidx_main_v74 (ix2 i j) k = ix2 i k := funext fun a => by
      match a with
      | ⟨0, _⟩ => rfl
      | ⟨1, _⟩ => rfl
    have e2 : idx_main_v73 (ridx_main_v74 (ix2 i j) k) = ix2 j k := funext fun a => by
      match a with
      | ⟨0, _⟩ => rfl
      | ⟨1, _⟩ => rfl
    rw [e1, e2]
  · refine congrArg x7 (funext fun a => ?_)
    match a with
    | ⟨0, _⟩ => rfl

theorem cell2 (i : Fin 50000) (q : Fin 64) :
    val_main_v105 (F := Ideal) x0 x1 x3 x4 x5 x6 x7 (ix2 i q)
      = gruCell (fun j => val_main_v72 (F := Ideal) x0 x1 x3 x4 x5 x6 x7 (ix2 i j)) (fun j => val_main_v77 (F := Ideal) x0 x1 x3 x4 x5 x6 x7 (ix2 i j)) ((val_main_v54 (F := Ideal) x0 x1 x3 x4 x5 x6 x7) (ix2 i q)) q := by
  have s0 : idx_main_v78 (ix2 i q) = ix2 i (third 0 (by omega) q) := funext fun a => Fin.ext (by
    match a with
    | ⟨0, _⟩ => rfl
    | ⟨1, _⟩ => exact (Nat.zero_add _).symm)
  have s1 : idx_main_v79 (ix2 i q) = ix2 i (third 64 (by omega) q) := funext fun a => Fin.ext (by
    match a with
    | ⟨0, _⟩ => rfl
    | ⟨1, _⟩ => rfl)
  have s2 : idx_main_v80 (ix2 i q) = ix2 i (third 128 (by omega) q) := funext fun a => Fin.ext (by
    match a with
    | ⟨0, _⟩ => rfl
    | ⟨1, _⟩ => rfl)
  have s3 : idx_main_v81 (ix2 i q) = ix2 i (third 0 (by omega) q) := funext fun a => Fin.ext (by
    match a with
    | ⟨0, _⟩ => rfl
    | ⟨1, _⟩ => exact (Nat.zero_add _).symm)
  have s4 : idx_main_v82 (ix2 i q) = ix2 i (third 64 (by omega) q) := funext fun a => Fin.ext (by
    match a with
    | ⟨0, _⟩ => rfl
    | ⟨1, _⟩ => rfl)
  have s5 : idx_main_v83 (ix2 i q) = ix2 i (third 128 (by omega) q) := funext fun a => Fin.ext (by
    match a with
    | ⟨0, _⟩ => rfl
    | ⟨1, _⟩ => rfl)
  rw [val_main_v105_apply, val_main_v103_apply, val_main_v104_apply, val_main_v102_apply, val_main_v101_apply, val_main_cst_13_apply, val_main_v100_apply, val_main_v99_apply, val_main_v98_apply, val_main_v97_apply, val_main_v96_apply, val_main_cst_12_apply, val_main_v95_apply, val_main_v94_apply, val_main_cst_11_apply, val_main_v93_apply, val_main_v92_apply, val_main_v91_apply, val_main_v90_apply, val_main_v89_apply, val_main_cst_10_apply, val_main_v88_apply, val_main_v87_apply, val_main_cst_9_apply, val_main_v86_apply, val_main_v85_apply, val_main_v84_apply, val_main_v78_apply, val_main_v79_apply, val_main_v80_apply, val_main_v81_apply, val_main_v82_apply, val_main_v83_apply,
    s0, s1, s2, s3, s4, s5]
  unfold gruCell
  simp only [Cert.Spec.one, Ideal.ofBits_def, Ideal.ofBits_one_f32, Ideal.addf_def, Ideal.subf_def, Ideal.mulf_def,
    Ideal.hostDivf_def, Ideal.hostUnary_exp_def, Ideal.hostUnary_tanh_def, Ideal.hostNegf_def, Ideal.negf_def, Ideal.logistic]

theorem gru1 :
    mat (val_main_v54 (F := Ideal) x0 x1 x3 x4 x5 x6 x7)
      = gru (mat (val_main_v16 (F := Ideal) x0 x1 x3)) (mat x0) (fun k j => x4 (ix2 j k)) (fun k j => x5 (ix2 j k))
          (fun j => x6 (ix1 j)) (fun j => x7 (ix1 j)) := by
  funext i q
  show val_main_v54 (F := Ideal) x0 x1 x3 x4 x5 x6 x7 (ix2 i q) = gruCell
    (gate (mat (val_main_v16 (F := Ideal) x0 x1 x3)) (fun k j => x4 (ix2 j k)) (fun j => x6 (ix1 j)) i)
    (gate (mat x0) (fun k j => x5 (ix2 j k)) (fun j => x7 (ix1 j)) i) (x0 (ix2 i q)) q
  rw [cell1]
  exact congrArg₂ (fun a b => gruCell a b (x0 (ix2 i q)) q) (funext fun j => gate_i1 x0 x1 x3 x4 x6 i j)
    (funext fun j => gate_h1 x0 x5 x7 i j)

theorem gru2 :
    mat (val_main_v106 (F := Ideal) x0 x1 x3 x4 x5 x6 x7)
      = gruRelu (mat (val_main_v67 (F := Ideal) x0 x1 x3 x4 x5 x6 x7)) (mat (val_main_v54 (F := Ideal) x0 x1 x3 x4 x5 x6 x7)) (fun k j => x4 (ix2 j k)) (fun k j => x5 (ix2 j k))
          (fun j => x6 (ix1 j)) (fun j => x7 (ix1 j)) := by
  funext i q
  show val_main_v106 (F := Ideal) x0 x1 x3 x4 x5 x6 x7 (ix2 i q) = max (gruCell
    (gate (mat (val_main_v67 (F := Ideal) x0 x1 x3 x4 x5 x6 x7)) (fun k j => x4 (ix2 j k)) (fun j => x6 (ix1 j)) i)
    (gate (mat (val_main_v54 (F := Ideal) x0 x1 x3 x4 x5 x6 x7)) (fun k j => x5 (ix2 j k)) (fun j => x7 (ix1 j)) i) (val_main_v54 (F := Ideal) x0 x1 x3 x4 x5 x6 x7 (ix2 i q)) q) zero
  rw [val_main_v106_apply, val_main_call0_v0_apply, val_main_call0_cst_apply, cell2]
  exact congrArg₂ (fun a b => max (gruCell a b (val_main_v54 (F := Ideal) x0 x1 x3 x4 x5 x6 x7 (ix2 i q)) q) zero)
    (funext fun j => gate_i2 x0 x1 x3 x4 x5 x6 x7 i j) (funext fun j => gate_h2 x0 x1 x3 x4 x5 x6 x7 i j)

end Cert.ReferenceIdeal.Hand

end
-- ==== Proof.LibVecScatter.lean ====
import Idealize.ShloMosaic.PureOps.Ideal
import Idealize.ShloMosaic.PureOps.Contract
import Idealize.ShloMosaic.Lib.ValueIdx
import Idealize.ShloMosaic.Lib.ValueIdxRank1
import Idealize.ShloMosaic.Lib.Pipeline.Value
import Mathlib.Algebra.BigOperators.Group.Finset.Basic
import Mathlib.Algebra.BigOperators.Fin

noncomputable section

open scoped BigOperators

namespace Cert.ReferenceIdeal.Hand

open Idealize.ShloMosaic Idealize.ShloMosaic.ValueIdx

section VecScatter

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

theorem vecScatter_start_zero (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vecScatter_window_zero (e : Fin E) :
    (vecScatter N E wf).window (ix1 e) 0 = 0 := by
  unfold ScatterDims.window
  rw [dif_neg]
  show (0 : Fin 1) ∉ (List.finRange 1).filter (· ∉ [(0 : Fin 1)])
  decide

theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start_zero, vecScatter_window_zero] at h0
    constructor
    · intro hf
      have e0 := congrArg (fun f => (f 0).val) hf
      simp only [vecScatter_start_zero, vecScatter_window_zero] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start_zero, vecScatter_window_zero]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start_zero, vecScatter_window_zero]
        have := d.isLt
        omega

theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, Finset.sum_filter,
    ← Equiv.sum_comp (idxEquiv1 (n := E)).symm
      (fun j => if (vecScatter N E wf).resultIdx? j idx = some (ix1 d) then upd j else 0)]
  refine Finset.sum_congr rfl fun e _ => ?_
  show (if (vecScatter N E wf).resultIdx? (ix1 e) idx = some (ix1 d) then upd (ix1 e) else 0) = _
  simp only [vecScatter_resultIdx_iff]

end VecScatter

end Cert.ReferenceIdeal.Hand

end
-- ==== Proof.Ref.Pool.lean ====
import proofs.«413690_j74569222193909_1_alg».proof.Proof.Ref.Basic
import proofs.«413690_j74569222193909_1_alg».proof.Proof.LibVecScatter
import proofs.«413690_j74569222193909_1_alg».proof.Proof.Gen.ReferenceIdeal.Read

noncomputable section

open scoped BigOperators

namespace Cert.ReferenceIdeal.Hand

open Idealize.ShloMosaic Idealize.ShloMosaic.ValueIdx Cert.Spec Cert.ReferenceIdeal Cert.ReferenceIdeal.Read

variable (x0 : (⟨S50000x64, .f32⟩ : BufTy).Contents (Elt Ideal)) (x1 : (⟨S2x800000, .i32⟩ : BufTy).Contents (Elt Ideal))
  (x2 : (⟨S50000, .i32⟩ : BufTy).Contents (Elt Ideal))
  (x3 : (⟨S2x64x64, .f32⟩ : BufTy).Contents (Elt Ideal)) (x4 x5 : (⟨S192x64, .f32⟩ : BufTy).Contents (Elt Ideal))
  (x6 x7 : (⟨S192, .f32⟩ : BufTy).Contents (Elt Ideal)) (x8 : (⟨S32x64, .f32⟩ : BufTy).Contents (Elt Ideal))
  (x9 : (⟨S32, .f32⟩ : BufTy).Contents (Elt Ideal)) (x10 : (⟨S6x32, .f32⟩ : BufTy).Contents (Elt Ideal))
  (x11 : (⟨S6, .f32⟩ : BufTy).Contents (Elt Ideal))

theorem batchcol_sum (i : Fin 50000) : val_main_v108 (F := Ideal) x2 (ix2 i 0) = x2 (ix1 i) := by
  rw [val_main_v108_apply]
  refine congrArg x2 (funext fun a => ?_)
  match a with
  | ⟨0, _⟩ => rfl

theorem batchcol_cnt (i : Fin 50000) : val_main_v112 (F := Ideal) x2 (ix2 i 0) = x2 (ix1 i) := by
  rw [val_main_v112_apply]
  refine congrArg x2 (funext fun a => ?_)
  match a with
  | ⟨0, _⟩ => rfl

theorem zero_sum (j : S128x64.Idx) : val_main_v107 (F := Ideal) j = 0 := by
  rw [val_main_v107_apply, val_main_cst_14_apply]
  exact Ideal.ofBits_zero_f32

theorem pool_sum :
    mat (val_main_v109 (F := Ideal) x0 x1 x2 x3 x4 x5 x6 x7) = poolSum (fun i => x2 (ix1 i)) (mat (val_main_v106 (F := Ideal) x0 x1 x3 x4 x5 x6 x7)) := by
  rw [poolSum_eq_scat]
  show mat (Host.scatterAdd (F := Ideal) (rowScatter 128 50000 64 Gen.scatter_S128x64_S50000x1_S50000x64_1_0_0_1_wf)
    (val_main_v107 (F := Ideal)) (val_main_v108 (F := Ideal) x2) (val_main_v106 (F := Ideal) x0 x1 x3 x4 x5 x6 x7)) = _
  exact scatterAdd_eq_scat (by norm_num) _ _ zero_sum _ _ (fun i => batchcol_sum x2 i) _

theorem pool_cnt : (fun g : Fin 128 => val_main_v113 (F := Ideal) x2 (ix1 g)) = poolCnt (fun i => x2 (ix1 i)) := by
  funext g
  show Host.scatterAdd (F := Ideal) (vecScatter 128 50000 Gen.scatter_S128_S50000x1_S50000_n_0_0_1_wf)
    (val_main_v111 (F := Ideal)) (val_main_v112 (F := Ideal) x2) (val_main_v110 (F := Ideal)) (ix1 g)
      = ∑ i : Fin 50000, hot (x2 (ix1 i)) (BitVec.ofNat 32 g.val) * oneN
  rw [vecScatterAdd_apply, val_main_v111_apply, val_main_cst_16_apply, Finset.sum_filter,
    show FloatOps.ofBits (F := Ideal) .f32 0x00000000#32 = 0 from Ideal.ofBits_zero_f32, zero_add]
  refine Finset.sum_congr rfl fun i _ => ?_
  rw [batchcol_cnt, val_main_v110_apply, val_main_cst_15_apply, oneN_eq,
    show FloatOps.ofBits (F := Ideal) .f32 0x3F800000#32 = 1 from Ideal.ofBits_one_f32]
  have hg : g.val < 2 ^ 31 := by have := g.isLt; omega
  unfold hot
  by_cases h : BitVec.ofNat 32 g.val = x2 (ix1 i)
  · rw [if_pos ((toInt_eq_natCast_iff _ _ hg).mpr h), if_pos h.symm, one_mul]
  · rw [if_neg (fun h' => h ((toInt_eq_natCast_iff _ _ hg).mp h')), if_neg (fun h' => h h'.symm), zero_mul]

end Cert.ReferenceIdeal.Hand

end
-- ==== Proof.Ref.Head.lean ====
import proofs.«413690_j74569222193909_1_alg».proof.Proof.Ref.Basic
import proofs.«413690_j74569222193909_1_alg».proof.Proof.Gen.ReferenceIdeal.Read
import Idealize.ShloMosaic.PureOps.Reduce
import Mathlib.Order.Fin.Basic

noncomputable section

open scoped BigOperators

namespace Cert.ReferenceIdeal.Hand

open Idealize.ShloMosaic Idealize.ShloMosaic.ValueIdx Cert.Spec Cert.ReferenceIdeal Cert.ReferenceIdeal.Read

variable (x0 : (⟨S50000x64, .f32⟩ : BufTy).Contents (Elt Ideal)) (x1 : (⟨S2x800000, .i32⟩ : BufTy).Contents (Elt Ideal))
  (x2 : (⟨S50000, .i32⟩ : BufTy).Contents (Elt Ideal))
  (x3 : (⟨S2x64x64, .f32⟩ : BufTy).Contents (Elt Ideal)) (x4 x5 : (⟨S192x64, .f32⟩ : BufTy).Contents (Elt Ideal))
  (x6 x7 : (⟨S192, .f32⟩ : BufTy).Contents (Elt Ideal)) (x8 : (⟨S32x64, .f32⟩ : BufTy).Contents (Elt Ideal))
  (x9 : (⟨S32, .f32⟩ : BufTy).Contents (Elt Ideal)) (x10 : (⟨S6x32, .f32⟩ : BufTy).Contents (Elt Ideal))
  (x11 : (⟨S6, .f32⟩ : BufTy).Contents (Elt Ideal))

theorem pooled_eq :
    mat (val_main_v118 (F := Ideal) x0 x1 x2 x3 x4 x5 x6 x7)
      = fun g q => Ideal.div (mat (val_main_v109 (F := Ideal) x0 x1 x2 x3 x4 x5 x6 x7) g q) (max (val_main_v113 (F := Ideal) x2 (ix1 g)) one) := by
  funext g q
  show val_main_v118 (F := Ideal) x0 x1 x2 x3 x4 x5 x6 x7 (ix2 g q) = Ideal.div (val_main_v109 (F := Ideal) x0 x1 x2 x3 x4 x5 x6 x7 (ix2 g q)) (max (val_main_v113 (F := Ideal) x2 (ix1 g)) one)
  have e0 : idx_main_v116 (idx_main_v117 (ix2 g q)) = ix1 g := funext fun a => by
    match a with
    | ⟨0, _⟩ => rfl
  rw [val_main_v118_apply, val_main_v117_apply, val_main_v116_apply, val_main_v115_apply, val_main_v114_apply,
    val_main_cst_17_apply, e0]
  rfl

theorem h1_eq :
    mat (val_main_v124 (F := Ideal) x0 x1 x2 x3 x4 x5 x6 x7 x8 x9)
      = fun g j => max (mm (mat (val_main_v118 (F := Ideal) x0 x1 x2 x3 x4 x5 x6 x7)) (fun k j => x8 (ix2 j k)) g j + (fun j => x9 (ix1 j)) j) zero := by
  funext g j
  show val_main_v124 (F := Ideal) x0 x1 x2 x3 x4 x5 x6 x7 x8 x9 (ix2 g j)
    = max ((∑ l : Fin 64, val_main_v118 (F := Ideal) x0 x1 x2 x3 x4 x5 x6 x7 (ix2 g l) * x8 (ix2 j l)) + x9 (ix1 j)) zero
  rw [val_main_v124_apply, val_main_call1_v0_apply, val_main_call1_cst_apply, val_main_v123_apply, val_main_v120_apply,
    val_main_v122_apply, val_main_v121_apply]
  show max ((∑ k : Fin 64, _) + _) _ = _
  refine congrArg (fun t => max t zero) (congrArg₂ (· + ·) (Finset.sum_congr rfl fun k _ => ?_) ?_)
  · rw [val_main_v119_apply]
    have e1 : lidx_main_v120 (ix2 g j) k = ix2 g k := funext fun a => by
      match a with
      | ⟨0, _⟩ => rfl
      | ⟨1, _⟩ => rfl
    have e2 : idx_main_v119 (ridx_main_v120 (ix2 g j) k) = ix2 j k := funext fun a => by
      match a with
      | ⟨0, _⟩ => rfl
      | ⟨1, _⟩ => rfl
    rw [e1, e2]
  · refine congrArg x9 (funext fun a => ?_)
    match a with
    | ⟨0, _⟩ => rfl

theorem lg_eq :
    mat (val_main_v129 (F := Ideal) x0 x1 x2 x3 x4 x5 x6 x7 x8 x9 x10 x11)
      = fun g j => mm (mat (val_main_v124 (F := Ideal) x0 x1 x2 x3 x4 x5 x6 x7 x8 x9)) (fun k j => x10 (ix2 j k)) g j + (fun j => x11 (ix1 j)) j := by
  funext g j
  show val_main_v129 (F := Ideal) x0 x1 x2 x3 x4 x5 x6 x7 x8 x9 x10 x11 (ix2 g j)
    = (∑ l : Fin 32, val_main_v124 (F := Ideal) x0 x1 x2 x3 x4 x5 x6 x7 x8 x9 (ix2 g l) * x10 (ix2 j l)) + x11 (ix1 j)
  rw [val_main_v129_apply, val_main_v126_apply, val_main_v128_apply, val_main_v127_apply]
  show (∑ k : Fin 32, _) + _ = _
  refine congrArg₂ (· + ·) (Finset.sum_congr rfl fun k _ => ?_) ?_
  · rw [val_main_v125_apply]
    have e1 : lidx_main_v126 (ix2 g j) k = ix2 g k := funext fun a => by
      match a with
      | ⟨0, _⟩ => rfl
      | ⟨1, _⟩ => rfl
    have e2 : idx_main_v125 (ridx_main_v126 (ix2 g j) k) = ix2 j k := funext fun a => by
      match a with
      | ⟨0, _⟩ => rfl
      | ⟨1, _⟩ => rfl
    rw [e1, e2]
  · refine congrArg x11 (funext fun a => ?_)
    match a with
    | ⟨0, _⟩ => rfl

theorem lift_row (h : S128x6.Reduces [1] S128) (g : Fin 128) (k : Fin (S128x6.size 1)) :
    h.lift (ix1 g) k = ix2 g (⟨k.val, k.isLt⟩ : Fin 6) := by
  funext c
  apply Fin.ext
  fin_cases c <;> rfl

theorem hostReduce_max_row (x : FVec Ideal S128x6 .f32) (h' : S128x6.ReducesTo [1] S128) (hu : 0 < S_.numel) (g : Fin 128) :
    Host.reduce FloatOps.maximumf x (constant (F := Ideal) S_ .f32 0xFF800000#32) h' hu (ix1 g)
      = Finset.univ.sup fun k : Fin 6 => x (ix2 g k) := by
  have h : S128x6.Reduces [1] S128 := by decide
  rw [Host.reduce_eq_fold_single FloatOps.maximumf x _ h' h hu]
  have hf : (x ∘ h.lift (ix1 g)) = fun k : Fin 6 => x (ix2 g k) := funext fun k => congrArg x (lift_row h g k)
  have hb : (constant (F := Ideal) S_ .f32 0xFF800000#32) (Shape.Idx.first hu) = (⊥ : EReal) := ninf_eq
  rw [hb]
  exact congrArg (fun f => Finset.fold max (⊥ : EReal) f (Finset.univ : Finset (Fin 6))) hf

theorem rowmax_eq (g : Fin 128) :
    val_main_call2_v2 (F := Ideal) x0 x1 x2 x3 x4 x5 x6 x7 x8 x9 x10 x11 (ix1 g) = rowMax (mat (val_main_v129 (F := Ideal) x0 x1 x2 x3 x4 x5 x6 x7 x8 x9 x10 x11) g) := by
  rw [val_main_call2_v2_apply, val_main_call2_v1_apply, val_main_call2_cst_0_apply]
  refine (congrArg (max (Ideal.ofBits .f32 0xFF800000#32))
    (hostReduce_max_row (val_main_v129 (F := Ideal) x0 x1 x2 x3 x4 x5 x6 x7 x8 x9 x10 x11) Gen.reducesTo_S128x6_S128_d1 Gen.h_S_ g)).trans ?_
  rw [show Ideal.ofBits .f32 0xFF800000#32 = (⊥ : EReal) from ninf_eq, max_eq_right bot_le]
  rfl

theorem sh_eq :
    mat (val_main_call2_v5 (F := Ideal) x0 x1 x2 x3 x4 x5 x6 x7 x8 x9 x10 x11)
      = fun g j => mat (val_main_v129 (F := Ideal) x0 x1 x2 x3 x4 x5 x6 x7 x8 x9 x10 x11) g j - rowMax (mat (val_main_v129 (F := Ideal) x0 x1 x2 x3 x4 x5 x6 x7 x8 x9 x10 x11) g) := by
  funext g j
  show val_main_call2_v5 (F := Ideal) x0 x1 x2 x3 x4 x5 x6 x7 x8 x9 x10 x11 (ix2 g j) = val_main_v129 (F := Ideal) x0 x1 x2 x3 x4 x5 x6 x7 x8 x9 x10 x11 (ix2 g j) - rowMax (mat (val_main_v129 (F := Ideal) x0 x1 x2 x3 x4 x5 x6 x7 x8 x9 x10 x11) g)
  have e0 : idx_main_call2_v3 (idx_main_call2_v4 (ix2 g j)) = ix1 g := funext fun a => by
    match a with
    | ⟨0, _⟩ => rfl
  rw [val_main_call2_v5_apply, val_main_call2_v4_apply, val_main_call2_v3_apply, e0, rowmax_eq]
  rfl

theorem out_eq :
    mat (val_main_v130 (F := Ideal) x0 x1 x2 x3 x4 x5 x6 x7 x8 x9 x10 x11)
      = fun g j => mat (val_main_call2_v5 (F := Ideal) x0 x1 x2 x3 x4 x5 x6 x7 x8 x9 x10 x11) g j
          - Ideal.log (∑ l : Fin 6, Ideal.exp (mat (val_main_call2_v5 (F := Ideal) x0 x1 x2 x3 x4 x5 x6 x7 x8 x9 x10 x11) g l)) := by
  funext g j
  show val_main_v130 (F := Ideal) x0 x1 x2 x3 x4 x5 x6 x7 x8 x9 x10 x11 (ix2 g j) = val_main_call2_v5 (F := Ideal) x0 x1 x2 x3 x4 x5 x6 x7 x8 x9 x10 x11 (ix2 g j)
    - Ideal.log (∑ l : Fin 6, Ideal.exp (val_main_call2_v5 (F := Ideal) x0 x1 x2 x3 x4 x5 x6 x7 x8 x9 x10 x11 (ix2 g l)))
  have e0 : idx_main_call2_v8 (idx_main_call2_v10 (ix2 g j)) = ix1 g := funext fun a => by
    match a with
    | ⟨0, _⟩ => rfl
  rw [val_main_v130_apply, val_main_call2_v10_apply, val_main_call2_v9_apply, val_main_call2_v8_apply, e0,
    val_main_call2_v7_apply, val_main_call2_cst_1_apply,
    show FloatOps.ofBits (F := Ideal) .f32 0x00000000#32 = 0 from Ideal.ofBits_zero_f32, zero_add]
  simp only [Ideal.subf_def, Ideal.hostUnary_log_def]
  refine congrArg (fun t : EReal => val_main_call2_v5 (F := Ideal) x0 x1 x2 x3 x4 x5 x6 x7 x8 x9 x10 x11 (ix2 g j) - Ideal.log t)
    (Finset.sum_congr rfl fun k _ => ?_)
  rw [val_main_call2_v6_apply]
  have e1 : idx_main_call2_v7 (ix1 g) k = ix2 g k := funext fun a => by
    match a with
    | ⟨0, _⟩ => rfl
    | ⟨1, _⟩ => rfl
  rw [e1]
  exact Ideal.hostUnary_exp_def _

theorem head_eq :
    mat (val_main_v130 (F := Ideal) x0 x1 x2 x3 x4 x5 x6 x7 x8 x9 x10 x11)
      = head (mat (val_main_v109 (F := Ideal) x0 x1 x2 x3 x4 x5 x6 x7)) (fun g => val_main_v113 (F := Ideal) x2 (ix1 g)) (fun k j => x8 (ix2 j k)) (fun j => x9 (ix1 j)) (fun k j => x10 (ix2 j k)) (fun j => x11 (ix1 j)) := by
  rw [out_eq, sh_eq, lg_eq, h1_eq, pooled_eq]
  rfl

end Cert.ReferenceIdeal.Hand

end
-- ==== Proof.Ref.lean ====
import proofs.«413690_j74569222193909_1_alg».proof.Proof.Ref.Layer
import proofs.«413690_j74569222193909_1_alg».proof.Proof.Ref.Pool
import proofs.«413690_j74569222193909_1_alg».proof.Proof.Ref.Head

noncomputable section

open scoped BigOperators

namespace Cert.ReferenceIdeal.Hand

open Idealize.ShloMosaic Idealize.ShloMosaic.ValueIdx Cert.ReferenceIdeal

theorem ref_net (x0 : (⟨S50000x64, .f32⟩ : BufTy).Contents (Elt Ideal)) (x1 : (⟨S2x800000, .i32⟩ : BufTy).Contents (Elt Ideal))
    (x2 : (⟨S50000, .i32⟩ : BufTy).Contents (Elt Ideal)) (x3 : (⟨S2x64x64, .f32⟩ : BufTy).Contents (Elt Ideal))
    (x4 x5 : (⟨S192x64, .f32⟩ : BufTy).Contents (Elt Ideal)) (x6 x7 : (⟨S192, .f32⟩ : BufTy).Contents (Elt Ideal))
    (x8 : (⟨S32x64, .f32⟩ : BufTy).Contents (Elt Ideal)) (x9 : (⟨S32, .f32⟩ : BufTy).Contents (Elt Ideal))
    (x10 : (⟨S6x32, .f32⟩ : BufTy).Contents (Elt Ideal)) (x11 : (⟨S6, .f32⟩ : BufTy).Contents (Elt Ideal))
    (hsrc : ∀ e : Fin 800000, (x1 (ix2 (0 : Fin 2) e)).toNat < 50000) :
    Cert.Spec.mat (Cert.ReferenceIdeal.Read.val_main_v130 (F := Ideal) x0 x1 x2 x3 x4 x5 x6 x7 x8 x9 x10 x11)
      = Cert.Spec.net (N := 50000) (E := 800000) (Cert.Spec.mat x0) (fun e => x1 (ix2 (0 : Fin 2) e))
          (fun e => x1 (ix2 (1 : Fin 2) e)) (fun i => x2 (ix1 i))
          (fun k j => x3 (ix3 (0 : Fin 2) k j)) (fun k j => x3 (ix3 (1 : Fin 2) k j)) (fun k j => x4 (ix2 j k))
          (fun k j => x5 (ix2 j k)) (fun j => x6 (ix1 j)) (fun j => x7 (ix1 j))
          (fun k j => x8 (ix2 j k)) (fun j => x9 (ix1 j)) (fun k j => x10 (ix2 j k)) (fun j => x11 (ix1 j)) := by
  rw [head_eq, pool_sum, pool_cnt, gru2, sca2, gat2 x0 x1 x3 x4 x5 x6 x7 hsrc, lin2, gru1, sca1, gat1 x0 x1 x3 hsrc, lin1]
  rfl

end Cert.ReferenceIdeal.Hand

end
-- ==== Proof.PreSrc.lean ====
import proofs.«413690_j74569222193909_1_alg».proof.Pre_finite_inputs
import Idealize.ShloMosaic.Lib.ReduceAll
import Idealize.ShloMosaic.Lib.ValueIdx
import Idealize.ShloMosaic.Lib.Pipeline.Value

noncomputable section

namespace Cert.Pre_finite_inputs.Hand

open Cert.Pre_finite_inputs Cert.Pre_finite_inputs.Facts
open Idealize.ShloMosaic Idealize.ShloMosaic.ValueIdx

variable {F : FTy → Type} [FloatOps F] [Cert.Pre_finite_inputs.Facts]

instance subsingleton_S_ : Subsingleton S_.Idx := ⟨fun a b => funext fun d => d.elim0⟩

theorem row0_apply (x : IVec S2x800000 32) (e : Fin 800000) :
    shapeCast S800000 (extractStridedSlice S1x800000 ![0, 0] x slices_S2x800000_S1x800000_0_0) shapeCasts_S1x800000_S800000 (ix1 e)
      = x (ix2 (0 : Fin 2) e) := by
  refine (shapeCast_apply _ shapeCasts_S1x800000_S800000 (ix1 e) (ix2 (0 : Fin 1) e) ?_).trans ?_
  · rw [Shape.rowMajor_val_two, Shape.rowMajor_val_one]
    show (0 : ℕ) * 800000 + e.val = e.val
    omega
  · exact extractStridedSlice_apply _ x slices_S2x800000_S1x800000_0_0 (ix2 (0 : Fin 1) e) (ix2 (0 : Fin 2) e)
      (fun a => match a with
        | ⟨0, _⟩ => by show (0 : ℕ) = 0 + 0; rfl
        | ⟨1, _⟩ => by show e.val = 0 + e.val; omega)

theorem toNat_lt_of_signed (w : BitVec 32) (h0 : IntOp.cmpi .sge w 0#32 = 1#1) (h1 : IntOp.cmpi .slt w 50000#32 = 1#1) :
    w.toNat < 50000 := by
  rw [IntOp.cmpi_sge, show (0#32 : BitVec 32).toInt = 0 from by decide] at h0
  rw [IntOp.cmpi_slt, show (50000#32 : BitVec 32).toInt = 50000 from by decide] at h1
  rw [BitVec.toInt_eq_msb_cond] at h0 h1
  have hw := w.isLt
  cases hm : w.msb <;> rw [hm] at h0 h1 <;> simp at h0 h1 <;> omega

theorem part3_all (x1 : IVec S2x800000 32) (v48 : IVec S_ 1) (v50 : IVec S800000 32) (c18 : IVec S_ 32)
    (h : fn_part3 (F := F) x1 v48 v50 c18 ix0 = 1#1) (j : S800000.Idx) :
    IntOp.cmpi .sge (v50 j) (c18 ix0) = 1#1 ∧
      IntOp.cmpi .slt (shapeCast S800000 (extractStridedSlice S1x800000 ![0, 0] x1 slices_S2x800000_S1x800000_0_0)
        shapeCasts_S1x800000_S800000 j) 50000#32 = 1#1 := by
  have h' : IntOp.andi (IntOp.andi (v48 ix0)
        (Host.reduce IntOp.andi (cmpi .sge v50 (broadcastInDim S800000 ![] bcast_S_S800000 c18)) (constantI S_ 1 1#1)
          reducesTo_S800000_S_d0 h_S_ ix0))
      (Host.reduce IntOp.andi (cmpi .slt (shapeCast S800000 (extractStridedSlice S1x800000 ![0, 0] x1 slices_S2x800000_S1x800000_0_0)
          shapeCasts_S1x800000_S800000) (broadcastInDim S800000 ![] bcast_S_S800000 (constantI S_ 32 50000#32))) (constantI S_ 1 1#1)
          reducesTo_S800000_S_d0 h_S_ ix0) = 1#1 := h
  obtain ⟨h1, hlt⟩ := IntOp.andi_eq_one.1 h'
  obtain ⟨-, hge⟩ := IntOp.andi_eq_one.1 h1
  have ege := Host.reduce_andi_all _ _ _ _ _ hge j
  have elt := Host.reduce_andi_all _ _ _ _ _ hlt j
  refine ⟨?_, elt⟩
  have eb : broadcastInDim S800000 ![] bcast_S_S800000 c18 j = c18 ix0 := congrArg c18 (eq_ix0 _)
  rw [← eb]; exact ege

theorem src_range (x0 : FVec F S50000x64 .f32) (x1 : IVec S2x800000 32) (x2 : IVec S50000 32) (x3 : FVec F S2x64x64 .f32)
    (x4 : FVec F S192x64 .f32) (x5 : FVec F S192x64 .f32) (x6 : FVec F S192 .f32) (x7 : FVec F S192 .f32)
    (x8 : FVec F S32x64 .f32) (x9 : FVec F S32 .f32) (x10 : FVec F S6x32 .f32) (x11 : FVec F S6 .f32)
    (h : Cert.Pre_finite_inputs.fn (F := F) x0 x1 x2 x3 x4 x5 x6 x7 x8 x9 x10 x11 = (fun _ => 1#1)) :
    ∀ e : Fin 800000, (x1 (Idealize.ShloMosaic.ValueIdx.ix2 (0 : Fin 2) e)).toNat < 50000 := by
  intro e
  have h0 := congrFun h ix0
  obtain ⟨v48, e3⟩ : ∃ v48 : IVec S_ 1, Cert.Pre_finite_inputs.fn (F := F) x0 x1 x2 x3 x4 x5 x6 x7 x8 x9 x10 x11
      = fn_part3 (F := F) x1 v48 (shapeCast S800000 (extractStridedSlice S1x800000 ![0, 0] x1 slices_S2x800000_S1x800000_0_0)
          shapeCasts_S1x800000_S800000) (constantI S_ 32 0#32) := ⟨_, rfl⟩
  rw [e3] at h0
  obtain ⟨hge, hlt⟩ := part3_all (F := F) x1 v48 _ _ h0 (ix1 e)
  rw [row0_apply] at hge hlt
  exact toNat_lt_of_signed _ hge hlt

end Cert.Pre_finite_inputs.Hand

end
-- ==== Proof.Alg.lean ====
import proofs.«413690_j74569222193909_1_alg».proof.Defs
import proofs.«413690_j74569222193909_1_alg».proof.Proof.Gen.ReferenceIdeal.Run
import proofs.«413690_j74569222193909_1_alg».proof.Proof.Gen.ReferenceIdeal.Read
import proofs.«413690_j74569222193909_1_alg».proof.Proof.Gen.Pre_finite_inputs
import proofs.«413690_j74569222193909_1_alg».proof.Proof.Gen.KernelIdeal
import proofs.«413690_j74569222193909_1_alg».proof.Proof.Gen.ReferenceIdeal
import proofs.«413690_j74569222193909_1_alg».proof.Proof.KI.RunVal
import proofs.«413690_j74569222193909_1_alg».proof.Proof.KI.Chain
import proofs.«413690_j74569222193909_1_alg».proof.Proof.KI.Host
import proofs.«413690_j74569222193909_1_alg».proof.Proof.Spec
import proofs.«413690_j74569222193909_1_alg».proof.Proof.Bridge
import proofs.«413690_j74569222193909_1_alg».proof.Proof.Ref
import proofs.«413690_j74569222193909_1_alg».proof.Proof.PreSrc

set_option maxRecDepth 16384

noncomputable section

open Idealize.ShloMosaic Idealize.ShloMosaic.TcCoe Idealize.SL.Sem Idealize.ShloMosaic.ValueIdx

namespace Cert.Proof.Alg

theorem mat_inj {a b : ℕ} {α : Type} {f g : (⟨2, ![a, b]⟩ : Shape).Idx → α} (h : Cert.Spec.mat f = Cert.Spec.mat g) : f = g := by
  funext j
  rw [eq_ix2 j]
  exact congrFun (congrFun h (j 0)) (j 1)

open Cert.KernelIdeal Cert.KernelIdeal.Gen Cert.KernelIdeal.Hand in
theorem net_host (m : (ℓ : Loc nD τ sig) → Buf (Elt Ideal) ℓ) (c : Dev nD)
    (hsrc : ∀ e : Fin 800000, (m ((c : Thread nD τ).loc main_arg1) (ix2 (0 : Fin 2) e)).toNat < 50000) :
    Cert.Spec.net (N := 50176) (E := 800000) (Cert.Spec.mat (V5 m c main_v0)) (Cert.Spec.col0 (V5 m c main_v5)) (Cert.Spec.row0 (V5 m c main_v8)) (Cert.Spec.col0 (V5 m c main_v2))
            (Cert.Spec.mat (V5 m c main_v14)) (Cert.Spec.mat (V9 m (outs m) c main_v19)) (Cert.Spec.mat (V5 m c main_v9)) (Cert.Spec.mat (V5 m c main_v10)) (Cert.Spec.row0 (V5 m c main_v11)) (Cert.Spec.row0 (V5 m c main_v12))
            (Cert.Spec.mat (V14 m (outs m) c main_v24)) (Cert.Spec.row0 (V14 m (outs m) c main_v25)) (Cert.Spec.mat (V14 m (outs m) c main_v26)) (Cert.Spec.row0 (V14 m (outs m) c main_v27))
      = Cert.Spec.net (N := 50000) (E := 800000) (Cert.Spec.mat (m ((c : Thread nD τ).loc main_arg0))) (fun e => m ((c : Thread nD τ).loc main_arg1) (ix2 (0 : Fin 2) e)) (fun e => m ((c : Thread nD τ).loc main_arg1) (ix2 (1 : Fin 2) e)) (fun i => m ((c : Thread nD τ).loc main_arg2) (ix1 i))
          (fun k j => m ((c : Thread nD τ).loc main_arg3) (ix3 (0 : Fin 2) k j)) (fun k j => m ((c : Thread nD τ).loc main_arg3) (ix3 (1 : Fin 2) k j)) (fun k j => m ((c : Thread nD τ).loc main_arg4) (ix2 j k)) (fun k j => m ((c : Thread nD τ).loc main_arg5) (ix2 j k)) (fun j => m ((c : Thread nD τ).loc main_arg6) (ix1 j)) (fun j => m ((c : Thread nD τ).loc main_arg7) (ix1 j))
          (fun k j => m ((c : Thread nD τ).loc main_arg8) (ix2 j k)) (fun j => m ((c : Thread nD τ).loc main_arg9) (ix1 j)) (fun k j => m ((c : Thread nD τ).loc main_arg10) (ix2 j k)) (fun j => m ((c : Thread nD τ).loc main_arg11) (ix1 j)) := by
  rw [show Cert.Spec.col0 (V5 m c main_v5) = fun e => m ((c : Thread nD τ).loc main_arg1) (ix2 (0 : Fin 2) e) from funext (host_src m c),
    show Cert.Spec.row0 (V5 m c main_v8) = fun e => m ((c : Thread nD τ).loc main_arg1) (ix2 (1 : Fin 2) e) from funext (host_dst m c),
    show Cert.Spec.mat (V5 m c main_v14) = fun k j => m ((c : Thread nD τ).loc main_arg3) (ix3 (0 : Fin 2) k j) from funext fun k => funext (host_W0 m c k),
    show Cert.Spec.mat (V9 m (outs m) c main_v19) = fun k j => m ((c : Thread nD τ).loc main_arg3) (ix3 (1 : Fin 2) k j) from funext fun k => funext (host_W1 m (outs m) c k),
    show Cert.Spec.mat (V5 m c main_v9) = fun k j => m ((c : Thread nD τ).loc main_arg4) (ix2 j k) from funext fun k => funext (host_wih m c k),
    show Cert.Spec.mat (V5 m c main_v10) = fun k j => m ((c : Thread nD τ).loc main_arg5) (ix2 j k) from funext fun k => funext (host_whh m c k),
    show Cert.Spec.row0 (V5 m c main_v11) = fun j => m ((c : Thread nD τ).loc main_arg6) (ix1 j) from funext (host_bih m c),
    show Cert.Spec.row0 (V5 m c main_v12) = fun j => m ((c : Thread nD τ).loc main_arg7) (ix1 j) from funext (host_bhh m c),
    show Cert.Spec.mat (V14 m (outs m) c main_v24) = fun k j => m ((c : Thread nD τ).loc main_arg8) (ix2 j k) from funext fun k => funext (host_w1 m (outs m) c k),
    show Cert.Spec.row0 (V14 m (outs m) c main_v25) = fun j => m ((c : Thread nD τ).loc main_arg9) (ix1 j) from funext (host_b1 m (outs m) c),
    show Cert.Spec.mat (V14 m (outs m) c main_v26) = fun k j => m ((c : Thread nD τ).loc main_arg10) (ix2 j k) from funext fun k => funext (host_w2 m (outs m) c k),
    show Cert.Spec.row0 (V14 m (outs m) c main_v27) = fun j => m ((c : Thread nD τ).loc main_arg11) (ix1 j) from funext (host_b2 m (outs m) c)]
  exact Cert.Spec.net_pad _ _ _ _ _ _ _ _ _ _ _ _ _ _ _ _ hsrc (fun i hi q => host_h m c i hi q) (fun i hi => host_batch_lo m c i hi) (fun i hi => host_batch_hi m c i hi)

theorem algebraic : Cert.algebraic_KernelIdeal_ReferenceIdeal := by
  intro m ρ m' ρ' hpre hagree
  refine ⟨fun c => (Cert.KernelIdeal.Hand.dat7 (fun c b => Cert.KernelIdeal.Gen.V14 m (Cert.KernelIdeal.Hand.outs m) c b) c).arrAt 6 Cert.KernelIdeal.cfg7.N,
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  have hsrc := Cert.Pre_finite_inputs.Hand.src_range (F := Ideal) _ _ _ _ _ _ _ _ _ _ _ _ (hpre c)
  rw [Cert.ReferenceIdeal.Read.val_main_v130_eq, h0, h1, h2, h3, h4, h5, h6, h7, h8, h9, h10, h11]
  apply mat_inj
  rw [Cert.ReferenceIdeal.Hand.ref_net _ _ _ _ _ _ _ _ _ _ _ _ hsrc, Cert.KernelIdeal.Hand.chain m c]
  exact (net_host m c hsrc).symm

end Cert.Proof.Alg

end
-- ==== Proof.lean ====
import proofs.«413690_j74569222193909_1_alg».proof.Defs
import proofs.«413690_j74569222193909_1_alg».proof.Proof.Gen.Kernel
import proofs.«413690_j74569222193909_1_alg».proof.Proof.Gen.KernelIdeal
import proofs.«413690_j74569222193909_1_alg».proof.Proof.Gen.ReferenceIdeal
import proofs.«413690_j74569222193909_1_alg».proof.Proof.Gen.ReferenceIdeal.Run
import proofs.«413690_j74569222193909_1_alg».proof.Proof.Gen.ReferenceIdeal.Read
import proofs.«413690_j74569222193909_1_alg».proof.Proof.Gen.Pre_finite_inputs
import proofs.«413690_j74569222193909_1_alg».proof.Proof.K.Run
import proofs.«413690_j74569222193909_1_alg».proof.Proof.KI.Run
import proofs.«413690_j74569222193909_1_alg».proof.Proof.Alg
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_run m ρ

theorem frame_ki : Cert.frame_KernelIdeal := fun m ρ _ => Cert.KernelIdeal.Hand.frame_run m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Alg.algebraic⟩

end Cert.Proof

end
